-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S600000x128 : Shape := ⟨2, ![600000, 128]⟩
abbrev S1600000x32 : Shape := ⟨2, ![1600000, 32]⟩
abbrev S128x128 : Shape := ⟨2, ![128, 128]⟩
abbrev S1x128 : Shape := ⟨2, ![1, 128]⟩
abbrev S160x128 : Shape := ⟨2, ![160, 128]⟩
abbrev S100000x1 : Shape := ⟨2, ![100000, 1]⟩
abbrev S100000x2 : Shape := ⟨2, ![100000, 2]⟩
abbrev S100000x3 : Shape := ⟨2, ![100000, 3]⟩
abbrev S100000x4 : Shape := ⟨2, ![100000, 4]⟩
abbrev S100000x5 : Shape := ⟨2, ![100000, 5]⟩
abbrev S_ : Shape := ⟨0, ![]⟩

class Facts : Prop where
  bcast_S_S600000x128 : S_.BroadcastsInDim S600000x128 (![] : Fin 0 → Fin S600000x128.rank)
  reducesTo_S600000x128_S_d0_1 : S600000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S160x128 : S_.BroadcastsInDim S160x128 (![] : Fin 0 → Fin S160x128.rank)
  reducesTo_S160x128_S_d0_1 : S160x128.ReducesTo [0, 1] S_
  bcast_S_S100000x1 : S_.BroadcastsInDim S100000x1 (![] : Fin 0 → Fin S100000x1.rank)
  reducesTo_S100000x1_S_d0_1 : S100000x1.ReducesTo [0, 1] S_
  bcast_S_S100000x2 : S_.BroadcastsInDim S100000x2 (![] : Fin 0 → Fin S100000x2.rank)
  reducesTo_S100000x2_S_d0_1 : S100000x2.ReducesTo [0, 1] S_
  bcast_S_S100000x3 : S_.BroadcastsInDim S100000x3 (![] : Fin 0 → Fin S100000x3.rank)
  reducesTo_S100000x3_S_d0_1 : S100000x3.ReducesTo [0, 1] S_
  bcast_S_S100000x4 : S_.BroadcastsInDim S100000x4 (![] : Fin 0 → Fin S100000x4.rank)
  reducesTo_S100000x4_S_d0_1 : S100000x4.ReducesTo [0, 1] S_
  bcast_S_S100000x5 : S_.BroadcastsInDim S100000x5 (![] : Fin 0 → Fin S100000x5.rank)
  reducesTo_S100000x5_S_d0_1 : S100000x5.ReducesTo [0, 1] S_

variable [Facts]

def fn_part6 {F : FTy → Type} [FloatOps F] (main_arg17 : IVec S100000x5 32) (main_arg18 : IVec S100000x5 32) (main_v99 : IVec S_ 1) (main_v100 : IVec S100000x5 32) : IVec S_ 1 :=
  let main_v101 : IVec S100000x5 1 := cmpi .sge main_arg17 main_v100
  let main_c_41 : IVec S_ 32 := constantI S_ 32 600000#32
  let main_v102 : IVec S100000x5 32 := broadcastInDim S100000x5 ![] bcast_S_S100000x5 main_c_41
  let main_v103 : IVec S100000x5 1 := cmpi .slt main_arg17 main_v102
  let main_v104 : IVec S100000x5 1 := andi main_v101 main_v103
  let main_c_42 : IVec S_ 1 := constantI S_ 1 1#1
  let main_v105 : IVec S_ 1 := (fun x v => Host.reduce IntOp.andi x v reducesTo_S100000x5_S_d0_1 h_S_) main_v104 main_c_42
  let main_v106 : IVec S_ 1 := andi main_v99 main_v105
  let main_c_43 : IVec S_ 32 := constantI S_ 32 4293367296#32
  let main_v107 : IVec S100000x5 32 := broadcastInDim S100000x5 ![] bcast_S_S100000x5 main_c_43
  let main_v108 : IVec S100000x5 1 := cmpi .sge main_arg18 main_v107
  let main_c_44 : IVec S_ 32 := constantI S_ 32 1600000#32
  let main_v109 : IVec S100000x5 32 := broadcastInDim S100000x5 ![] bcast_S_S100000x5 main_c_44
  let main_v110 : IVec S100000x5 1 := cmpi .slt main_arg18 main_v109
  let main_v111 : IVec S100000x5 1 := andi main_v108 main_v110
  let main_c_45 : IVec S_ 1 := constantI S_ 1 1#1
  let main_v112 : IVec S_ 1 := (fun x v => Host.reduce IntOp.andi x v reducesTo_S100000x5_S_d0_1 h_S_) main_v111 main_c_45
  let main_v113 : IVec S_ 1 := andi main_v106 main_v112
  main_v113

def fn_part5 {F : FTy → Type} [FloatOps F] (main_arg15 : IVec S100000x4 32) (main_arg16 : IVec S100000x4 32) (main_arg17 : IVec S100000x5 32) (main_arg18 : IVec S100000x5 32) (main_v78 : IVec S_ 1) (main_v83 : IVec S100000x3 1) (main_c_33 : IVec S_ 1) : IVec S_ 1 :=
  let main_v84 : IVec S_ 1 := (fun x v => Host.reduce IntOp.andi x v reducesTo_S100000x3_S_d0_1 h_S_) main_v83 main_c_33
  let main_v85 : IVec S_ 1 := andi main_v78 main_v84
  let main_c_34 : IVec S_ 32 := constantI S_ 32 4294367296#32
  let main_v86 : IVec S100000x4 32 := broadcastInDim S100000x4 ![] bcast_S_S100000x4 main_c_34
  let main_v87 : IVec S100000x4 1 := cmpi .sge main_arg15 main_v86
  let main_c_35 : IVec S_ 32 := constantI S_ 32 600000#32
  let main_v88 : IVec S100000x4 32 := broadcastInDim S100000x4 ![] bcast_S_S100000x4 main_c_35
  let main_v89 : IVec S100000x4 1 := cmpi .slt main_arg15 main_v88
  let main_v90 : IVec S100000x4 1 := andi main_v87 main_v89
  let main_c_36 : IVec S_ 1 := constantI S_ 1 1#1
  let main_v91 : IVec S_ 1 := (fun x v => Host.reduce IntOp.andi x v reducesTo_S100000x4_S_d0_1 h_S_) main_v90 main_c_36
  let main_v92 : IVec S_ 1 := andi main_v85 main_v91
  let main_c_37 : IVec S_ 32 := constantI S_ 32 4293367296#32
  let main_v93 : IVec S100000x4 32 := broadcastInDim S100000x4 ![] bcast_S_S100000x4 main_c_37
  let main_v94 : IVec S100000x4 1 := cmpi .sge main_arg16 main_v93
  let main_c_38 : IVec S_ 32 := constantI S_ 32 1600000#32
  let main_v95 : IVec S100000x4 32 := broadcastInDim S100000x4 ![] bcast_S_S100000x4 main_c_38
  let main_v96 : IVec S100000x4 1 := cmpi .slt main_arg16 main_v95
  let main_v97 : IVec S100000x4 1 := andi main_v94 main_v96
  let main_c_39 : IVec S_ 1 := constantI S_ 1 1#1
  let main_v98 : IVec S_ 1 := (fun x v => Host.reduce IntOp.andi x v reducesTo_S100000x4_S_d0_1 h_S_) main_v97 main_c_39
  let main_v99 : IVec S_ 1 := andi main_v92 main_v98
  let main_c_40 : IVec S_ 32 := constantI S_ 32 4294367296#32
  let main_v100 : IVec S100000x5 32 := broadcastInDim S100000x5 ![] bcast_S_S100000x5 main_c_40
  fn_part6 (F := F) main_arg17 main_arg18 main_v99 main_v100

def fn_part4 {F : FTy → Type} [FloatOps F] (main_arg12 : IVec S100000x2 32) (main_arg13 : IVec S100000x3 32) (main_arg14 : IVec S100000x3 32) (main_arg15 : IVec S100000x4 32) (main_arg16 : IVec S100000x4 32) (main_arg17 : IVec S100000x5 32) (main_arg18 : IVec S100000x5 32) (main_v64 : IVec S_ 1) (main_v66 : IVec S100000x2 1) (main_c_26 : IVec S_ 32) : IVec S_ 1 :=
  let main_v67 : IVec S100000x2 32 := broadcastInDim S100000x2 ![] bcast_S_S100000x2 main_c_26
  let main_v68 : IVec S100000x2 1 := cmpi .slt main_arg12 main_v67
  let main_v69 : IVec S100000x2 1 := andi main_v66 main_v68
  let main_c_27 : IVec S_ 1 := constantI S_ 1 1#1
  let main_v70 : IVec S_ 1 := (fun x v => Host.reduce IntOp.andi x v reducesTo_S100000x2_S_d0_1 h_S_) main_v69 main_c_27
  let main_v71 : IVec S_ 1 := andi main_v64 main_v70
  let main_c_28 : IVec S_ 32 := constantI S_ 32 4294367296#32
  let main_v72 : IVec S100000x3 32 := broadcastInDim S100000x3 ![] bcast_S_S100000x3 main_c_28
  let main_v73 : IVec S100000x3 1 := cmpi .sge main_arg13 main_v72
  let main_c_29 : IVec S_ 32 := constantI S_ 32 600000#32
  let main_v74 : IVec S100000x3 32 := broadcastInDim S100000x3 ![] bcast_S_S100000x3 main_c_29
  let main_v75 : IVec S100000x3 1 := cmpi .slt main_arg13 main_v74
  let main_v76 : IVec S100000x3 1 := andi main_v73 main_v75
  let main_c_30 : IVec S_ 1 := constantI S_ 1 1#1
  let main_v77 : IVec S_ 1 := (fun x v => Host.reduce IntOp.andi x v reducesTo_S100000x3_S_d0_1 h_S_) main_v76 main_c_30
  let main_v78 : IVec S_ 1 := andi main_v71 main_v77
  let main_c_31 : IVec S_ 32 := constantI S_ 32 4293367296#32
  let main_v79 : IVec S100000x3 32 := broadcastInDim S100000x3 ![] bcast_S_S100000x3 main_c_31
  let main_v80 : IVec S100000x3 1 := cmpi .sge main_arg14 main_v79
  let main_c_32 : IVec S_ 32 := constantI S_ 32 1600000#32
  let main_v81 : IVec S100000x3 32 := broadcastInDim S100000x3 ![] bcast_S_S100000x3 main_c_32
  let main_v82 : IVec S100000x3 1 := cmpi .slt main_arg14 main_v81
  let main_v83 : IVec S100000x3 1 := andi main_v80 main_v82
  let main_c_33 : IVec S_ 1 := constantI S_ 1 1#1
  fn_part5 (F := F) main_arg15 main_arg16 main_arg17 main_arg18 main_v78 main_v83 main_c_33

def fn_part3 {F : FTy → Type} [FloatOps F] (main_arg10 : IVec S100000x1 32) (main_arg11 : IVec S100000x2 32) (main_arg12 : IVec S100000x2 32) (main_arg13 : IVec S100000x3 32) (main_arg14 : IVec S100000x3 32) (main_arg15 : IVec S100000x4 32) (main_arg16 : IVec S100000x4 32) (main_arg17 : IVec S100000x5 32) (main_arg18 : IVec S100000x5 32) (main_v50 : IVec S_ 1) : IVec S_ 1 :=
  let main_c_19 : IVec S_ 32 := constantI S_ 32 4293367296#32
  let main_v51 : IVec S100000x1 32 := broadcastInDim S100000x1 ![] bcast_S_S100000x1 main_c_19
  let main_v52 : IVec S100000x1 1 := cmpi .sge main_arg10 main_v51
  let main_c_20 : IVec S_ 32 := constantI S_ 32 1600000#32
  let main_v53 : IVec S100000x1 32 := broadcastInDim S100000x1 ![] bcast_S_S100000x1 main_c_20
  let main_v54 : IVec S100000x1 1 := cmpi .slt main_arg10 main_v53
  let main_v55 : IVec S100000x1 1 := andi main_v52 main_v54
  let main_c_21 : IVec S_ 1 := constantI S_ 1 1#1
  let main_v56 : IVec S_ 1 := (fun x v => Host.reduce IntOp.andi x v reducesTo_S100000x1_S_d0_1 h_S_) main_v55 main_c_21
  let main_v57 : IVec S_ 1 := andi main_v50 main_v56
  let main_c_22 : IVec S_ 32 := constantI S_ 32 4294367296#32
  let main_v58 : IVec S100000x2 32 := broadcastInDim S100000x2 ![] bcast_S_S100000x2 main_c_22
  let main_v59 : IVec S100000x2 1 := cmpi .sge main_arg11 main_v58
  let main_c_23 : IVec S_ 32 := constantI S_ 32 600000#32
  let main_v60 : IVec S100000x2 32 := broadcastInDim S100000x2 ![] bcast_S_S100000x2 main_c_23
  let main_v61 : IVec S100000x2 1 := cmpi .slt main_arg11 main_v60
  let main_v62 : IVec S100000x2 1 := andi main_v59 main_v61
  let main_c_24 : IVec S_ 1 := constantI S_ 1 1#1
  let main_v63 : IVec S_ 1 := (fun x v => Host.reduce IntOp.andi x v reducesTo_S100000x2_S_d0_1 h_S_) main_v62 main_c_24
  let main_v64 : IVec S_ 1 := andi main_v57 main_v63
  let main_c_25 : IVec S_ 32 := constantI S_ 32 4293367296#32
  let main_v65 : IVec S100000x2 32 := broadcastInDim S100000x2 ![] bcast_S_S100000x2 main_c_25
  let main_v66 : IVec S100000x2 1 := cmpi .sge main_arg12 main_v65
  let main_c_26 : IVec S_ 32 := constantI S_ 32 1600000#32
  fn_part4 (F := F) main_arg12 main_arg13 main_arg14 main_arg15 main_arg16 main_arg17 main_arg18 main_v64 main_v66 main_c_26

def fn_part2 {F : FTy → Type} [FloatOps F] (main_arg7 : FVec F S160x128 .f32) (main_arg8 : FVec F S160x128 .f32) (main_arg9 : IVec S100000x1 32) (main_arg10 : IVec S100000x1 32) (main_arg11 : IVec S100000x2 32) (main_arg12 : IVec S100000x2 32) (main_arg13 : IVec S100000x3 32) (main_arg14 : IVec S100000x3 32) (main_arg15 : IVec S100000x4 32) (main_arg16 : IVec S100000x4 32) (main_arg17 : IVec S100000x5 32) (main_arg18 : IVec S100000x5 32) (main_v33 : IVec S_ 1) : IVec S_ 1 :=
  let main_v34 : FVec F S160x128 .f32 := Host.absf main_arg7
  let main_cst_12 : FVec F S_ .f32 := constant S_ .f32 0x7F800000#32
  let main_v35 : FVec F S160x128 .f32 := broadcastInDim S160x128 ![] bcast_S_S160x128 main_cst_12
  let main_v36 : IVec S160x128 1 := cmpf .olt main_v34 main_v35
  let main_c_13 : IVec S_ 1 := constantI S_ 1 1#1
  let main_v37 : IVec S_ 1 := (fun x v => Host.reduce IntOp.andi x v reducesTo_S160x128_S_d0_1 h_S_) main_v36 main_c_13
  let main_v38 : IVec S_ 1 := andi main_v33 main_v37
  let main_v39 : FVec F S160x128 .f32 := Host.absf main_arg8
  let main_cst_14 : FVec F S_ .f32 := constant S_ .f32 0x7F800000#32
  let main_v40 : FVec F S160x128 .f32 := broadcastInDim S160x128 ![] bcast_S_S160x128 main_cst_14
  let main_v41 : IVec S160x128 1 := cmpf .olt main_v39 main_v40
  let main_c_15 : IVec S_ 1 := constantI S_ 1 1#1
  let main_v42 : IVec S_ 1 := (fun x v => Host.reduce IntOp.andi x v reducesTo_S160x128_S_d0_1 h_S_) main_v41 main_c_15
  let main_v43 : IVec S_ 1 := andi main_v38 main_v42
  let main_c_16 : IVec S_ 32 := constantI S_ 32 4294367296#32
  let main_v44 : IVec S100000x1 32 := broadcastInDim S100000x1 ![] bcast_S_S100000x1 main_c_16
  let main_v45 : IVec S100000x1 1 := cmpi .sge main_arg9 main_v44
  let main_c_17 : IVec S_ 32 := constantI S_ 32 600000#32
  let main_v46 : IVec S100000x1 32 := broadcastInDim S100000x1 ![] bcast_S_S100000x1 main_c_17
  let main_v47 : IVec S100000x1 1 := cmpi .slt main_arg9 main_v46
  let main_v48 : IVec S100000x1 1 := andi main_v45 main_v47
  let main_c_18 : IVec S_ 1 := constantI S_ 1 1#1
  let main_v49 : IVec S_ 1 := (fun x v => Host.reduce IntOp.andi x v reducesTo_S100000x1_S_d0_1 h_S_) main_v48 main_c_18
  let main_v50 : IVec S_ 1 := andi main_v43 main_v49
  fn_part3 (F := F) main_arg10 main_arg11 main_arg12 main_arg13 main_arg14 main_arg15 main_arg16 main_arg17 main_arg18 main_v50

def fn_part1 {F : FTy → Type} [FloatOps F] (main_arg4 : FVec F S160x128 .f32) (main_arg5 : FVec F S160x128 .f32) (main_arg6 : FVec F S160x128 .f32) (main_arg7 : FVec F S160x128 .f32) (main_arg8 : FVec F S160x128 .f32) (main_arg9 : IVec S100000x1 32) (main_arg10 : IVec S100000x1 32) (main_arg11 : IVec S100000x2 32) (main_arg12 : IVec S100000x2 32) (main_arg13 : IVec S100000x3 32) (main_arg14 : IVec S100000x3 32) (main_arg15 : IVec S100000x4 32) (main_arg16 : IVec S100000x4 32) (main_arg17 : IVec S100000x5 32) (main_arg18 : IVec S100000x5 32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S160x128 .f32 := Host.absf main_arg4
  let main_cst_6 : FVec F S_ .f32 := constant S_ .f32 0x7F800000#32
  let main_v20 : FVec F S160x128 .f32 := broadcastInDim S160x128 ![] bcast_S_S160x128 main_cst_6
  let main_v21 : IVec S160x128 1 := cmpf .olt main_v19 main_v20
  let main_c_7 : IVec S_ 1 := constantI S_ 1 1#1
  let main_v22 : IVec S_ 1 := (fun x v => Host.reduce IntOp.andi x v reducesTo_S160x128_S_d0_1 h_S_) main_v21 main_c_7
  let main_v23 : IVec S_ 1 := andi main_v18 main_v22
  let main_v24 : FVec F S160x128 .f32 := Host.absf main_arg5
  let main_cst_8 : FVec F S_ .f32 := constant S_ .f32 0x7F800000#32
  let main_v25 : FVec F S160x128 .f32 := broadcastInDim S160x128 ![] bcast_S_S160x128 main_cst_8
  let main_v26 : IVec S160x128 1 := cmpf .olt main_v24 main_v25
  let main_c_9 : IVec S_ 1 := constantI S_ 1 1#1
  let main_v27 : IVec S_ 1 := (fun x v => Host.reduce IntOp.andi x v reducesTo_S160x128_S_d0_1 h_S_) main_v26 main_c_9
  let main_v28 : IVec S_ 1 := andi main_v23 main_v27
  let main_v29 : FVec F S160x128 .f32 := Host.absf main_arg6
  let main_cst_10 : FVec F S_ .f32 := constant S_ .f32 0x7F800000#32
  let main_v30 : FVec F S160x128 .f32 := broadcastInDim S160x128 ![] bcast_S_S160x128 main_cst_10
  let main_v31 : IVec S160x128 1 := cmpf .olt main_v29 main_v30
  let main_c_11 : IVec S_ 1 := constantI S_ 1 1#1
  let main_v32 : IVec S_ 1 := (fun x v => Host.reduce IntOp.andi x v reducesTo_S160x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S600000x128 .f32) (main_arg1 : FVec F S1600000x32 .f32) (main_arg2 : FVec F S128x128 .f32) (main_arg3 : FVec F S1x128 .f32) (main_arg4 : FVec F S160x128 .f32) (main_arg5 : FVec F S160x128 .f32) (main_arg6 : FVec F S160x128 .f32) (main_arg7 : FVec F S160x128 .f32) (main_arg8 : FVec F S160x128 .f32) (main_arg9 : IVec S100000x1 32) (main_arg10 : IVec S100000x1 32) (main_arg11 : IVec S100000x2 32) (main_arg12 : IVec S100000x2 32) (main_arg13 : IVec S100000x3 32) (main_arg14 : IVec S100000x3 32) (main_arg15 : IVec S100000x4 32) (main_arg16 : IVec S100000x4 32) (main_arg17 : IVec S100000x5 32) (main_arg18 : IVec S100000x5 32) : IVec S_ 1 :=
  let main_v0 : FVec F S600000x128 .f32 := Host.absf main_arg0
  let main_cst : FVec F S_ .f32 := constant S_ .f32 0x7F800000#32
  let main_v1 : FVec F S600000x128 .f32 := broadcastInDim S600000x128 ![] bcast_S_S600000x128 main_cst
  let main_v2 : IVec S600000x128 1 := cmpf .olt main_v0 main_v1
  let main_c : IVec S_ 1 := constantI S_ 1 1#1
  let main_v3 : IVec S_ 1 := (fun x v => Host.reduce IntOp.andi x v reducesTo_S600000x128_S_d0_1 h_S_) main_v2 main_c
  let main_v4 : FVec F S1600000x32 .f32 := Host.absf main_arg1
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S600000x128 : Shape := ⟨2, ![600000, 128]⟩
abbrev S1600000x32 : Shape := ⟨2, ![1600000, 32]⟩
abbrev S128x128 : Shape := ⟨2, ![128, 128]⟩
abbrev S1x128 : Shape := ⟨2, ![1, 128]⟩
abbrev S160x128 : Shape := ⟨2, ![160, 128]⟩
abbrev S100000x1 : Shape := ⟨2, ![100000, 1]⟩
abbrev S100000x2 : Shape := ⟨2, ![100000, 2]⟩
abbrev S100000x3 : Shape := ⟨2, ![100000, 3]⟩
abbrev S100000x4 : Shape := ⟨2, ![100000, 4]⟩
abbrev S100000x5 : Shape := ⟨2, ![100000, 5]⟩
abbrev S_ : Shape := ⟨0, ![]⟩
abbrev S100000x128 : Shape := ⟨2, ![100000, 128]⟩
abbrev S100000x1x1 : Shape := ⟨3, ![100000, 1, 1]⟩
abbrev S1 : Shape := ⟨1, ![1]⟩
abbrev S1x1x1 : Shape := ⟨3, ![1, 1, 1]⟩
abbrev S100000x1x128 : Shape := ⟨3, ![100000, 1, 128]⟩
abbrev S100000x1x32 : Shape := ⟨3, ![100000, 1, 32]⟩
abbrev S100000x32 : Shape := ⟨2, ![100000, 32]⟩
abbrev S100000x160 : Shape := ⟨2, ![100000, 160]⟩
abbrev S10000x160 : Shape := ⟨2, ![10000, 160]⟩
abbrev S10000x128 : Shape := ⟨2, ![10000, 128]⟩
abbrev S100000x2x1 : Shape := ⟨3, ![100000, 2, 1]⟩
abbrev S100000x2x128 : Shape := ⟨3, ![100000, 2, 128]⟩
abbrev S100000x2x32 : Shape := ⟨3, ![100000, 2, 32]⟩
abbrev S100000x3x1 : Shape := ⟨3, ![100000, 3, 1]⟩
abbrev S100000x3x128 : Shape := ⟨3, ![100000, 3, 128]⟩
abbrev S100000x3x32 : Shape := ⟨3, ![100000, 3, 32]⟩
abbrev S100000x4x1 : Shape := ⟨3, ![100000, 4, 1]⟩
abbrev S100000x4x128 : Shape := ⟨3, ![100000, 4, 128]⟩
abbrev S100000x4x32 : Shape := ⟨3, ![100000, 4, 32]⟩
abbrev S100000x5x1 : Shape := ⟨3, ![100000, 5, 1]⟩
abbrev S100000x5x128 : Shape := ⟨3, ![100000, 5, 128]⟩
abbrev S100000x5x32 : Shape := ⟨3, ![100000, 5, 32]⟩
abbrev S5000x128 : Shape := ⟨2, ![5000, 128]⟩
abbrev S128 : Shape := ⟨1, ![128]⟩

abbrev nBuf : Space → Nat
  | .hbm => 298
  | .vmem => 41
  | .smem => 0
  | _ => 0

abbrev hbmTy0_0 (i : Nat) : BufTy := match i % 128 with
  | 0 => ⟨S600000x128, .f32⟩
  | 1 => ⟨S1600000x32, .f32⟩
  | 2 => ⟨S128x128, .f32⟩
  | 3 => ⟨S1x128, .f32⟩
  | 4 => ⟨S160x128, .f32⟩
  | 5 => ⟨S160x128, .f32⟩
  | 6 => ⟨S160x128, .f32⟩
  | 7 => ⟨S160x128, .f32⟩
  | 8 => ⟨S160x128, .f32⟩
  | 9 => ⟨S100000x1, .i32⟩
  | 10 => ⟨S100000x1, .i32⟩
  | 11 => ⟨S100000x2, .i32⟩
  | 12 => ⟨S100000x2, .i32⟩
  | 13 => ⟨S100000x3, .i32⟩
  | 14 => ⟨S100000x3, .i32⟩
  | 15 => ⟨S100000x4, .i32⟩
  | 16 => ⟨S100000x4, .i32⟩
  | 17 => ⟨S100000x5, .i32⟩
  | 18 => ⟨S100000x5, .i32⟩
  | 19 => ⟨S_, .f32⟩
  | 20 => ⟨S100000x128, .f32⟩
  | 21 => ⟨S_, .i32⟩
  | 22 => ⟨S100000x1, .i32⟩
  | 23 => ⟨S100000x1, .i1⟩
  | 24 => ⟨S_, .i32⟩
  | 25 => ⟨S100000x1, .i32⟩
  | 26 => ⟨S100000x1, .i32⟩
  | 27 => ⟨S100000x1, .i32⟩
  | 28 => ⟨S100000x1x1, .i32⟩
  | 29 => ⟨S1, .i32⟩
  | 30 => ⟨S_, .i32⟩
  | 31 => ⟨S100000x1x1, .i32⟩
  | 32 => ⟨S100000x1x1, .i1⟩
  | 33 => ⟨S1x1x1, .i32⟩
  | 34 => ⟨S100000x1x1, .i32⟩
  | 35 => ⟨S100000x1x1, .i1⟩
  | 36 => ⟨S100000x1x1, .i1⟩
  | 37 => ⟨S_, .i1⟩
  | 38 => ⟨S100000x1, .i1⟩
  | 39 => ⟨S100000x1x128, .f32⟩
  | 40 => ⟨S100000x1x128, .i1⟩
  | 41 => ⟨S_, .f32⟩
  | 42 => ⟨S100000x1x128, .f32⟩
  | 43 => ⟨S100000x1x128, .f32⟩
  | 44 => ⟨S_, .i32⟩
  | 45 => ⟨S100000x1, .i32⟩
  | 46 => ⟨S100000x1, .i1⟩
  | 47 => ⟨S_, .i32⟩
  | 48 => ⟨S100000x1, .i32⟩
  | 49 => ⟨S100000x1, .i32⟩
  | 50 => ⟨S100000x1, .i32⟩
  | 51 => ⟨S100000x1x1, .i32⟩
  | 52 => ⟨S1, .i32⟩
  | 53 => ⟨S_, .i32⟩
  | 54 => ⟨S100000x1x1, .i32⟩
  | 55 => ⟨S100000x1x1, .i1⟩
  | 56 => ⟨S1x1x1, .i32⟩
  | 57 => ⟨S100000x1x1, .i32⟩
  | 58 => ⟨S100000x1x1, .i1⟩
  | 59 => ⟨S100000x1x1, .i1⟩
  | 60 => ⟨S_, .i1⟩
  | 61 => ⟨S100000x1, .i1⟩
  | 62 => ⟨S100000x1x32, .f32⟩
  | 63 => ⟨S100000x1x32, .i1⟩
  | 64 => ⟨S_, .f32⟩
  | 65 => ⟨S100000x1x32, .f32⟩
  | 66 => ⟨S100000x1x32, .f32⟩
  | 67 => ⟨S_, .f32⟩
  | 68 => ⟨S100000x128, .f32⟩
  | 69 => ⟨S_, .f32⟩
  | 70 => ⟨S100000x32, .f32⟩
  | 71 => ⟨S100000x160, .f32⟩
  | 72 => ⟨S100000x128, .f32⟩
  | 73 => ⟨S_, .i32⟩
  | 74 => ⟨S100000x2, .i32⟩
  | 75 => ⟨S100000x2, .i1⟩
  | 76 => ⟨S_, .i32⟩
  | 77 => ⟨S100000x2, .i32⟩
  | 78 => ⟨S100000x2, .i32⟩
  | 79 => ⟨S100000x2, .i32⟩
  | 80 => ⟨S100000x2x1, .i32⟩
  | 81 => ⟨S1, .i32⟩
  | 82 => ⟨S_, .i32⟩
  | 83 => ⟨S100000x2x1, .i32⟩
  | 84 => ⟨S100000x2x1, .i1⟩
  | 85 => ⟨S1x1x1, .i32⟩
  | 86 => ⟨S100000x2x1, .i32⟩
  | 87 => ⟨S100000x2x1, .i1⟩
  | 88 => ⟨S100000x2x1, .i1⟩
  | 89 => ⟨S_, .i1⟩
  | 90 => ⟨S100000x2, .i1⟩
  | 91 => ⟨S100000x2x128, .f32⟩
  | 92 => ⟨S100000x2x128, .i1⟩
  | 93 => ⟨S_, .f32⟩
  | 94 => ⟨S100000x2x128, .f32⟩
  | 95 => ⟨S100000x2x128, .f32⟩
  | 96 => ⟨S_, .i32⟩
  | 97 => ⟨S100000x2, .i32⟩
  | 98 => ⟨S100000x2, .i1⟩
  | 99 => ⟨S_, .i32⟩
  | 100 => ⟨S100000x2, .i32⟩
  | 101 => ⟨S100000x2, .i32⟩
  | 102 => ⟨S100000x2, .i32⟩
  | 103 => ⟨S100000x2x1, .i32⟩
  | 104 => ⟨S1, .i32⟩
  | 105 => ⟨S_, .i32⟩
  | 106 => ⟨S100000x2x1, .i32⟩
  | 107 => ⟨S100000x2x1, .i1⟩
  | 108 => ⟨S1x1x1, .i32⟩
  | 109 => ⟨S100000x2x1, .i32⟩
  | 110 => ⟨S100000x2x1, .i1⟩
  | 111 => ⟨S100000x2x1, .i1⟩
  | 112 => ⟨S_, .i1⟩
  | 113 => ⟨S100000x2, .i1⟩
  | 114 => ⟨S100000x2x32, .f32⟩
  | 115 => ⟨S100000x2x32, .i1⟩
  | 116 => ⟨S_, .f32⟩
  | 117 => ⟨S100000x2x32, .f32⟩
  | 118 => ⟨S100000x2x32, .f32⟩
  | 119 => ⟨S_, .f32⟩
  | 120 => ⟨S100000x128, .f32⟩
  | 121 => ⟨S_, .f32⟩
  | 122 => ⟨S100000x32, .f32⟩
  | 123 => ⟨S100000x160, .f32⟩
  | 124 => ⟨S100000x128, .f32⟩
  | 125 => ⟨S_, .i32⟩
  | 126 => ⟨S100000x3, .i32⟩
  | 127 => ⟨S100000x3, .i1⟩
  | _ => ⟨S600000x128, .f32⟩

abbrev hbmTy0_1 (i : Nat) : BufTy := match i % 128 with
  | 0 => ⟨S_, .i32⟩
  | 1 => ⟨S100000x3, .i32⟩
  | 2 => ⟨S100000x3, .i32⟩
  | 3 => ⟨S100000x3, .i32⟩
  | 4 => ⟨S100000x3x1, .i32⟩
  | 5 => ⟨S1, .i32⟩
  | 6 => ⟨S_, .i32⟩
  | 7 => ⟨S100000x3x1, .i32⟩
  | 8 => ⟨S100000x3x1, .i1⟩
  | 9 => ⟨S1x1x1, .i32⟩
  | 10 => ⟨S100000x3x1, .i32⟩
  | 11 => ⟨S100000x3x1, .i1⟩
  | 12 => ⟨S100000x3x1, .i1⟩
  | 13 => ⟨S_, .i1⟩
  | 14 => ⟨S100000x3, .i1⟩
  | 15 => ⟨S100000x3x128, .f32⟩
  | 16 => ⟨S100000x3x128, .i1⟩
  | 17 => ⟨S_, .f32⟩
  | 18 => ⟨S100000x3x128, .f32⟩
  | 19 => ⟨S100000x3x128, .f32⟩
  | 20 => ⟨S_, .i32⟩
  | 21 => ⟨S100000x3, .i32⟩
  | 22 => ⟨S100000x3, .i1⟩
  | 23 => ⟨S_, .i32⟩
  | 24 => ⟨S100000x3, .i32⟩
  | 25 => ⟨S100000x3, .i32⟩
  | 26 => ⟨S100000x3, .i32⟩
  | 27 => ⟨S100000x3x1, .i32⟩
  | 28 => ⟨S1, .i32⟩
  | 29 => ⟨S_, .i32⟩
  | 30 => ⟨S100000x3x1, .i32⟩
  | 31 => ⟨S100000x3x1, .i1⟩
  | 32 => ⟨S1x1x1, .i32⟩
  | 33 => ⟨S100000x3x1, .i32⟩
  | 34 => ⟨S100000x3x1, .i1⟩
  | 35 => ⟨S100000x3x1, .i1⟩
  | 36 => ⟨S_, .i1⟩
  | 37 => ⟨S100000x3, .i1⟩
  | 38 => ⟨S100000x3x32, .f32⟩
  | 39 => ⟨S100000x3x32, .i1⟩
  | 40 => ⟨S_, .f32⟩
  | 41 => ⟨S100000x3x32, .f32⟩
  | 42 => ⟨S100000x3x32, .f32⟩
  | 43 => ⟨S_, .f32⟩
  | 44 => ⟨S100000x128, .f32⟩
  | 45 => ⟨S_, .f32⟩
  | 46 => ⟨S100000x32, .f32⟩
  | 47 => ⟨S100000x160, .f32⟩
  | 48 => ⟨S100000x128, .f32⟩
  | 49 => ⟨S_, .i32⟩
  | 50 => ⟨S100000x4, .i32⟩
  | 51 => ⟨S100000x4, .i1⟩
  | 52 => ⟨S_, .i32⟩
  | 53 => ⟨S100000x4, .i32⟩
  | 54 => ⟨S100000x4, .i32⟩
  | 55 => ⟨S100000x4, .i32⟩
  | 56 => ⟨S100000x4x1, .i32⟩
  | 57 => ⟨S1, .i32⟩
  | 58 => ⟨S_, .i32⟩
  | 59 => ⟨S100000x4x1, .i32⟩
  | 60 => ⟨S100000x4x1, .i1⟩
  | 61 => ⟨S1x1x1, .i32⟩
  | 62 => ⟨S100000x4x1, .i32⟩
  | 63 => ⟨S100000x4x1, .i1⟩
  | 64 => ⟨S100000x4x1, .i1⟩
  | 65 => ⟨S_, .i1⟩
  | 66 => ⟨S100000x4, .i1⟩
  | 67 => ⟨S100000x4x128, .f32⟩
  | 68 => ⟨S100000x4x128, .i1⟩
  | 69 => ⟨S_, .f32⟩
  | 70 => ⟨S100000x4x128, .f32⟩
  | 71 => ⟨S100000x4x128, .f32⟩
  | 72 => ⟨S_, .i32⟩
  | 73 => ⟨S100000x4, .i32⟩
  | 74 => ⟨S100000x4, .i1⟩
  | 75 => ⟨S_, .i32⟩
  | 76 => ⟨S100000x4, .i32⟩
  | 77 => ⟨S100000x4, .i32⟩
  | 78 => ⟨S100000x4, .i32⟩
  | 79 => ⟨S100000x4x1, .i32⟩
  | 80 => ⟨S1, .i32⟩
  | 81 => ⟨S_, .i32⟩
  | 82 => ⟨S100000x4x1, .i32⟩
  | 83 => ⟨S100000x4x1, .i1⟩
  | 84 => ⟨S1x1x1, .i32⟩
  | 85 => ⟨S100000x4x1, .i32⟩
  | 86 => ⟨S100000x4x1, .i1⟩
  | 87 => ⟨S100000x4x1, .i1⟩
  | 88 => ⟨S_, .i1⟩
  | 89 => ⟨S100000x4, .i1⟩
  | 90 => ⟨S100000x4x32, .f32⟩
  | 91 => ⟨S100000x4x32, .i1⟩
  | 92 => ⟨S_, .f32⟩
  | 93 => ⟨S100000x4x32, .f32⟩
  | 94 => ⟨S100000x4x32, .f32⟩
  | 95 => ⟨S_, .f32⟩
  | 96 => ⟨S100000x128, .f32⟩
  | 97 => ⟨S_, .f32⟩
  | 98 => ⟨S100000x32, .f32⟩
  | 99 => ⟨S100000x160, .f32⟩
  | 100 => ⟨S100000x128, .f32⟩
  | 101 => ⟨S_, .i32⟩
  | 102 => ⟨S100000x5, .i32⟩
  | 103 => ⟨S100000x5, .i1⟩
  | 104 => ⟨S_, .i32⟩
  | 105 => ⟨S100000x5, .i32⟩
  | 106 => ⟨S100000x5, .i32⟩
  | 107 => ⟨S100000x5, .i32⟩
  | 108 => ⟨S100000x5x1, .i32⟩
  | 109 => ⟨S1, .i32⟩
  | 110 => ⟨S_, .i32⟩
  | 111 => ⟨S100000x5x1, .i32⟩
  | 112 => ⟨S100000x5x1, .i1⟩
  | 113 => ⟨S1x1x1, .i32⟩
  | 114 => ⟨S100000x5x1, .i32⟩
  | 115 => ⟨S100000x5x1, .i1⟩
  | 116 => ⟨S100000x5x1, .i1⟩
  | 117 => ⟨S_, .i1⟩
  | 118 => ⟨S100000x5, .i1⟩
  | 119 => ⟨S100000x5x128, .f32⟩
  | 120 => ⟨S100000x5x128, .i1⟩
  | 121 => ⟨S_, .f32⟩
  | 122 => ⟨S100000x5x128, .f32⟩
  | 123 => ⟨S100000x5x128, .f32⟩
  | 124 => ⟨S_, .i32⟩
  | 125 => ⟨S100000x5, .i32⟩
  | 126 => ⟨S100000x5, .i1⟩
  | 127 => ⟨S_, .i32⟩
  | _ => ⟨S600000x128, .f32⟩

abbrev hbmTy0_2 (i : Nat) : BufTy := match i % 128 with
  | 0 => ⟨S100000x5, .i32⟩
  | 1 => ⟨S100000x5, .i32⟩
  | 2 => ⟨S100000x5, .i32⟩
  | 3 => ⟨S100000x5x1, .i32⟩
  | 4 => ⟨S1, .i32⟩
  | 5 => ⟨S_, .i32⟩
  | 6 => ⟨S100000x5x1, .i32⟩
  | 7 => ⟨S100000x5x1, .i1⟩
  | 8 => ⟨S1x1x1, .i32⟩
  | 9 => ⟨S100000x5x1, .i32⟩
  | 10 => ⟨S100000x5x1, .i1⟩
  | 11 => ⟨S100000x5x1, .i1⟩
  | 12 => ⟨S_, .i1⟩
  | 13 => ⟨S100000x5, .i1⟩
  | 14 => ⟨S100000x5x32, .f32⟩
  | 15 => ⟨S100000x5x32, .i1⟩
  | 16 => ⟨S_, .f32⟩
  | 17 => ⟨S100000x5x32, .f32⟩
  | 18 => ⟨S100000x5x32, .f32⟩
  | 19 => ⟨S_, .f32⟩
  | 20 => ⟨S100000x128, .f32⟩
  | 21 => ⟨S_, .f32⟩
  | 22 => ⟨S100000x32, .f32⟩
  | 23 => ⟨S100000x160, .f32⟩
  | 24 => ⟨S100000x128, .f32⟩
  | 25 => ⟨S600000x128, .f32⟩
  | 26 => ⟨S600000x128, .f32⟩
  | 27 => ⟨S1x128, .f32⟩
  | 28 => ⟨S1x128, .f32⟩
  | 29 => ⟨S_, .f32⟩
  | 30 => ⟨S1x128, .f32⟩
  | 31 => ⟨S1x128, .f32⟩
  | 32 => ⟨S_, .f32⟩
  | 33 => ⟨S1x128, .f32⟩
  | 34 => ⟨S1x128, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S1x128, .f32⟩
  | 41 => ⟨S600000x128, .f32⟩
  | _ => ⟨S600000x128, .f32⟩

abbrev hbmTy (i : Nat) : BufTy := match i / 128 with
  | 0 => hbmTy0_0 i
  | 1 => hbmTy0_1 i
  | 2 => hbmTy0_2 i
  | _ => ⟨S600000x128, .f32⟩

abbrev bufTy : (tb : Table) → Fin (tcTables nBuf tb) → BufTy
  | .hbm, ⟨i, _⟩ => hbmTy i
  | .local _ .vmem, ⟨0, _⟩ => ⟨S10000x160, .f32⟩
  | .local _ .vmem, ⟨1, _⟩ => ⟨S10000x160, .f32⟩
  | .local _ .vmem, ⟨2, _⟩ => ⟨S160x128, .f32⟩
  | .local _ .vmem, ⟨3, _⟩ => ⟨S10000x128, .f32⟩
  | .local _ .vmem, ⟨4, _⟩ => ⟨S10000x128, .f32⟩
  | .local _ .vmem, ⟨5, _⟩ => ⟨S10000x160, .f32⟩
  | .local _ .vmem, ⟨6, _⟩ => ⟨S10000x160, .f32⟩
  | .local _ .vmem, ⟨7, _⟩ => ⟨S160x128, .f32⟩
  | .local _ .vmem, ⟨8, _⟩ => ⟨S10000x128, .f32⟩
  | .local _ .vmem, ⟨9, _⟩ => ⟨S10000x128, .f32⟩
  | .local _ .vmem, ⟨10, _⟩ => ⟨S10000x160, .f32⟩
  | .local _ .vmem, ⟨11, _⟩ => ⟨S10000x160, .f32⟩
  | .local _ .vmem, ⟨12, _⟩ => ⟨S160x128, .f32⟩
  | .local _ .vmem, ⟨13, _⟩ => ⟨S10000x128, .f32⟩
  | .local _ .vmem, ⟨14, _⟩ => ⟨S10000x128, .f32⟩
  | .local _ .vmem, ⟨15, _⟩ => ⟨S10000x160, .f32⟩
  | .local _ .vmem, ⟨16, _⟩ => ⟨S10000x160, .f32⟩
  | .local _ .vmem, ⟨17, _⟩ => ⟨S160x128, .f32⟩
  | .local _ .vmem, ⟨18, _⟩ => ⟨S10000x128, .f32⟩
  | .local _ .vmem, ⟨19, _⟩ => ⟨S10000x128, .f32⟩
  | .local _ .vmem, ⟨20, _⟩ => ⟨S10000x160, .f32⟩
  | .local _ .vmem, ⟨21, _⟩ => ⟨S10000x160, .f32⟩
  | .local _ .vmem, ⟨22, _⟩ => ⟨S160x128, .f32⟩
  | .local _ .vmem, ⟨23, _⟩ => ⟨S10000x128, .f32⟩
  | .local _ .vmem, ⟨24, _⟩ => ⟨S10000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S1x128, .f32⟩
  | .local _ .vmem, ⟨34, _⟩ => ⟨S1x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S1x128, .f32⟩
  | .local _ .vmem, ⟨39, _⟩ => ⟨S5000x128, .f32⟩
  | .local _ .vmem, ⟨40, _⟩ => ⟨S5000x128, .f32⟩
  | _, _ => ⟨S600000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v1 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v2 : Ref sig .tc := ⟨.hbm, 66, rfl⟩
abbrev main_cst_0 : Ref sig .tc := ⟨.hbm, 67, rfl⟩
abbrev main_v3 : Ref sig .tc := ⟨.hbm, 68, rfl⟩
abbrev main_cst_1 : Ref sig .tc := ⟨.hbm, 69, rfl⟩
abbrev main_v4 : Ref sig .tc := ⟨.hbm, 70, rfl⟩
abbrev main_v5 : Ref sig .tc := ⟨.hbm, 71, rfl⟩
abbrev main_v6 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_v14 : Ref sig .tc := ⟨.hbm, 92, rfl⟩
abbrev main_call2_cst : Ref sig .tc := ⟨.hbm, 93, rfl⟩
abbrev main_call2_v15 : Ref sig .tc := ⟨.hbm, 94, rfl⟩
abbrev main_v7 : Ref sig .tc := ⟨.hbm, 95, rfl⟩
abbrev main_call3_c : Ref sig .tc := ⟨.hbm, 96, rfl⟩
abbrev main_call3_v0 : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_c_1 : Ref sig .tc := ⟨.hbm, 104, rfl⟩
abbrev main_call3_c_2 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_c_3 : Ref sig .tc := ⟨.hbm, 112, rfl⟩
abbrev main_call3_v12 : Ref sig .tc := ⟨.hbm, 113, rfl⟩
abbrev main_call3_v13 : Ref sig .tc := ⟨.hbm, 114, rfl⟩
abbrev main_call3_v14 : Ref sig .tc := ⟨.hbm, 115, rfl⟩
abbrev main_call3_cst : Ref sig .tc := ⟨.hbm, 116, rfl⟩
abbrev main_call3_v15 : Ref sig .tc := ⟨.hbm, 117, rfl⟩
abbrev main_v8 : Ref sig .tc := ⟨.hbm, 118, rfl⟩
abbrev main_cst_2 : Ref sig .tc := ⟨.hbm, 119, rfl⟩
abbrev main_v9 : Ref sig .tc := ⟨.hbm, 120, rfl⟩
abbrev main_cst_3 : Ref sig .tc := ⟨.hbm, 121, rfl⟩
abbrev main_v10 : Ref sig .tc := ⟨.hbm, 122, rfl⟩
abbrev main_v11 : Ref sig .tc := ⟨.hbm, 123, rfl⟩
abbrev main_v12 : Ref sig .tc := ⟨.hbm, 124, rfl⟩
abbrev main_call4_c : Ref sig .tc := ⟨.hbm, 125, rfl⟩
abbrev main_call4_v0 : Ref sig .tc := ⟨.hbm, 126, rfl⟩
abbrev main_call4_v1 : Ref sig .tc := ⟨.hbm, 127, rfl⟩
abbrev main_call4_c_0 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_call4_v5 : Ref sig .tc := ⟨.hbm, 132, rfl⟩
abbrev main_call4_c_1 : Ref sig .tc := ⟨.hbm, 133, rfl⟩
abbrev main_call4_c_2 : Ref sig .tc := ⟨.hbm, 134, rfl⟩
abbrev main_call4_v6 : Ref sig .tc := ⟨.hbm, 135, rfl⟩
abbrev main_call4_v7 : Ref sig .tc := ⟨.hbm, 136, rfl⟩
abbrev main_call4_v8 : Ref sig .tc := ⟨.hbm, 137, rfl⟩
abbrev main_call4_v9 : Ref sig .tc := ⟨.hbm, 138, rfl⟩
abbrev main_call4_v10 : Ref sig .tc := ⟨.hbm, 139, rfl⟩
abbrev main_call4_v11 : Ref sig .tc := ⟨.hbm, 140, rfl⟩
abbrev main_call4_c_3 : Ref sig .tc := ⟨.hbm, 141, rfl⟩
abbrev main_call4_v12 : Ref sig .tc := ⟨.hbm, 142, rfl⟩
abbrev main_call4_v13 : Ref sig .tc := ⟨.hbm, 143, rfl⟩
abbrev main_call4_v14 : Ref sig .tc := ⟨.hbm, 144, rfl⟩
abbrev main_call4_cst : Ref sig .tc := ⟨.hbm, 145, rfl⟩
abbrev main_call4_v15 : Ref sig .tc := ⟨.hbm, 146, rfl⟩
abbrev main_v13 : Ref sig .tc := ⟨.hbm, 147, rfl⟩
abbrev main_call5_c : Ref sig .tc := ⟨.hbm, 148, rfl⟩
abbrev main_call5_v0 : Ref sig .tc := ⟨.hbm, 149, rfl⟩
abbrev main_call5_v1 : Ref sig .tc := ⟨.hbm, 150, rfl⟩
abbrev main_call5_c_0 : Ref sig .tc := ⟨.hbm, 151, rfl⟩
abbrev main_call5_v2 : Ref sig .tc := ⟨.hbm, 152, rfl⟩
abbrev main_call5_v3 : Ref sig .tc := ⟨.hbm, 153, rfl⟩
abbrev main_call5_v4 : Ref sig .tc := ⟨.hbm, 154, rfl⟩
abbrev main_call5_v5 : Ref sig .tc := ⟨.hbm, 155, rfl⟩
abbrev main_call5_c_1 : Ref sig .tc := ⟨.hbm, 156, rfl⟩
abbrev main_call5_c_2 : Ref sig .tc := ⟨.hbm, 157, rfl⟩
abbrev main_call5_v6 : Ref sig .tc := ⟨.hbm, 158, rfl⟩
abbrev main_call5_v7 : Ref sig .tc := ⟨.hbm, 159, rfl⟩
abbrev main_call5_v8 : Ref sig .tc := ⟨.hbm, 160, rfl⟩
abbrev main_call5_v9 : Ref sig .tc := ⟨.hbm, 161, rfl⟩
abbrev main_call5_v10 : Ref sig .tc := ⟨.hbm, 162, rfl⟩
abbrev main_call5_v11 : Ref sig .tc := ⟨.hbm, 163, rfl⟩
abbrev main_call5_c_3 : Ref sig .tc := ⟨.hbm, 164, rfl⟩
abbrev main_call5_v12 : Ref sig .tc := ⟨.hbm, 165, rfl⟩
abbrev main_call5_v13 : Ref sig .tc := ⟨.hbm, 166, rfl⟩
abbrev main_call5_v14 : Ref sig .tc := ⟨.hbm, 167, rfl⟩
abbrev main_call5_cst : Ref sig .tc := ⟨.hbm, 168, rfl⟩
abbrev main_call5_v15 : Ref sig .tc := ⟨.hbm, 169, rfl⟩
abbrev main_v14 : Ref sig .tc := ⟨.hbm, 170, rfl⟩
abbrev main_cst_4 : Ref sig .tc := ⟨.hbm, 171, rfl⟩
abbrev main_v15 : Ref sig .tc := ⟨.hbm, 172, rfl⟩
abbrev main_cst_5 : Ref sig .tc := ⟨.hbm, 173, rfl⟩
abbrev main_v16 : Ref sig .tc := ⟨.hbm, 174, rfl⟩
abbrev main_v17 : Ref sig .tc := ⟨.hbm, 175, rfl⟩
abbrev main_v18 : Ref sig .tc := ⟨.hbm, 176, rfl⟩
abbrev main_call6_c : Ref sig .tc := ⟨.hbm, 177, rfl⟩
abbrev main_call6_v0 : Ref sig .tc := ⟨.hbm, 178, rfl⟩
abbrev main_call6_v1 : Ref sig .tc := ⟨.hbm, 179, rfl⟩
abbrev main_call6_c_0 : Ref sig .tc := ⟨.hbm, 180, rfl⟩
abbrev main_call6_v2 : Ref sig .tc := ⟨.hbm, 181, rfl⟩
abbrev main_call6_v3 : Ref sig .tc := ⟨.hbm, 182, rfl⟩
abbrev main_call6_v4 : Ref sig .tc := ⟨.hbm, 183, rfl⟩
abbrev main_call6_v5 : Ref sig .tc := ⟨.hbm, 184, rfl⟩
abbrev main_call6_c_1 : Ref sig .tc := ⟨.hbm, 185, rfl⟩
abbrev main_call6_c_2 : Ref sig .tc := ⟨.hbm, 186, rfl⟩
abbrev main_call6_v6 : Ref sig .tc := ⟨.hbm, 187, rfl⟩
abbrev main_call6_v7 : Ref sig .tc := ⟨.hbm, 188, rfl⟩
abbrev main_call6_v8 : Ref sig .tc := ⟨.hbm, 189, rfl⟩
abbrev main_call6_v9 : Ref sig .tc := ⟨.hbm, 190, rfl⟩
abbrev main_call6_v10 : Ref sig .tc := ⟨.hbm, 191, rfl⟩
abbrev main_call6_v11 : Ref sig .tc := ⟨.hbm, 192, rfl⟩
abbrev main_call6_c_3 : Ref sig .tc := ⟨.hbm, 193, rfl⟩
abbrev main_call6_v12 : Ref sig .tc := ⟨.hbm, 194, rfl⟩
abbrev main_call6_v13 : Ref sig .tc := ⟨.hbm, 195, rfl⟩
abbrev main_call6_v14 : Ref sig .tc := ⟨.hbm, 196, rfl⟩
abbrev main_call6_cst : Ref sig .tc := ⟨.hbm, 197, rfl⟩
abbrev main_call6_v15 : Ref sig .tc := ⟨.hbm, 198, rfl⟩
abbrev main_v19 : Ref sig .tc := ⟨.hbm, 199, rfl⟩
abbrev main_call7_c : Ref sig .tc := ⟨.hbm, 200, rfl⟩
abbrev main_call7_v0 : Ref sig .tc := ⟨.hbm, 201, rfl⟩
abbrev main_call7_v1 : Ref sig .tc := ⟨.hbm, 202, rfl⟩
abbrev main_call7_c_0 : Ref sig .tc := ⟨.hbm, 203, rfl⟩
abbrev main_call7_v2 : Ref sig .tc := ⟨.hbm, 204, rfl⟩
abbrev main_call7_v3 : Ref sig .tc := ⟨.hbm, 205, rfl⟩
abbrev main_call7_v4 : Ref sig .tc := ⟨.hbm, 206, rfl⟩
abbrev main_call7_v5 : Ref sig .tc := ⟨.hbm, 207, rfl⟩
abbrev main_call7_c_1 : Ref sig .tc := ⟨.hbm, 208, rfl⟩
abbrev main_call7_c_2 : Ref sig .tc := ⟨.hbm, 209, rfl⟩
abbrev main_call7_v6 : Ref sig .tc := ⟨.hbm, 210, rfl⟩
abbrev main_call7_v7 : Ref sig .tc := ⟨.hbm, 211, rfl⟩
abbrev main_call7_v8 : Ref sig .tc := ⟨.hbm, 212, rfl⟩
abbrev main_call7_v9 : Ref sig .tc := ⟨.hbm, 213, rfl⟩
abbrev main_call7_v10 : Ref sig .tc := ⟨.hbm, 214, rfl⟩
abbrev main_call7_v11 : Ref sig .tc := ⟨.hbm, 215, rfl⟩
abbrev main_call7_c_3 : Ref sig .tc := ⟨.hbm, 216, rfl⟩
abbrev main_call7_v12 : Ref sig .tc := ⟨.hbm, 217, rfl⟩
abbrev main_call7_v13 : Ref sig .tc := ⟨.hbm, 218, rfl⟩
abbrev main_call7_v14 : Ref sig .tc := ⟨.hbm, 219, rfl⟩
abbrev main_call7_cst : Ref sig .tc := ⟨.hbm, 220, rfl⟩
abbrev main_call7_v15 : Ref sig .tc := ⟨.hbm, 221, rfl⟩
abbrev main_v20 : Ref sig .tc := ⟨.hbm, 222, rfl⟩
abbrev main_cst_6 : Ref sig .tc := ⟨.hbm, 223, rfl⟩
abbrev main_v21 : Ref sig .tc := ⟨.hbm, 224, rfl⟩
abbrev main_cst_7 : Ref sig .tc := ⟨.hbm, 225, rfl⟩
abbrev main_v22 : Ref sig .tc := ⟨.hbm, 226, rfl⟩
abbrev main_v23 : Ref sig .tc := ⟨.hbm, 227, rfl⟩
abbrev main_v24 : Ref sig .tc := ⟨.hbm, 228, rfl⟩
abbrev main_call8_c : Ref sig .tc := ⟨.hbm, 229, rfl⟩
abbrev main_call8_v0 : Ref sig .tc := ⟨.hbm, 230, rfl⟩
abbrev main_call8_v1 : Ref sig .tc := ⟨.hbm, 231, rfl⟩
abbrev main_call8_c_0 : Ref sig .tc := ⟨.hbm, 232, rfl⟩
abbrev main_call8_v2 : Ref sig .tc := ⟨.hbm, 233, rfl⟩
abbrev main_call8_v3 : Ref sig .tc := ⟨.hbm, 234, rfl⟩
abbrev main_call8_v4 : Ref sig .tc := ⟨.hbm, 235, rfl⟩
abbrev main_call8_v5 : Ref sig .tc := ⟨.hbm, 236, rfl⟩
abbrev main_call8_c_1 : Ref sig .tc := ⟨.hbm, 237, rfl⟩
abbrev main_call8_c_2 : Ref sig .tc := ⟨.hbm, 238, rfl⟩
abbrev main_call8_v6 : Ref sig .tc := ⟨.hbm, 239, rfl⟩
abbrev main_call8_v7 : Ref sig .tc := ⟨.hbm, 240, rfl⟩
abbrev main_call8_v8 : Ref sig .tc := ⟨.hbm, 241, rfl⟩
abbrev main_call8_v9 : Ref sig .tc := ⟨.hbm, 242, rfl⟩
abbrev main_call8_v10 : Ref sig .tc := ⟨.hbm, 243, rfl⟩
abbrev main_call8_v11 : Ref sig .tc := ⟨.hbm, 244, rfl⟩
abbrev main_call8_c_3 : Ref sig .tc := ⟨.hbm, 245, rfl⟩
abbrev main_call8_v12 : Ref sig .tc := ⟨.hbm, 246, rfl⟩
abbrev main_call8_v13 : Ref sig .tc := ⟨.hbm, 247, rfl⟩
abbrev main_call8_v14 : Ref sig .tc := ⟨.hbm, 248, rfl⟩
abbrev main_call8_cst : Ref sig .tc := ⟨.hbm, 249, rfl⟩
abbrev main_call8_v15 : Ref sig .tc := ⟨.hbm, 250, rfl⟩
abbrev main_v25 : Ref sig .tc := ⟨.hbm, 251, rfl⟩
abbrev main_call9_c : Ref sig .tc := ⟨.hbm, 252, rfl⟩
abbrev main_call9_v0 : Ref sig .tc := ⟨.hbm, 253, rfl⟩
abbrev main_call9_v1 : Ref sig .tc := ⟨.hbm, 254, rfl⟩
abbrev main_call9_c_0 : Ref sig .tc := ⟨.hbm, 255, rfl⟩
abbrev main_call9_v2 : Ref sig .tc := ⟨.hbm, 256, rfl⟩
abbrev main_call9_v3 : Ref sig .tc := ⟨.hbm, 257, rfl⟩
abbrev main_call9_v4 : Ref sig .tc := ⟨.hbm, 258, rfl⟩
abbrev main_call9_v5 : Ref sig .tc := ⟨.hbm, 259, rfl⟩
abbrev main_call9_c_1 : Ref sig .tc := ⟨.hbm, 260, rfl⟩
abbrev main_call9_c_2 : Ref sig .tc := ⟨.hbm, 261, rfl⟩
abbrev main_call9_v6 : Ref sig .tc := ⟨.hbm, 262, rfl⟩
abbrev main_call9_v7 : Ref sig .tc := ⟨.hbm, 263, rfl⟩
abbrev main_call9_v8 : Ref sig .tc := ⟨.hbm, 264, rfl⟩
abbrev main_call9_v9 : Ref sig .tc := ⟨.hbm, 265, rfl⟩
abbrev main_call9_v10 : Ref sig .tc := ⟨.hbm, 266, rfl⟩
abbrev main_call9_v11 : Ref sig .tc := ⟨.hbm, 267, rfl⟩
abbrev main_call9_c_3 : Ref sig .tc := ⟨.hbm, 268, rfl⟩
abbrev main_call9_v12 : Ref sig .tc := ⟨.hbm, 269, rfl⟩
abbrev main_call9_v13 : Ref sig .tc := ⟨.hbm, 270, rfl⟩
abbrev main_call9_v14 : Ref sig .tc := ⟨.hbm, 271, rfl⟩
abbrev main_call9_cst : Ref sig .tc := ⟨.hbm, 272, rfl⟩
abbrev main_call9_v15 : Ref sig .tc := ⟨.hbm, 273, rfl⟩
abbrev main_v26 : Ref sig .tc := ⟨.hbm, 274, rfl⟩
abbrev main_cst_8 : Ref sig .tc := ⟨.hbm, 275, rfl⟩
abbrev main_v27 : Ref sig .tc := ⟨.hbm, 276, rfl⟩
abbrev main_cst_9 : Ref sig .tc := ⟨.hbm, 277, rfl⟩
abbrev main_v28 : Ref sig .tc := ⟨.hbm, 278, rfl⟩
abbrev main_v29 : Ref sig .tc := ⟨.hbm, 279, rfl⟩
abbrev main_v30 : Ref sig .tc := ⟨.hbm, 280, rfl⟩
abbrev main_v31 : Ref sig .tc := ⟨.hbm, 281, rfl⟩
abbrev main_v32_0 : Ref sig .tc := ⟨.hbm, 282, rfl⟩
abbrev main_v32_1 : Ref sig .tc := ⟨.hbm, 283, rfl⟩
abbrev main_v32_2 : Ref sig .tc := ⟨.hbm, 284, rfl⟩
abbrev main_cst_10 : Ref sig .tc := ⟨.hbm, 285, rfl⟩
abbrev main_v33 : Ref sig .tc := ⟨.hbm, 286, rfl⟩
abbrev main_v34 : Ref sig .tc := ⟨.hbm, 287, rfl⟩
abbrev main_cst_11 : Ref sig .tc := ⟨.hbm, 288, rfl⟩
abbrev main_v35 : Ref sig .tc := ⟨.hbm, 289, rfl⟩
abbrev main_v36 : Ref sig .tc := ⟨.hbm, 290, rfl⟩
abbrev main_v37 : Ref sig .tc := ⟨.hbm, 291, rfl⟩
abbrev main_v38 : Ref sig .tc := ⟨.hbm, 292, rfl⟩
abbrev main_cst_12 : Ref sig .tc := ⟨.hbm, 293, rfl⟩
abbrev main_v39 : Ref sig .tc := ⟨.hbm, 294, rfl⟩
abbrev main_v40 : Ref sig .tc := ⟨.hbm, 295, rfl⟩
abbrev main_v41 : Ref sig .tc := ⟨.hbm, 296, rfl⟩
abbrev main_v42 : Ref sig .tc := ⟨.hbm, 297, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg4_1 : Ref sig .tc := ⟨.vmem, 32, rfl⟩
abbrev cc5_stg5_0 : Ref sig .tc := ⟨.vmem, 33, rfl⟩
abbrev cc5_stg6_0 : Ref sig .tc := ⟨.vmem, 34, rfl⟩
abbrev cc6_stg0_0 : Ref sig .tc := ⟨.vmem, 35, rfl⟩
abbrev cc6_stg0_1 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc6_stg3_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem1_1 : DmaSem sig := 28
abbrev cc5_sem2_0 : DmaSem sig := 29
abbrev cc5_sem3_0 : DmaSem sig := 30
abbrev cc5_sem4_0 : DmaSem sig := 31
abbrev cc5_sem4_1 : DmaSem sig := 32
abbrev cc5_sem5_0 : DmaSem sig := 33
abbrev cc5_sem6_0 : DmaSem sig := 34
abbrev cc6_sem0_0 : DmaSem sig := 35
abbrev cc6_sem0_1 : DmaSem sig := 36
abbrev cc6_sem1_0 : DmaSem sig := 37
abbrev cc6_sem2_0 : DmaSem sig := 38
abbrev cc6_sem3_0 : DmaSem sig := 39
abbrev cc6_sem3_1 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S160x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x160 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S160x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x160 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S160x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x160 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S160x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![120], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev grid6 : Pipeline.Grid := ⟨1, ![120], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x1x1_0_1 : S100000x1.BroadcastsInDim S100000x1x1 (![0, 1] : Fin 2 → Fin S100000x1x1.rank)
  bcast_S_S100000x1x1 : S_.BroadcastsInDim S100000x1x1 (![] : Fin 0 → Fin S100000x1x1.rank)
  bcast_S1_S1x1x1_2 : S1.BroadcastsInDim S1x1x1 (![2] : Fin 1 → Fin S1x1x1.rank)
  bcast_S1x1x1_S100000x1x1_0_1_2 : S1x1x1.BroadcastsInDim S100000x1x1 (![0, 1, 2] : Fin 3 → Fin S100000x1x1.rank)
  reducesTo_S100000x1x1_S100000x1_d2 : S100000x1x1.ReducesTo [2] S100000x1
  h_S_ : 0 < S_.numel
  bcast_S100000x1_S100000x1x128_0_1 : S100000x1.BroadcastsInDim S100000x1x128 (![0, 1] : Fin 2 → Fin S100000x1x128.rank)
  bcast_S_S100000x1x128 : S_.BroadcastsInDim S100000x1x128 (![] : Fin 0 → Fin S100000x1x128.rank)
  bcast_S100000x1_S100000x1x32_0_1 : S100000x1.BroadcastsInDim S100000x1x32 (![0, 1] : Fin 2 → Fin S100000x1x32.rank)
  bcast_S_S100000x1x32 : S_.BroadcastsInDim S100000x1x32 (![] : Fin 0 → Fin S100000x1x32.rank)
  reducesTo_S100000x1x128_S100000x128_d1 : S100000x1x128.ReducesTo [1] S100000x128
  reducesTo_S100000x1x32_S100000x32_d1 : S100000x1x32.ReducesTo [1] S100000x32
  concatenates_S100000x128_S100000x32_S100000x160_d1 : Shape.Concatenates [S100000x128, S100000x32] S100000x160 1
  inb_S10000x160_S10000x160_0_0 : ∀ a, (![0, 0] : Fin 2 → Nat) a + S10000x160.size a ≤ S10000x160.size a
  h_S10000x160 : 0 < S10000x160.numel
  shapeCasts_S10000x160_S10000x160 : S10000x160.ShapeCasts S10000x160
  bitsLt_bf16_f32 : FTy.bits .bf16 < FTy.bits .f32
  inb_S160x128_S160x128_0_0 : ∀ a, (![0, 0] : Fin 2 → Nat) a + S160x128.size a ≤ S160x128.size a
  h_S160x128 : 0 < S160x128.numel
  inb_S10000x128_S10000x128_0_0 : ∀ a, (![0, 0] : Fin 2 → Nat) a + S10000x128.size a ≤ S10000x128.size a
  h_S10000x128 : 0 < S10000x128.numel
  bcast_S_S100000x2 : S_.BroadcastsInDim S100000x2 (![] : Fin 0 → Fin S100000x2.rank)
  bcast_S100000x2_S100000x2x1_0_1 : S100000x2.BroadcastsInDim S100000x2x1 (![0, 1] : Fin 2 → Fin S100000x2x1.rank)
  bcast_S_S100000x2x1 : S_.BroadcastsInDim S100000x2x1 (![] : Fin 0 → Fin S100000x2x1.rank)
  bcast_S1x1x1_S100000x2x1_0_1_2 : S1x1x1.BroadcastsInDim S100000x2x1 (![0, 1, 2] : Fin 3 → Fin S100000x2x1.rank)
  reducesTo_S100000x2x1_S100000x2_d2 : S100000x2x1.ReducesTo [2] S100000x2
  bcast_S100000x2_S100000x2x128_0_1 : S100000x2.BroadcastsInDim S100000x2x128 (![0, 1] : Fin 2 → Fin S100000x2x128.rank)
  bcast_S_S100000x2x128 : S_.BroadcastsInDim S100000x2x128 (![] : Fin 0 → Fin S100000x2x128.rank)
  bcast_S100000x2_S100000x2x32_0_1 : S100000x2.BroadcastsInDim S100000x2x32 (![0, 1] : Fin 2 → Fin S100000x2x32.rank)
  bcast_S_S100000x2x32 : S_.BroadcastsInDim S100000x2x32 (![] : Fin 0 → Fin S100000x2x32.rank)
  reducesTo_S100000x2x128_S100000x128_d1 : S100000x2x128.ReducesTo [1] S100000x128
  reducesTo_S100000x2x32_S100000x32_d1 : S100000x2x32.ReducesTo [1] S100000x32
  bcast_S_S100000x3 : S_.BroadcastsInDim S100000x3 (![] : Fin 0 → Fin S100000x3.rank)
  bcast_S100000x3_S100000x3x1_0_1 : S100000x3.BroadcastsInDim S100000x3x1 (![0, 1] : Fin 2 → Fin S100000x3x1.rank)
  bcast_S_S100000x3x1 : S_.BroadcastsInDim S100000x3x1 (![] : Fin 0 → Fin S100000x3x1.rank)
  bcast_S1x1x1_S100000x3x1_0_1_2 : S1x1x1.BroadcastsInDim S100000x3x1 (![0, 1, 2] : Fin 3 → Fin S100000x3x1.rank)
  reducesTo_S100000x3x1_S100000x3_d2 : S100000x3x1.ReducesTo [2] S100000x3
  bcast_S100000x3_S100000x3x128_0_1 : S100000x3.BroadcastsInDim S100000x3x128 (![0, 1] : Fin 2 → Fin S100000x3x128.rank)
  bcast_S_S100000x3x128 : S_.BroadcastsInDim S100000x3x128 (![] : Fin 0 → Fin S100000x3x128.rank)
  bcast_S100000x3_S100000x3x32_0_1 : S100000x3.BroadcastsInDim S100000x3x32 (![0, 1] : Fin 2 → Fin S100000x3x32.rank)
  bcast_S_S100000x3x32 : S_.BroadcastsInDim S100000x3x32 (![] : Fin 0 → Fin S100000x3x32.rank)
  reducesTo_S100000x3x128_S100000x128_d1 : S100000x3x128.ReducesTo [1] S100000x128
  reducesTo_S100000x3x32_S100000x32_d1 : S100000x3x32.ReducesTo [1] S100000x32
  bcast_S_S100000x4 : S_.BroadcastsInDim S100000x4 (![] : Fin 0 → Fin S100000x4.rank)
  bcast_S100000x4_S100000x4x1_0_1 : S100000x4.BroadcastsInDim S100000x4x1 (![0, 1] : Fin 2 → Fin S100000x4x1.rank)
  bcast_S_S100000x4x1 : S_.BroadcastsInDim S100000x4x1 (![] : Fin 0 → Fin S100000x4x1.rank)
  bcast_S1x1x1_S100000x4x1_0_1_2 : S1x1x1.BroadcastsInDim S100000x4x1 (![0, 1, 2] : Fin 3 → Fin S100000x4x1.rank)
  reducesTo_S100000x4x1_S100000x4_d2 : S100000x4x1.ReducesTo [2] S100000x4
  bcast_S100000x4_S100000x4x128_0_1 : S100000x4.BroadcastsInDim S100000x4x128 (![0, 1] : Fin 2 → Fin S100000x4x128.rank)
  bcast_S_S100000x4x128 : S_.BroadcastsInDim S100000x4x128 (![] : Fin 0 → Fin S100000x4x128.rank)
  bcast_S100000x4_S100000x4x32_0_1 : S100000x4.BroadcastsInDim S100000x4x32 (![0, 1] : Fin 2 → Fin S100000x4x32.rank)
  bcast_S_S100000x4x32 : S_.BroadcastsInDim S100000x4x32 (![] : Fin 0 → Fin S100000x4x32.rank)
  reducesTo_S100000x4x128_S100000x128_d1 : S100000x4x128.ReducesTo [1] S100000x128
  reducesTo_S100000x4x32_S100000x32_d1 : S100000x4x32.ReducesTo [1] S100000x32
  bcast_S_S100000x5 : S_.BroadcastsInDim S100000x5 (![] : Fin 0 → Fin S100000x5.rank)
  bcast_S100000x5_S100000x5x1_0_1 : S100000x5.BroadcastsInDim S100000x5x1 (![0, 1] : Fin 2 → Fin S100000x5x1.rank)
  bcast_S_S100000x5x1 : S_.BroadcastsInDim S100000x5x1 (![] : Fin 0 → Fin S100000x5x1.rank)
  bcast_S1x1x1_S100000x5x1_0_1_2 : S1x1x1.BroadcastsInDim S100000x5x1 (![0, 1, 2] : Fin 3 → Fin S100000x5x1.rank)
  reducesTo_S100000x5x1_S100000x5_d2 : S100000x5x1.ReducesTo [2] S100000x5
  bcast_S100000x5_S100000x5x128_0_1 : S100000x5.BroadcastsInDim S100000x5x128 (![0, 1] : Fin 2 → Fin S100000x5x128.rank)
  bcast_S_S100000x5x128 : S_.BroadcastsInDim S100000x5x128 (![] : Fin 0 → Fin S100000x5x128.rank)
  bcast_S100000x5_S100000x5x32_0_1 : S100000x5.BroadcastsInDim S100000x5x32 (![0, 1] : Fin 2 → Fin S100000x5x32.rank)
  bcast_S_S100000x5x32 : S_.BroadcastsInDim S100000x5x32 (![] : Fin 0 → Fin S100000x5x32.rank)
  reducesTo_S100000x5x128_S100000x128_d1 : S100000x5x128.ReducesTo [1] S100000x128
  reducesTo_S100000x5x32_S100000x32_d1 : S100000x5x32.ReducesTo [1] S100000x32
  concatenates_S100000x128_S100000x128_S100000x128_S100000x128_S100000x128_S100000x128_S600000x128_d0 : Shape.Concatenates [S100000x128, S100000x128, S100000x128, S100000x128, S100000x128, S100000x128] S600000x128 0
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S5000x128_S5000x128 : S5000x128.ShapeCasts S5000x128
  broadcasts_S1x128_S5000x128 : S1x128.Broadcasts S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  gather_S600000x128_S100000x1x1_S100000x1x128_2_0_n_n_0_2_1128_wf : GatherDims.WF S600000x128 S100000x1x1 S100000x1x128 [2] [0] [] [0] [] 2 ![1, 128]
  gather_S1600000x32_S100000x1x1_S100000x1x32_2_0_n_n_0_2_132_wf : GatherDims.WF S1600000x32 S100000x1x1 S100000x1x32 [2] [0] [] [0] [] 2 ![1, 32]
  dot_S10000x160_S160x128_S10000x128_1_0_0_1_n_n_wf : DotDims.WF S10000x160 S160x128 S10000x128 [1] [0] [0] [1] [] []
  gather_S600000x128_S100000x2x1_S100000x2x128_2_0_n_n_0_2_1128_wf : GatherDims.WF S600000x128 S100000x2x1 S100000x2x128 [2] [0] [] [0] [] 2 ![1, 128]
  gather_S1600000x32_S100000x2x1_S100000x2x32_2_0_n_n_0_2_132_wf : GatherDims.WF S1600000x32 S100000x2x1 S100000x2x32 [2] [0] [] [0] [] 2 ![1, 32]
  gather_S600000x128_S100000x3x1_S100000x3x128_2_0_n_n_0_2_1128_wf : GatherDims.WF S600000x128 S100000x3x1 S100000x3x128 [2] [0] [] [0] [] 2 ![1, 128]
  gather_S1600000x32_S100000x3x1_S100000x3x32_2_0_n_n_0_2_132_wf : GatherDims.WF S1600000x32 S100000x3x1 S100000x3x32 [2] [0] [] [0] [] 2 ![1, 32]
  gather_S600000x128_S100000x4x1_S100000x4x128_2_0_n_n_0_2_1128_wf : GatherDims.WF S600000x128 S100000x4x1 S100000x4x128 [2] [0] [] [0] [] 2 ![1, 128]
  gather_S1600000x32_S100000x4x1_S100000x4x32_2_0_n_n_0_2_132_wf : GatherDims.WF S1600000x32 S100000x4x1 S100000x4x32 [2] [0] [] [0] [] 2 ![1, 32]
  gather_S600000x128_S100000x5x1_S100000x5x128_2_0_n_n_0_2_1128_wf : GatherDims.WF S600000x128 S100000x5x1 S100000x5x128 [2] [0] [] [0] [] 2 ![1, 128]
  gather_S1600000x32_S100000x5x1_S100000x5x32_2_0_n_n_0_2_132_wf : GatherDims.WF S1600000x32 S100000x5x1 S100000x5x32 [2] [0] [] [0] [] 2 ![1, 32]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x160.size a ≤ S100000x160.size a
  hwx0_0 : ∀ i : grid0.Coords, EltTy.bits .f32 = 32 ∨ (Rect.block (s := S100000x160) S10000x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x128.size a ≤ S160x128.size a
  hwx0_1 : ∀ i : grid0.Coords, EltTy.bits .f32 = 32 ∨ (Rect.block (s := S160x128) S160x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x160.size a ≤ S100000x160.size a
  hwx1_0 : ∀ i : grid1.Coords, EltTy.bits .f32 = 32 ∨ (Rect.block (s := S100000x160) S10000x160.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S160x128.size a ≤ S160x128.size a
  hwx1_1 : ∀ i : grid1.Coords, EltTy.bits .f32 = 32 ∨ (Rect.block (s := S160x128) S160x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x160.size a ≤ S100000x160.size a
  hwx2_0 : ∀ i : grid2.Coords, EltTy.bits .f32 = 32 ∨ (Rect.block (s := S100000x160) S10000x160.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S160x128.size a ≤ S160x128.size a
  hwx2_1 : ∀ i : grid2.Coords, EltTy.bits .f32 = 32 ∨ (Rect.block (s := S160x128) S160x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x160.size a ≤ S100000x160.size a
  hwx3_0 : ∀ i : grid3.Coords, EltTy.bits .f32 = 32 ∨ (Rect.block (s := S100000x160) S10000x160.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S160x128.size a ≤ S160x128.size a
  hwx3_1 : ∀ i : grid3.Coords, EltTy.bits .f32 = 32 ∨ (Rect.block (s := S160x128) S160x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x160.size a ≤ S100000x160.size a
  hwx4_0 : ∀ i : grid4.Coords, EltTy.bits .f32 = 32 ∨ (Rect.block (s := S100000x160) S10000x160.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S160x128.size a ≤ S160x128.size a
  hwx4_1 : ∀ i : grid4.Coords, EltTy.bits .f32 = 32 ∨ (Rect.block (s := S160x128) S160x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S600000x128.size a
  hwx5_0 : ∀ i : grid5.Coords, EltTy.bits .f32 = 32 ∨ (Rect.block (s := S600000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S600000x128.size a
  hwx5_1 : ∀ i : grid5.Coords, EltTy.bits .f32 = 32 ∨ (Rect.block (s := S600000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S600000x128.size a
  hwx5_4 : ∀ i : grid5.Coords, EltTy.bits .f32 = 32 ∨ (Rect.block (s := S600000x128) S5000x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S600000x128.size a
  hwx6_0 : ∀ i : grid6.Coords, EltTy.bits .f32 = 32 ∨ (Rect.block (s := S600000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S600000x128.size a
  hwx6_3 : ∀ i : grid6.Coords, EltTy.bits .f32 = 32 ∨ (Rect.block (s := S600000x128) S5000x128.size (cc6_transform_3 i) (hinb6_3 i)).WholeWords (EltTy.packing .f32)

variable [Facts₀]

def gather_S600000x128_S100000x1x1_S100000x1x128_2_0_n_n_0_2_1128 : GatherDims S600000x128 S100000x1x1 S100000x1x128 where
  offsetDims := [2]
  collapsedSliceDims := [0]
  operandBatchingDims := []
  startIndicesBatchingDims := []
  startIndexMap := [0]
  indexVectorDim := 2
  sliceSizes := ![1, 128]
  wf := gather_S600000x128_S100000x1x1_S100000x1x128_2_0_n_n_0_2_1128_wf
def gather_S1600000x32_S100000x1x1_S100000x1x32_2_0_n_n_0_2_132 : GatherDims S1600000x32 S100000x1x1 S100000x1x32 where
  offsetDims := [2]
  collapsedSliceDims := [0]
  operandBatchingDims := []
  startIndicesBatchingDims := []
  startIndexMap := [0]
  indexVectorDim := 2
  sliceSizes := ![1, 32]
  wf := gather_S1600000x32_S100000x1x1_S100000x1x32_2_0_n_n_0_2_132_wf
def dot_S10000x160_S160x128_S10000x128_1_0_0_1_n_n : DotDims S10000x160 S160x128 S10000x128 where
  lhsContracting := [1]
  rhsContracting := [0]
  lhsNonContracting := [0]
  rhsNonContracting := [1]
  lhsBatch := []
  rhsBatch := []
  wf := dot_S10000x160_S160x128_S10000x128_1_0_0_1_n_n_wf
def gather_S600000x128_S100000x2x1_S100000x2x128_2_0_n_n_0_2_1128 : GatherDims S600000x128 S100000x2x1 S100000x2x128 where
  offsetDims := [2]
  collapsedSliceDims := [0]
  operandBatchingDims := []
  startIndicesBatchingDims := []
  startIndexMap := [0]
  indexVectorDim := 2
  sliceSizes := ![1, 128]
  wf := gather_S600000x128_S100000x2x1_S100000x2x128_2_0_n_n_0_2_1128_wf
def gather_S1600000x32_S100000x2x1_S100000x2x32_2_0_n_n_0_2_132 : GatherDims S1600000x32 S100000x2x1 S100000x2x32 where
  offsetDims := [2]
  collapsedSliceDims := [0]
  operandBatchingDims := []
  startIndicesBatchingDims := []
  startIndexMap := [0]
  indexVectorDim := 2
  sliceSizes := ![1, 32]
  wf := gather_S1600000x32_S100000x2x1_S100000x2x32_2_0_n_n_0_2_132_wf
def gather_S600000x128_S100000x3x1_S100000x3x128_2_0_n_n_0_2_1128 : GatherDims S600000x128 S100000x3x1 S100000x3x128 where
  offsetDims := [2]
  collapsedSliceDims := [0]
  operandBatchingDims := []
  startIndicesBatchingDims := []
  startIndexMap := [0]
  indexVectorDim := 2
  sliceSizes := ![1, 128]
  wf := gather_S600000x128_S100000x3x1_S100000x3x128_2_0_n_n_0_2_1128_wf
def gather_S1600000x32_S100000x3x1_S100000x3x32_2_0_n_n_0_2_132 : GatherDims S1600000x32 S100000x3x1 S100000x3x32 where
  offsetDims := [2]
  collapsedSliceDims := [0]
  operandBatchingDims := []
  startIndicesBatchingDims := []
  startIndexMap := [0]
  indexVectorDim := 2
  sliceSizes := ![1, 32]
  wf := gather_S1600000x32_S100000x3x1_S100000x3x32_2_0_n_n_0_2_132_wf
def gather_S600000x128_S100000x4x1_S100000x4x128_2_0_n_n_0_2_1128 : GatherDims S600000x128 S100000x4x1 S100000x4x128 where
  offsetDims := [2]
  collapsedSliceDims := [0]
  operandBatchingDims := []
  startIndicesBatchingDims := []
  startIndexMap := [0]
  indexVectorDim := 2
  sliceSizes := ![1, 128]
  wf := gather_S600000x128_S100000x4x1_S100000x4x128_2_0_n_n_0_2_1128_wf
def gather_S1600000x32_S100000x4x1_S100000x4x32_2_0_n_n_0_2_132 : GatherDims S1600000x32 S100000x4x1 S100000x4x32 where
  offsetDims := [2]
  collapsedSliceDims := [0]
  operandBatchingDims := []
  startIndicesBatchingDims := []
  startIndexMap := [0]
  indexVectorDim := 2
  sliceSizes := ![1, 32]
  wf := gather_S1600000x32_S100000x4x1_S100000x4x32_2_0_n_n_0_2_132_wf
def gather_S600000x128_S100000x5x1_S100000x5x128_2_0_n_n_0_2_1128 : GatherDims S600000x128 S100000x5x1 S100000x5x128 where
  offsetDims := [2]
  collapsedSliceDims := [0]
  operandBatchingDims := []
  startIndicesBatchingDims := []
  startIndexMap := [0]
  indexVectorDim := 2
  sliceSizes := ![1, 128]
  wf := gather_S600000x128_S100000x5x1_S100000x5x128_2_0_n_n_0_2_1128_wf
def gather_S1600000x32_S100000x5x1_S100000x5x32_2_0_n_n_0_2_132 : GatherDims S1600000x32 S100000x5x1 S100000x5x32 where
  offsetDims := [2]
  collapsedSliceDims := [0]
  operandBatchingDims := []
  startIndicesBatchingDims := []
  startIndexMap := [0]
  indexVectorDim := 2
  sliceSizes := ![1, 32]
  wf := gather_S1600000x32_S100000x5x1_S100000x5x32_2_0_n_n_0_2_132_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v5) S10000x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S160x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S10000x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S160x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v17) S10000x160.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S160x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v23) S10000x160.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S160x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v24) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v29) S10000x160.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S160x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v30) S10000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_arg0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v31) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg2) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg3) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v32_0) S5000x128.size cc5_transform_4 reads5_4 true false 2 stage5_4 sem5_4
    hrank5 hreads5_4 hinb5_4 nbuf5_4 (Memref.isWhole_whole _) hwx5_4 hstage5_4

abbrev win5_5 : Pipeline.Window sig grid5 :=
  Pipeline.Window.ofSpec (Memref.whole main_v32_1) S1x128.size cc5_transform_5 reads5_5 true true 1 stage5_5 sem5_5
    hrank5 hreads5_5 hinb5_5 nbuf5_5 (Memref.isWhole_whole _) hwx5_5 hstage5_5

abbrev win5_6 : Pipeline.Window sig grid5 :=
  Pipeline.Window.ofSpec (Memref.whole main_v32_2) S1x128.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v32_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v34) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v41) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v42) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S600000x128 : Shape := ⟨2, ![600000, 128]⟩
abbrev S1600000x32 : Shape := ⟨2, ![1600000, 32]⟩
abbrev S128x128 : Shape := ⟨2, ![128, 128]⟩
abbrev S1x128 : Shape := ⟨2, ![1, 128]⟩
abbrev S160x128 : Shape := ⟨2, ![160, 128]⟩
abbrev S100000x1 : Shape := ⟨2, ![100000, 1]⟩
abbrev S100000x2 : Shape := ⟨2, ![100000, 2]⟩
abbrev S100000x3 : Shape := ⟨2, ![100000, 3]⟩
abbrev S100000x4 : Shape := ⟨2, ![100000, 4]⟩
abbrev S100000x5 : Shape := ⟨2, ![100000, 5]⟩
abbrev S_ : Shape := ⟨0, ![]⟩
abbrev S100000x128 : Shape := ⟨2, ![100000, 128]⟩
abbrev S100000x1x1 : Shape := ⟨3, ![100000, 1, 1]⟩
abbrev S100000x1x128 : Shape := ⟨3, ![100000, 1, 128]⟩
abbrev S100000x1x32 : Shape := ⟨3, ![100000, 1, 32]⟩
abbrev S100000x32 : Shape := ⟨2, ![100000, 32]⟩
abbrev S100000x160 : Shape := ⟨2, ![100000, 160]⟩
abbrev S100000x2x1 : Shape := ⟨3, ![100000, 2, 1]⟩
abbrev S100000x2x128 : Shape := ⟨3, ![100000, 2, 128]⟩
abbrev S100000x2x32 : Shape := ⟨3, ![100000, 2, 32]⟩
abbrev S100000x3x1 : Shape := ⟨3, ![100000, 3, 1]⟩
abbrev S100000x3x128 : Shape := ⟨3, ![100000, 3, 128]⟩
abbrev S100000x3x32 : Shape := ⟨3, ![100000, 3, 32]⟩
abbrev S100000x4x1 : Shape := ⟨3, ![100000, 4, 1]⟩
abbrev S100000x4x128 : Shape := ⟨3, ![100000, 4, 128]⟩
abbrev S100000x4x32 : Shape := ⟨3, ![100000, 4, 32]⟩
abbrev S100000x5x1 : Shape := ⟨3, ![100000, 5, 1]⟩
abbrev S100000x5x128 : Shape := ⟨3, ![100000, 5, 128]⟩
abbrev S100000x5x32 : Shape := ⟨3, ![100000, 5, 32]⟩
abbrev S128 : Shape := ⟨1, ![128]⟩

abbrev nBuf : Space → Nat
  | .hbm => 172
  | .vmem => 0
  | .smem => 0
  | _ => 0

abbrev hbmTy0_0 (i : Nat) : BufTy := match i % 128 with
  | 0 => ⟨S600000x128, .f32⟩
  | 1 => ⟨S1600000x32, .f32⟩
  | 2 => ⟨S128x128, .f32⟩
  | 3 => ⟨S1x128, .f32⟩
  | 4 => ⟨S160x128, .f32⟩
  | 5 => ⟨S160x128, .f32⟩
  | 6 => ⟨S160x128, .f32⟩
  | 7 => ⟨S160x128, .f32⟩
  | 8 => ⟨S160x128, .f32⟩
  | 9 => ⟨S100000x1, .i32⟩
  | 10 => ⟨S100000x1, .i32⟩
  | 11 => ⟨S100000x2, .i32⟩
  | 12 => ⟨S100000x2, .i32⟩
  | 13 => ⟨S100000x3, .i32⟩
  | 14 => ⟨S100000x3, .i32⟩
  | 15 => ⟨S100000x4, .i32⟩
  | 16 => ⟨S100000x4, .i32⟩
  | 17 => ⟨S100000x5, .i32⟩
  | 18 => ⟨S100000x5, .i32⟩
  | 19 => ⟨S_, .f32⟩
  | 20 => ⟨S100000x128, .f32⟩
  | 21 => ⟨S_, .i32⟩
  | 22 => ⟨S100000x1, .i32⟩
  | 23 => ⟨S100000x1, .i1⟩
  | 24 => ⟨S_, .i32⟩
  | 25 => ⟨S100000x1, .i32⟩
  | 26 => ⟨S100000x1, .i32⟩
  | 27 => ⟨S100000x1, .i32⟩
  | 28 => ⟨S100000x1x1, .i32⟩
  | 29 => ⟨S100000x1x128, .f32⟩
  | 30 => ⟨S_, .i32⟩
  | 31 => ⟨S100000x1, .i32⟩
  | 32 => ⟨S100000x1, .i1⟩
  | 33 => ⟨S_, .i32⟩
  | 34 => ⟨S100000x1, .i32⟩
  | 35 => ⟨S100000x1, .i32⟩
  | 36 => ⟨S100000x1, .i32⟩
  | 37 => ⟨S100000x1x1, .i32⟩
  | 38 => ⟨S100000x1x32, .f32⟩
  | 39 => ⟨S_, .f32⟩
  | 40 => ⟨S100000x128, .f32⟩
  | 41 => ⟨S_, .f32⟩
  | 42 => ⟨S100000x32, .f32⟩
  | 43 => ⟨S100000x160, .f32⟩
  | 44 => ⟨S100000x128, .f32⟩
  | 45 => ⟨S_, .i32⟩
  | 46 => ⟨S100000x2, .i32⟩
  | 47 => ⟨S100000x2, .i1⟩
  | 48 => ⟨S_, .i32⟩
  | 49 => ⟨S100000x2, .i32⟩
  | 50 => ⟨S100000x2, .i32⟩
  | 51 => ⟨S100000x2, .i32⟩
  | 52 => ⟨S100000x2x1, .i32⟩
  | 53 => ⟨S100000x2x128, .f32⟩
  | 54 => ⟨S_, .i32⟩
  | 55 => ⟨S100000x2, .i32⟩
  | 56 => ⟨S100000x2, .i1⟩
  | 57 => ⟨S_, .i32⟩
  | 58 => ⟨S100000x2, .i32⟩
  | 59 => ⟨S100000x2, .i32⟩
  | 60 => ⟨S100000x2, .i32⟩
  | 61 => ⟨S100000x2x1, .i32⟩
  | 62 => ⟨S100000x2x32, .f32⟩
  | 63 => ⟨S_, .f32⟩
  | 64 => ⟨S100000x128, .f32⟩
  | 65 => ⟨S_, .f32⟩
  | 66 => ⟨S100000x32, .f32⟩
  | 67 => ⟨S100000x160, .f32⟩
  | 68 => ⟨S100000x128, .f32⟩
  | 69 => ⟨S_, .i32⟩
  | 70 => ⟨S100000x3, .i32⟩
  | 71 => ⟨S100000x3, .i1⟩
  | 72 => ⟨S_, .i32⟩
  | 73 => ⟨S100000x3, .i32⟩
  | 74 => ⟨S100000x3, .i32⟩
  | 75 => ⟨S100000x3, .i32⟩
  | 76 => ⟨S100000x3x1, .i32⟩
  | 77 => ⟨S100000x3x128, .f32⟩
  | 78 => ⟨S_, .i32⟩
  | 79 => ⟨S100000x3, .i32⟩
  | 80 => ⟨S100000x3, .i1⟩
  | 81 => ⟨S_, .i32⟩
  | 82 => ⟨S100000x3, .i32⟩
  | 83 => ⟨S100000x3, .i32⟩
  | 84 => ⟨S100000x3, .i32⟩
  | 85 => ⟨S100000x3x1, .i32⟩
  | 86 => ⟨S100000x3x32, .f32⟩
  | 87 => ⟨S_, .f32⟩
  | 88 => ⟨S100000x128, .f32⟩
  | 89 => ⟨S_, .f32⟩
  | 90 => ⟨S100000x32, .f32⟩
  | 91 => ⟨S100000x160, .f32⟩
  | 92 => ⟨S100000x128, .f32⟩
  | 93 => ⟨S_, .i32⟩
  | 94 => ⟨S100000x4, .i32⟩
  | 95 => ⟨S100000x4, .i1⟩
  | 96 => ⟨S_, .i32⟩
  | 97 => ⟨S100000x4, .i32⟩
  | 98 => ⟨S100000x4, .i32⟩
  | 99 => ⟨S100000x4, .i32⟩
  | 100 => ⟨S100000x4x1, .i32⟩
  | 101 => ⟨S100000x4x128, .f32⟩
  | 102 => ⟨S_, .i32⟩
  | 103 => ⟨S100000x4, .i32⟩
  | 104 => ⟨S100000x4, .i1⟩
  | 105 => ⟨S_, .i32⟩
  | 106 => ⟨S100000x4, .i32⟩
  | 107 => ⟨S100000x4, .i32⟩
  | 108 => ⟨S100000x4, .i32⟩
  | 109 => ⟨S100000x4x1, .i32⟩
  | 110 => ⟨S100000x4x32, .f32⟩
  | 111 => ⟨S_, .f32⟩
  | 112 => ⟨S100000x128, .f32⟩
  | 113 => ⟨S_, .f32⟩
  | 114 => ⟨S100000x32, .f32⟩
  | 115 => ⟨S100000x160, .f32⟩
  | 116 => ⟨S100000x128, .f32⟩
  | 117 => ⟨S_, .i32⟩
  | 118 => ⟨S100000x5, .i32⟩
  | 119 => ⟨S100000x5, .i1⟩
  | 120 => ⟨S_, .i32⟩
  | 121 => ⟨S100000x5, .i32⟩
  | 122 => ⟨S100000x5, .i32⟩
  | 123 => ⟨S100000x5, .i32⟩
  | 124 => ⟨S100000x5x1, .i32⟩
  | 125 => ⟨S100000x5x128, .f32⟩
  | 126 => ⟨S_, .i32⟩
  | 127 => ⟨S100000x5, .i32⟩
  | _ => ⟨S600000x128, .f32⟩

abbrev hbmTy0_1 (i : Nat) : BufTy := match i % 128 with
  | 0 => ⟨S100000x5, .i1⟩
  | 1 => ⟨S_, .i32⟩
  | 2 => ⟨S100000x5, .i32⟩
  | 3 => ⟨S100000x5, .i32⟩
  | 4 => ⟨S100000x5, .i32⟩
  | 5 => ⟨S100000x5x1, .i32⟩
  | 6 => ⟨S100000x5x32, .f32⟩
  | 7 => ⟨S_, .f32⟩
  | 8 => ⟨S100000x128, .f32⟩
  | 9 => ⟨S_, .f32⟩
  | 10 => ⟨S100000x32, .f32⟩
  | 11 => ⟨S100000x160, .f32⟩
  | 12 => ⟨S100000x128, .f32⟩
  | 13 => ⟨S600000x128, .f32⟩
  | 14 => ⟨S600000x128, .f32⟩
  | 15 => ⟨S600000x128, .f32⟩
  | 16 => ⟨S600000x128, .f32⟩
  | 17 => ⟨S600000x128, .f32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S600000x128, .f32⟩
  | 25 => ⟨S600000x128, .f32⟩
  | 26 => ⟨S600000x128, .f32⟩
  | 27 => ⟨S_, .f32⟩
  | 28 => ⟨S128, .f32⟩
  | 29 => ⟨S1x128, .f32⟩
  | 30 => ⟨S_, .f32⟩
  | 31 => ⟨S1x128, .f32⟩
  | 32 => ⟨S1x128, .f32⟩
  | 33 => ⟨S600000x128, .f32⟩
  | 34 => ⟨S600000x128, .f32⟩
  | 35 => ⟨S_, .f32⟩
  | 36 => ⟨S1x128, .f32⟩
  | 37 => ⟨S1x128, .f32⟩
  | 38 => ⟨S1x128, .f32⟩
  | 39 => ⟨S600000x128, .f32⟩
  | 40 => ⟨S600000x128, .f32⟩
  | 41 => ⟨S_, .f32⟩
  | 42 => ⟨S600000x128, .f32⟩
  | 43 => ⟨S600000x128, .f32⟩
  | _ => ⟨S600000x128, .f32⟩

abbrev hbmTy (i : Nat) : BufTy := match i / 128 with
  | 0 => hbmTy0_0 i
  | 1 => hbmTy0_1 i
  | _ => ⟨S600000x128, .f32⟩

abbrev bufTy : (tb : Table) → Fin (tcTables nBuf tb) → BufTy
  | .hbm, ⟨i, _⟩ => hbmTy i
  | _, _ => ⟨S600000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_c : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_1 : Ref sig .tc := ⟨.hbm, 30, rfl⟩
abbrev main_v8 : Ref sig .tc := ⟨.hbm, 31, rfl⟩
abbrev main_v9 : Ref sig .tc := ⟨.hbm, 32, rfl⟩
abbrev main_c_2 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_3 : Ref sig .tc := ⟨.hbm, 39, rfl⟩
abbrev main_v15 : Ref sig .tc := ⟨.hbm, 40, rfl⟩
abbrev main_cst_4 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_5 : Ref sig .tc := ⟨.hbm, 45, rfl⟩
abbrev main_v19 : Ref sig .tc := ⟨.hbm, 46, rfl⟩
abbrev main_v20 : Ref sig .tc := ⟨.hbm, 47, rfl⟩
abbrev main_c_6 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_7 : Ref sig .tc := ⟨.hbm, 54, rfl⟩
abbrev main_v26 : Ref sig .tc := ⟨.hbm, 55, rfl⟩
abbrev main_v27 : Ref sig .tc := ⟨.hbm, 56, rfl⟩
abbrev main_c_8 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_9 : Ref sig .tc := ⟨.hbm, 63, rfl⟩
abbrev main_v33 : Ref sig .tc := ⟨.hbm, 64, rfl⟩
abbrev main_cst_10 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_c_11 : Ref sig .tc := ⟨.hbm, 69, rfl⟩
abbrev main_v37 : Ref sig .tc := ⟨.hbm, 70, rfl⟩
abbrev main_v38 : Ref sig .tc := ⟨.hbm, 71, rfl⟩
abbrev main_c_12 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_c_13 : Ref sig .tc := ⟨.hbm, 78, rfl⟩
abbrev main_v44 : Ref sig .tc := ⟨.hbm, 79, rfl⟩
abbrev main_v45 : Ref sig .tc := ⟨.hbm, 80, rfl⟩
abbrev main_c_14 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_15 : Ref sig .tc := ⟨.hbm, 87, rfl⟩
abbrev main_v51 : Ref sig .tc := ⟨.hbm, 88, rfl⟩
abbrev main_cst_16 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_c_17 : Ref sig .tc := ⟨.hbm, 93, rfl⟩
abbrev main_v55 : Ref sig .tc := ⟨.hbm, 94, rfl⟩
abbrev main_v56 : Ref sig .tc := ⟨.hbm, 95, rfl⟩
abbrev main_c_18 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_c_19 : Ref sig .tc := ⟨.hbm, 102, rfl⟩
abbrev main_v62 : Ref sig .tc := ⟨.hbm, 103, rfl⟩
abbrev main_v63 : Ref sig .tc := ⟨.hbm, 104, rfl⟩
abbrev main_c_20 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_cst_21 : Ref sig .tc := ⟨.hbm, 111, rfl⟩
abbrev main_v69 : Ref sig .tc := ⟨.hbm, 112, rfl⟩
abbrev main_cst_22 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_c_23 : Ref sig .tc := ⟨.hbm, 117, rfl⟩
abbrev main_v73 : Ref sig .tc := ⟨.hbm, 118, rfl⟩
abbrev main_v74 : Ref sig .tc := ⟨.hbm, 119, rfl⟩
abbrev main_c_24 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_c_25 : Ref sig .tc := ⟨.hbm, 126, rfl⟩
abbrev main_v80 : Ref sig .tc := ⟨.hbm, 127, rfl⟩
abbrev main_v81 : Ref sig .tc := ⟨.hbm, 128, rfl⟩
abbrev main_c_26 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_27 : Ref sig .tc := ⟨.hbm, 135, rfl⟩
abbrev main_v87 : Ref sig .tc := ⟨.hbm, 136, rfl⟩
abbrev main_cst_28 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_cst_29 : Ref sig .tc := ⟨.hbm, 146, rfl⟩
abbrev main_v96 : Ref sig .tc := ⟨.hbm, 147, rfl⟩
abbrev main_v97 : Ref sig .tc := ⟨.hbm, 148, rfl⟩
abbrev main_cst_30 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_cst_31 : Ref sig .tc := ⟨.hbm, 155, rfl⟩
abbrev main_v103 : Ref sig .tc := ⟨.hbm, 156, rfl⟩
abbrev main_v104 : Ref sig .tc := ⟨.hbm, 157, rfl⟩
abbrev main_cst_32 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_33 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_call0_cst : Ref sig .tc := ⟨.hbm, 169, rfl⟩
abbrev main_call0_v0 : Ref sig .tc := ⟨.hbm, 170, rfl⟩
abbrev main_v114 : Ref sig .tc := ⟨.hbm, 171, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x1x1_0_1 : S100000x1.BroadcastsInDim S100000x1x1 (![0, 1] : Fin 2 → Fin S100000x1x1.rank)
  reducesTo_S100000x1x128_S100000x128_d1 : S100000x1x128.ReducesTo [1] S100000x128
  h_S_ : 0 < S_.numel
  reducesTo_S100000x1x32_S100000x32_d1 : S100000x1x32.ReducesTo [1] S100000x32
  concatenates_S100000x128_S100000x32_S100000x160_d1 : Shape.Concatenates [S100000x128, S100000x32] S100000x160 1
  bcast_S_S100000x2 : S_.BroadcastsInDim S100000x2 (![] : Fin 0 → Fin S100000x2.rank)
  bcast_S100000x2_S100000x2x1_0_1 : S100000x2.BroadcastsInDim S100000x2x1 (![0, 1] : Fin 2 → Fin S100000x2x1.rank)
  reducesTo_S100000x2x128_S100000x128_d1 : S100000x2x128.ReducesTo [1] S100000x128
  reducesTo_S100000x2x32_S100000x32_d1 : S100000x2x32.ReducesTo [1] S100000x32
  bcast_S_S100000x3 : S_.BroadcastsInDim S100000x3 (![] : Fin 0 → Fin S100000x3.rank)
  bcast_S100000x3_S100000x3x1_0_1 : S100000x3.BroadcastsInDim S100000x3x1 (![0, 1] : Fin 2 → Fin S100000x3x1.rank)
  reducesTo_S100000x3x128_S100000x128_d1 : S100000x3x128.ReducesTo [1] S100000x128
  reducesTo_S100000x3x32_S100000x32_d1 : S100000x3x32.ReducesTo [1] S100000x32
  bcast_S_S100000x4 : S_.BroadcastsInDim S100000x4 (![] : Fin 0 → Fin S100000x4.rank)
  bcast_S100000x4_S100000x4x1_0_1 : S100000x4.BroadcastsInDim S100000x4x1 (![0, 1] : Fin 2 → Fin S100000x4x1.rank)
  reducesTo_S100000x4x128_S100000x128_d1 : S100000x4x128.ReducesTo [1] S100000x128
  reducesTo_S100000x4x32_S100000x32_d1 : S100000x4x32.ReducesTo [1] S100000x32
  bcast_S_S100000x5 : S_.BroadcastsInDim S100000x5 (![] : Fin 0 → Fin S100000x5.rank)
  bcast_S100000x5_S100000x5x1_0_1 : S100000x5.BroadcastsInDim S100000x5x1 (![0, 1] : Fin 2 → Fin S100000x5x1.rank)
  reducesTo_S100000x5x128_S100000x128_d1 : S100000x5x128.ReducesTo [1] S100000x128
  reducesTo_S100000x5x32_S100000x32_d1 : S100000x5x32.ReducesTo [1] S100000x32
  concatenates_S100000x128_S100000x128_S100000x128_S100000x128_S100000x128_S100000x128_S600000x128_d0 : Shape.Concatenates [S100000x128, S100000x128, S100000x128, S100000x128, S100000x128, S100000x128] S600000x128 0
  bcast_S1x128_S600000x128_0_1 : S1x128.BroadcastsInDim S600000x128 (![0, 1] : Fin 2 → Fin S600000x128.rank)
  reducesTo_S600000x128_S128_d0 : S600000x128.ReducesTo [0] S128
  bcast_S128_S1x128_1 : S128.BroadcastsInDim S1x128 (![1] : Fin 1 → Fin S1x128.rank)
  bcast_S_S1x128 : S_.BroadcastsInDim S1x128 (![] : Fin 0 → Fin S1x128.rank)
  bcast_S_S600000x128 : S_.BroadcastsInDim S600000x128 (![] : Fin 0 → Fin S600000x128.rank)
  gather_S600000x128_S100000x1x1_S100000x1x128_2_0_n_n_0_2_1128_wf : GatherDims.WF S600000x128 S100000x1x1 S100000x1x128 [2] [0] [] [0] [] 2 ![1, 128]
  gather_S1600000x32_S100000x1x1_S100000x1x32_2_0_n_n_0_2_132_wf : GatherDims.WF S1600000x32 S100000x1x1 S100000x1x32 [2] [0] [] [0] [] 2 ![1, 32]
  dot_S100000x160_S160x128_S100000x128_1_0_0_1_n_n_wf : DotDims.WF S100000x160 S160x128 S100000x128 [1] [0] [0] [1] [] []
  gather_S600000x128_S100000x2x1_S100000x2x128_2_0_n_n_0_2_1128_wf : GatherDims.WF S600000x128 S100000x2x1 S100000x2x128 [2] [0] [] [0] [] 2 ![1, 128]
  gather_S1600000x32_S100000x2x1_S100000x2x32_2_0_n_n_0_2_132_wf : GatherDims.WF S1600000x32 S100000x2x1 S100000x2x32 [2] [0] [] [0] [] 2 ![1, 32]
  gather_S600000x128_S100000x3x1_S100000x3x128_2_0_n_n_0_2_1128_wf : GatherDims.WF S600000x128 S100000x3x1 S100000x3x128 [2] [0] [] [0] [] 2 ![1, 128]
  gather_S1600000x32_S100000x3x1_S100000x3x32_2_0_n_n_0_2_132_wf : GatherDims.WF S1600000x32 S100000x3x1 S100000x3x32 [2] [0] [] [0] [] 2 ![1, 32]
  gather_S600000x128_S100000x4x1_S100000x4x128_2_0_n_n_0_2_1128_wf : GatherDims.WF S600000x128 S100000x4x1 S100000x4x128 [2] [0] [] [0] [] 2 ![1, 128]
  gather_S1600000x32_S100000x4x1_S100000x4x32_2_0_n_n_0_2_132_wf : GatherDims.WF S1600000x32 S100000x4x1 S100000x4x32 [2] [0] [] [0] [] 2 ![1, 32]
  gather_S600000x128_S100000x5x1_S100000x5x128_2_0_n_n_0_2_1128_wf : GatherDims.WF S600000x128 S100000x5x1 S100000x5x128 [2] [0] [] [0] [] 2 ![1, 128]
  gather_S1600000x32_S100000x5x1_S100000x5x32_2_0_n_n_0_2_132_wf : GatherDims.WF S1600000x32 S100000x5x1 S100000x5x32 [2] [0] [] [0] [] 2 ![1, 32]
  dot_S600000x128_S128x128_S600000x128_1_0_0_1_n_n_wf : DotDims.WF S600000x128 S128x128 S600000x128 [1] [0] [0] [1] [] []

variable [Facts₀]

def gather_S600000x128_S100000x1x1_S100000x1x128_2_0_n_n_0_2_1128 : GatherDims S600000x128 S100000x1x1 S100000x1x128 where
  offsetDims := [2]
  collapsedSliceDims := [0]
  operandBatchingDims := []
  startIndicesBatchingDims := []
  startIndexMap := [0]
  indexVectorDim := 2
  sliceSizes := ![1, 128]
  wf := gather_S600000x128_S100000x1x1_S100000x1x128_2_0_n_n_0_2_1128_wf
def gather_S1600000x32_S100000x1x1_S100000x1x32_2_0_n_n_0_2_132 : GatherDims S1600000x32 S100000x1x1 S100000x1x32 where
  offsetDims := [2]
  collapsedSliceDims := [0]
  operandBatchingDims := []
  startIndicesBatchingDims := []
  startIndexMap := [0]
  indexVectorDim := 2
  sliceSizes := ![1, 32]
  wf := gather_S1600000x32_S100000x1x1_S100000x1x32_2_0_n_n_0_2_132_wf
def dot_S100000x160_S160x128_S100000x128_1_0_0_1_n_n : DotDims S100000x160 S160x128 S100000x128 where
  lhsContracting := [1]
  rhsContracting := [0]
  lhsNonContracting := [0]
  rhsNonContracting := [1]
  lhsBatch := []
  rhsBatch := []
  wf := dot_S100000x160_S160x128_S100000x128_1_0_0_1_n_n_wf
def gather_S600000x128_S100000x2x1_S100000x2x128_2_0_n_n_0_2_1128 : GatherDims S600000x128 S100000x2x1 S100000x2x128 where
  offsetDims := [2]
  collapsedSliceDims := [0]
  operandBatchingDims := []
  startIndicesBatchingDims := []
  startIndexMap := [0]
  indexVectorDim := 2
  sliceSizes := ![1, 128]
  wf := gather_S600000x128_S100000x2x1_S100000x2x128_2_0_n_n_0_2_1128_wf
def gather_S1600000x32_S100000x2x1_S100000x2x32_2_0_n_n_0_2_132 : GatherDims S1600000x32 S100000x2x1 S100000x2x32 where
  offsetDims := [2]
  collapsedSliceDims := [0]
  operandBatchingDims := []
  startIndicesBatchingDims := []
  startIndexMap := [0]
  indexVectorDim := 2
  sliceSizes := ![1, 32]
  wf := gather_S1600000x32_S100000x2x1_S100000x2x32_2_0_n_n_0_2_132_wf
def gather_S600000x128_S100000x3x1_S100000x3x128_2_0_n_n_0_2_1128 : GatherDims S600000x128 S100000x3x1 S100000x3x128 where
  offsetDims := [2]
  collapsedSliceDims := [0]
  operandBatchingDims := []
  startIndicesBatchingDims := []
  startIndexMap := [0]
  indexVectorDim := 2
  sliceSizes := ![1, 128]
  wf := gather_S600000x128_S100000x3x1_S100000x3x128_2_0_n_n_0_2_1128_wf
def gather_S1600000x32_S100000x3x1_S100000x3x32_2_0_n_n_0_2_132 : GatherDims S1600000x32 S100000x3x1 S100000x3x32 where
  offsetDims := [2]
  collapsedSliceDims := [0]
  operandBatchingDims := []
  startIndicesBatchingDims := []
  startIndexMap := [0]
  indexVectorDim := 2
  sliceSizes := ![1, 32]
  wf := gather_S1600000x32_S100000x3x1_S100000x3x32_2_0_n_n_0_2_132_wf
def gather_S600000x128_S100000x4x1_S100000x4x128_2_0_n_n_0_2_1128 : GatherDims S600000x128 S100000x4x1 S100000x4x128 where
  offsetDims := [2]
  collapsedSliceDims := [0]
  operandBatchingDims := []
  startIndicesBatchingDims := []
  startIndexMap := [0]
  indexVectorDim := 2
  sliceSizes := ![1, 128]
  wf := gather_S600000x128_S100000x4x1_S100000x4x128_2_0_n_n_0_2_1128_wf
def gather_S1600000x32_S100000x4x1_S100000x4x32_2_0_n_n_0_2_132 : GatherDims S1600000x32 S100000x4x1 S100000x4x32 where
  offsetDims := [2]
  collapsedSliceDims := [0]
  operandBatchingDims := []
  startIndicesBatchingDims := []
  startIndexMap := [0]
  indexVectorDim := 2
  sliceSizes := ![1, 32]
  wf := gather_S1600000x32_S100000x4x1_S100000x4x32_2_0_n_n_0_2_132_wf
def gather_S600000x128_S100000x5x1_S100000x5x128_2_0_n_n_0_2_1128 : GatherDims S600000x128 S100000x5x1 S100000x5x128 where
  offsetDims := [2]
  collapsedSliceDims := [0]
  operandBatchingDims := []
  startIndicesBatchingDims := []
  startIndexMap := [0]
  indexVectorDim := 2
  sliceSizes := ![1, 128]
  wf := gather_S600000x128_S100000x5x1_S100000x5x128_2_0_n_n_0_2_1128_wf
def gather_S1600000x32_S100000x5x1_S100000x5x32_2_0_n_n_0_2_132 : GatherDims S1600000x32 S100000x5x1 S100000x5x32 where
  offsetDims := [2]
  collapsedSliceDims := [0]
  operandBatchingDims := []
  startIndicesBatchingDims := []
  startIndexMap := [0]
  indexVectorDim := 2
  sliceSizes := ![1, 32]
  wf := gather_S1600000x32_S100000x5x1_S100000x5x32_2_0_n_n_0_2_132_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf

class Facts : Prop extends Facts₀ where

variable [Facts]
-- ==== Proof.K.MM.lean ====
import proofs.«411265_j32847909880435_1_alg».proof.Proof.Gen.Kernel.Launch
import proofs.«411265_j32847909880435_1_alg».proof.Proof.Gen.Kernel.Skeleton
import proofs.«411265_j32847909880435_1_alg».proof.Proof.Gen.Kernel.Points
import Idealize.ShloMosaic.Lib.Pipeline.FrameBody
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {F : FTy → Type} [FloatOps F]

local notation "𝕄" => MT nD τ sig Unit (Elt F) ℕ (UR sig nD τ) ℕ

/-- Window `w`'s block at point `t`, read off its array as the region finds it. -/
def mm_iblk (cfg : Cfg sig Λ₀) (V : (c : Dev nD) → (b : Ref sig .tc) → Buf (Elt F) ((c : Thread nD τ).loc b)) (c : Dev nD)
    (w : Fin cfg.W) (t : Fin cfg.N) : ((cfg.win w).xblock (cfg.grid.coords t)).Idx → Elt F (cfg.win w).elt :=
  ((cfg.win w).blk t).view.read (Elt F) (V c (Pipeline.arrRef cfg.spec w))

/-- For an input window that the body leaves at its block, `before` is that block of the array. -/
theorem mm_before {cfg : Cfg sig Λ₀} {c : Dev nD} (dat : Dat τ (Elt F) Unit ℕ (UR sig nD τ) ℕ cfg c)
    (V : (c : Dev nD) → (b : Ref sig .tc) → Buf (Elt F) ((c : Thread nD τ).loc b))
    (hA : ∀ w, dat.A w = V c (Pipeline.arrRef cfg.spec w)) (w : Fin cfg.W) (hw : (cfg.win w).isOut = false)
    (hlive : ∀ i, cfg.idle w i = false)
    (hclip : ∀ t t' : Fin cfg.N, (cfg.win w).index t = (cfg.win w).index t' →
      (cfg.win w).clip (cfg.grid.coords t) = (cfg.win w).clip (cfg.grid.coords t'))
    (hkeep : ∀ s, (cfg.win w).cut (cfg.grid.coords s) (dat.after w s) = mm_iblk cfg V c w s)
    (t : Fin cfg.N) (d : (cfg.win w).block.Idx → Elt F (cfg.win w).elt) :
    dat.before w t d = (cfg.win w).fill (cfg.grid.coords t) d (mm_iblk cfg V c w t) := by
  have e : ∀ s, dat.blockOf w s = mm_iblk cfg V c w s := fun s => by unfold Dat.blockOf mm_iblk; rw [hA]
  rw [dat.before_in_eq_fetched w hw hlive hclip (fun s => (hkeep s).trans (e s).symm) t d]
  unfold Dat.fetched; rw [e]

theorem mm_zoff : (![0, 0] : Fin 2 → Nat) = fun _ => 0 := funext fun a => by fin_cases a <;> rfl

/-- Regions 1 to 4 run the same body: each one's function equals region 0's skeleton. -/
theorem mm_eq1 : cc1__degree_matmul_kernel (F := F) = cc0__degree_matmul_kernel_skel := cc1__degree_matmul_kernel_eq_skeleton
theorem mm_eq2 : cc2__degree_matmul_kernel (F := F) = cc0__degree_matmul_kernel_skel := cc2__degree_matmul_kernel_eq_skeleton
theorem mm_eq3 : cc3__degree_matmul_kernel (F := F) = cc0__degree_matmul_kernel_skel := cc3__degree_matmul_kernel_eq_skeleton
theorem mm_eq4 : cc4__degree_matmul_kernel (F := F) = cc0__degree_matmul_kernel_skel := cc4__degree_matmul_kernel_eq_skeleton

/-- The body loads its two blocks whole and stores their product over the whole third buffer; `Φ` and `O` are framed. -/
theorem mm_body (c : Dev nD) {i : grid0.Coords}
    {arg1 : Memref sig .tc .vmem S10000x160 .f32} {harg1 : arg1.IsWhole}
    {arg2 : Memref sig .tc .vmem S160x128 .f32} {harg2 : arg2.IsWhole}
    {arg3 : Memref sig .tc .vmem S10000x128 .f32} {harg3 : arg3.IsWhole}
    {x0 z0 : Vec F S10000x160 .f32} {x1 z1 : Vec F S160x128 .f32} {z2 : Vec F S10000x128 .f32} {Φ O : sProp 𝕄} {D0 D1 D2 : Type}
    {y0 : D0 → Vec F S10000x160 .f32} {y1 : D1 → Vec F S160x128 .f32} {y2 : D2 → Vec F S10000x128 .f32}
    (e0 : ∀ d, y0 d = x0) (e1 : ∀ d, y1 d = x1) (f0 : z0 = x0) (f1 : z1 = x1) (f2 : z2 = k0_pay1 x0 x1) :
    iprop(Φ ∗ O ∗ (∃ d, owns (c : Thread nD τ) arg1 fullShare (y0 d)) ∗ (∃ d, owns (c : Thread nD τ) arg2 fullShare (y1 d))
        ∗ (∃ d, owns (c : Thread nD τ) arg3 fullShare (y2 d)))
      ⊢ wp frame (wpE (defs₀ (F := F)) Variants.none c none) Set.univ (cc0__degree_matmul_kernel_skel i arg1 harg1 arg2 harg2 arg3 harg3)
          fun _ => iprop(Φ ∗ O ∗ owns (c : Thread nD τ) arg1 fullShare z0 ∗ owns (c : Thread nD τ) arg2 fullShare z1
            ∗ owns (c : Thread nD τ) arg3 fullShare z2) := by
  subst z0 z1 z2
  simp only [e0, e1]
  unfold cc0__degree_matmul_kernel_skel owns
  iintro ⟨HΦ, Ho, ⟨%da, %fa, %hfa, Ha⟩, ⟨%db, %fb, %hfb, Hb⟩, ⟨%dc, %fc, -, Hc⟩⟩
  subst hfa; subst hfb
  sl_exec
  sl_step
  isplitl [HΦ]; · iexact HΦ
  isplitl [Ho]; · iexact Ho
  isplitl [Ha]
  · iexists fa; isplitr; · ipureintro; rfl
    iexact Ha
  isplitl [Hb]
  · iexists fb; isplitr; · ipureintro; rfl
    iexact Hb
  iexists _; isplitr
  swap; · iexact Hc
  ipureintro
  exact (View.read_writes_eq_canon _ _ _ fun y => ⟨_, List.mem_singleton_self _, View.mem_set_unit_zero mm_zoff inb_S10000x128_S10000x128_0_0 y⟩).trans
    (by rw [View.canon_unit_zero mm_zoff]
        exact congrArg₂ k0_pay1 (View.ld_unit_zero mm_zoff _ _) (View.ld_unit_zero mm_zoff _ _))

end Cert.Kernel.Hand
-- ==== Proof.K.Reg0.lean ====
import proofs.«411265_j32847909880435_1_alg».proof.Proof.K.MM

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  mm_iblk cfg0 V c w t

/-- Proof data: each input window keeps its block, the output window gets their product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

/-- At every point the body's triple applies to the inputs' blocks. -/
theorem body_obligation0 (c : Dev nD) : BodyObligation (dat0 (F := F) V c) (defs₀ (F := F)) Variants.none () Set.univ := fun t => by
  rw [bigSep_W0, bigSep_W0]
  show _ ⊢ wp _ _ _ (bodyAt0 t) _
  unfold bodyAt0
  rw [cc0__degree_matmul_kernel_eq_skeleton]
  exact mm_body c (x0 := iblk0 V c 0 t) (x1 := iblk0 V c 1 t)
    (mm_before (dat0 V c) V (A_eq0 V c) 0 rfl (fun _ => rfl) (fun _ _ _ => rfl) (fun _ => rfl) t)
    (mm_before (dat0 V c) V (A_eq0 V c) 1 rfl (fun _ => rfl) (fun _ _ _ => rfl) (fun _ => rfl) t) rfl rfl rfl

end Cert.Kernel.Hand
-- ==== Proof.K.Reg1.lean ====
import proofs.«411265_j32847909880435_1_alg».proof.Proof.K.MM

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  mm_iblk cfg1 V c w t

/-- Proof data: each input window keeps its block, the output window gets their product. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k0_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := rfl

/-- At every point the body's triple applies to the inputs' blocks. -/
theorem body_obligation1 (c : Dev nD) : BodyObligation (dat1 (F := F) V c) (defs₀ (F := F)) Variants.none () Set.univ := fun t => by
  rw [bigSep_W1, bigSep_W1]
  show _ ⊢ wp _ _ _ (bodyAt1 t) _
  unfold bodyAt1
  rw [mm_eq1]
  exact mm_body c (x0 := iblk1 V c 0 t) (x1 := iblk1 V c 1 t)
    (mm_before (dat1 V c) V (A_eq1 V c) 0 rfl (fun _ => rfl) (fun _ _ _ => rfl) (fun _ => rfl) t)
    (mm_before (dat1 V c) V (A_eq1 V c) 1 rfl (fun _ => rfl) (fun _ _ _ => rfl) (fun _ => rfl) t) rfl rfl rfl

end Cert.Kernel.Hand
-- ==== Proof.K.Reg2.lean ====
import proofs.«411265_j32847909880435_1_alg».proof.Proof.K.MM

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  mm_iblk cfg2 V c w t

/-- Proof data: each input window keeps its block, the output window gets their product. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k0_pay1 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

/-- At every point the body's triple applies to the inputs' blocks. -/
theorem body_obligation2 (c : Dev nD) : BodyObligation (dat2 (F := F) V c) (defs₀ (F := F)) Variants.none () Set.univ := fun t => by
  rw [bigSep_W2, bigSep_W2]
  show _ ⊢ wp _ _ _ (bodyAt2 t) _
  unfold bodyAt2
  rw [mm_eq2]
  exact mm_body c (x0 := iblk2 V c 0 t) (x1 := iblk2 V c 1 t)
    (mm_before (dat2 V c) V (A_eq2 V c) 0 rfl (fun _ => rfl) (fun _ _ _ => rfl) (fun _ => rfl) t)
    (mm_before (dat2 V c) V (A_eq2 V c) 1 rfl (fun _ => rfl) (fun _ _ _ => rfl) (fun _ => rfl) t) rfl rfl rfl

end Cert.Kernel.Hand
-- ==== Proof.K.Reg3.lean ====
import proofs.«411265_j32847909880435_1_alg».proof.Proof.K.MM

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  mm_iblk cfg3 V c w t

/-- Proof data: each input window keeps its block, the output window gets their product. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k0_pay1 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl

/-- At every point the body's triple applies to the inputs' blocks. -/
theorem body_obligation3 (c : Dev nD) : BodyObligation (dat3 (F := F) V c) (defs₀ (F := F)) Variants.none () Set.univ := fun t => by
  rw [bigSep_W3, bigSep_W3]
  show _ ⊢ wp _ _ _ (bodyAt3 t) _
  unfold bodyAt3
  rw [mm_eq3]
  exact mm_body c (x0 := iblk3 V c 0 t) (x1 := iblk3 V c 1 t)
    (mm_before (dat3 V c) V (A_eq3 V c) 0 rfl (fun _ => rfl) (fun _ _ _ => rfl) (fun _ => rfl) t)
    (mm_before (dat3 V c) V (A_eq3 V c) 1 rfl (fun _ => rfl) (fun _ _ _ => rfl) (fun _ => rfl) t) rfl rfl rfl

end Cert.Kernel.Hand
-- ==== Proof.K.Reg4.lean ====
import proofs.«411265_j32847909880435_1_alg».proof.Proof.K.MM

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  mm_iblk cfg4 V c w t

/-- Proof data: each input window keeps its block, the output window gets their product. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k0_pay1 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := rfl

/-- At every point the body's triple applies to the inputs' blocks. -/
theorem body_obligation4 (c : Dev nD) : BodyObligation (dat4 (F := F) V c) (defs₀ (F := F)) Variants.none () Set.univ := fun t => by
  rw [bigSep_W4, bigSep_W4]
  show _ ⊢ wp _ _ _ (bodyAt4 t) _
  unfold bodyAt4
  rw [mm_eq4]
  exact mm_body c (x0 := iblk4 V c 0 t) (x1 := iblk4 V c 1 t)
    (mm_before (dat4 V c) V (A_eq4 V c) 0 rfl (fun _ => rfl) (fun _ _ _ => rfl) (fun _ => rfl) t)
    (mm_before (dat4 V c) V (A_eq4 V c) 1 rfl (fun _ => rfl) (fun _ _ _ => rfl) (fun _ => rfl) t) rfl rfl rfl

end Cert.Kernel.Hand
-- ==== Proof.K.Reg5.lean ====
import proofs.«411265_j32847909880435_1_alg».proof.Proof.Gen.Kernel.Launch
import proofs.«411265_j32847909880435_1_alg».proof.Proof.Gen.Kernel.Skeleton
import proofs.«411265_j32847909880435_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

-- An accumulator before point `n`: `pay` folded over the blocks of the points below `n`, from `z`.
def acc5 (c : Dev nD) (pay : Vec F S5000x128 .f32 → Vec F S128x128 .f32 → Vec F S5000x128 .f32 → Vec F S1x128 .f32 → Vec F S1x128 .f32 → Vec F S1x128 .f32)
    (z : Vec F S1x128 .f32) : ℕ → Vec F S1x128 .f32
  | 0 => z
  | n + 1 => if h : n < cfg5.N then pay (iblk5 V c 0 ⟨n, h⟩) (iblk5 V c 2 ⟨n, h⟩) (iblk5 V c 1 ⟨n, h⟩) (iblk5 V c 3 ⟨n, h⟩) (acc5 c pay z n)
    else acc5 c pay z n

-- One step of the fold: point `s`'s blocks onto what the points before left.
theorem acc5_step (c : Dev nD) (pay) (z : Vec F S1x128 .f32) (s : Fin cfg5.N) {n : ℕ} (hs : s.val + 1 = n) :
    pay (iblk5 V c 0 s) (iblk5 V c 2 s) (iblk5 V c 1 s) (iblk5 V c 3 s) (acc5 V c pay z s.val) = acc5 V c pay z n := by
  subst hs; rw [acc5, dif_pos s.isLt]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => k5_pay3 (iblk5 V c 0 t) (iblk5 V c 2 t) (iblk5 V c 1 t) (iblk5 V c 3 t)
    | ⟨5, _⟩ => k5_pay4 (iblk5 V c 0 t) (iblk5 V c 2 t) (iblk5 V c 1 t) (iblk5 V c 3 t) (acc5 V c k5_pay4 k5_pay1 t.val)
    | ⟨6, _⟩ => k5_pay5 (iblk5 V c 0 t) (iblk5 V c 2 t) (iblk5 V c 1 t) (iblk5 V c 3 t) (acc5 V c k5_pay5 k5_pay2 t.val)
  Φ _ := Pipeline.ΦA spec5 c
  q _ := fullShare
  owed _ := 0

theorem A_eq5 (c : Dev nD) (w : Fin cfg5.W) : (dat5 V c).A w = V c (Pipeline.arrRef spec5 w) := by
  dsimp only [dat5]

-- On entry to the body at any point an input window holds what the body leaves there: its block of the array.
theorem before5_in (c : Dev nD) (t : Fin cfg5.N) : ∀ (w : Fin cfg5.W), (cfg5.win w).isOut = false → ∀ d,
    (dat5 V c).before w t d = (dat5 V c).after w t
  | ⟨0, _⟩, _, d | ⟨1, _⟩, _, d | ⟨2, _⟩, _, d | ⟨3, _⟩, _, d =>
    ((dat5 V c).before_in_eq_fetched _ rfl (fun _ => rfl) (fun _ _ _ => rfl) (fun _ => rfl) t d).trans rfl
  | ⟨4, _⟩, h, _ | ⟨5, _⟩, h, _ | ⟨6, _⟩, h, _ => by cases h

-- What the body leaves in the output windows, over what it leaves in the inputs.
theorem after5_4 (c : Dev nD) (t : Fin cfg5.N) : (dat5 V c).after 4 t
    = k5_pay3 ((dat5 V c).after 0 t) ((dat5 V c).after 2 t) ((dat5 V c).after 1 t) ((dat5 V c).after 3 t) := by dsimp only [dat5]
theorem after5_5 (c : Dev nD) (t : Fin cfg5.N) : (dat5 V c).after 5 t
    = k5_pay4 ((dat5 V c).after 0 t) ((dat5 V c).after 2 t) ((dat5 V c).after 1 t) ((dat5 V c).after 3 t) (acc5 V c k5_pay4 k5_pay1 t.val) := by
  dsimp only [dat5]
theorem after5_6 (c : Dev nD) (t : Fin cfg5.N) : (dat5 V c).after 6 t
    = k5_pay5 ((dat5 V c).after 0 t) ((dat5 V c).after 2 t) ((dat5 V c).after 1 t) ((dat5 V c).after 3 t) (acc5 V c k5_pay5 k5_pay2 t.val) := by
  dsimp only [dat5]

abbrev cond5_0 (i : grid5.Coords) : Prop :=
  (Scalar.cmpi .ne (Scalar.extui (Scalar.cmpi .eq (BitVec.ofNat 32 (i 0).val) 0#32)) 0#32) = 1#1

theorem hcond5_0 : ∀ t : Fin cfg5.N, cond5_0 (grid5.coords t) ↔ t.val = 0 :=
  (by decide +kernel : ∀ t : Fin grid5.N, cond5_0 (grid5.coords t) ↔ t.val = 0)

-- At the first point the fold is at `z`; at a later point an accumulator holds on entry what the point before left.
theorem before5_acc (c : Dev nD) (t : Fin cfg5.N) (w : Fin cfg5.W) (hw : (cfg5.win w).isOut = true)
    (hfl : ∀ t : Fin cfg5.N, (cfg5.win w).flush t = true ↔ t.val % 120 = 119) (hl : ∀ i, cfg5.idle w i = false)
    (hc : ∀ (i : cfg5.grid.Coords) a, (cfg5.win w).clip i a = none) (pay) (z : Vec F S1x128 .f32)
    (X : (cfg5.win w).block.Idx → Elt F (cfg5.win w).elt)
    (hX : ∀ s : Fin cfg5.N, s.val + 1 = t.val → (dat5 V c).after w s = X) :
    if cond5_0 (grid5.coords t) then acc5 V c pay z t.val = z else ∀ d, (dat5 V c).before w t d = X := by
  by_cases h0 : t.val = 0
  · rw [if_pos ((hcond5_0 t).mpr h0)]; exact congrArg (acc5 V c pay z) h0
  · rw [if_neg (mt (hcond5_0 t).mp h0)]
    have hN : t.val < 120 := t.isLt
    exact fun d => ((dat5 V c).before_out_kept w hw t h0
      (Bool.eq_false_iff.mpr fun h => by have := (hfl _).mp h; dsimp only at this; omega) hl hc d).trans
      (hX _ (Nat.sub_add_cancel (Nat.pos_of_ne_zero h0)))

theorem hz5 : (![0, 0] : Fin 2 → Nat) = fun _ => 0 := funext fun a => by fin_cases a <;> rfl

-- A list of stores whose head is through the whole block covers the block.
theorem cover5 {S : Shape} {off : Fin S.rank → Nat} (hz : off = fun _ => 0) (inb : ∀ a, off a + S.size a ≤ S.size a)
    (p : Vec F S .f32) (L : List (View.Piece (Elt F) S .f32)) (y : S.Idx) :
    ∃ pc ∈ ((⟨Rect.unit off S.size inb, p⟩ : View.Piece (Elt F) S .f32) :: L), y ∈ pc.1.set :=
  ⟨_, List.mem_cons_self, View.mem_set_unit_zero hz inb y⟩

set_option maxHeartbeats 2000000 in
-- The body's triple: the inputs stay, window 4 ends at the affine map, each accumulator one fold step on (from the zero block where the branch is taken); `R₁`, `R₂` are framed.
theorem sound_kernel5 (c : Dev nD) {i : grid5.Coords} {R₁ R₂ : sProp 𝕄}
    {arg1 : Memref sig .tc .vmem S5000x128 .f32} {harg1 : arg1.IsWhole} {arg2 : Memref sig .tc .vmem S5000x128 .f32} {harg2 : arg2.IsWhole}
    {arg3 : Memref sig .tc .vmem S128x128 .f32} {harg3 : arg3.IsWhole} {arg4 : Memref sig .tc .vmem S1x128 .f32} {harg4 : arg4.IsWhole}
    {arg5 : Memref sig .tc .vmem S5000x128 .f32} {harg5 : arg5.IsWhole} {arg6 : Memref sig .tc .vmem S1x128 .f32} {harg6 : arg6.IsWhole}
    {arg7 : Memref sig .tc .vmem S1x128 .f32} {harg7 : arg7.IsWhole}
    {x0 x1 : Vec F S5000x128 .f32} {x2 : Vec F S128x128 .f32} {x3 xo5 xo6 : Vec F S1x128 .f32}
    {B0 B1 B4 : Vec F S5000x128 .f32 → Vec F S5000x128 .f32} {B2 : Vec F S128x128 .f32 → Vec F S128x128 .f32}
    {B3 B5 B6 : Vec F S1x128 .f32 → Vec F S1x128 .f32} {a4 : Vec F S5000x128 .f32} {a5 a6 : Vec F S1x128 .f32}
    (h0 : ∀ d, B0 d = x0) (h1 : ∀ d, B1 d = x1) (h2 : ∀ d, B2 d = x2) (h3 : ∀ d, B3 d = x3)
    (h5 : if cond5_0 i then xo5 = k5_pay1 else ∀ d, B5 d = xo5) (h6 : if cond5_0 i then xo6 = k5_pay2 else ∀ d, B6 d = xo6)
    (ha4 : a4 = k5_pay3 x0 x2 x1 x3) (ha5 : a5 = k5_pay4 x0 x2 x1 x3 xo5) (ha6 : a6 = k5_pay5 x0 x2 x1 x3 xo6) :
    iprop(R₁ ∗ R₂ ∗ (∃ d, owns (c : Thread nD τ) arg1 fullShare (B0 d)) ∗ (∃ d, owns (c : Thread nD τ) arg2 fullShare (B1 d))
        ∗ (∃ d, owns (c : Thread nD τ) arg3 fullShare (B2 d)) ∗ (∃ d, owns (c : Thread nD τ) arg4 fullShare (B3 d))
        ∗ (∃ d, owns (c : Thread nD τ) arg5 fullShare (B4 d)) ∗ (∃ d, owns (c : Thread nD τ) arg6 fullShare (B5 d))
        ∗ (∃ d, owns (c : Thread nD τ) arg7 fullShare (B6 d)))
      ⊢ wp frame (wpE (defs₀ (F := F)) Variants.none c none) Set.univ
          (cc5__self_stats_kernel i arg1 harg1 arg2 harg2 arg3 harg3 arg4 harg4 arg5 harg5 arg6 harg6 arg7 harg7) fun _ =>
          iprop(R₁ ∗ R₂ ∗ owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare a4
            ∗ owns (c : Thread nD τ) arg6 fullShare a5
            ∗ owns (c : Thread nD τ) arg7 fullShare a6) := by
  subst ha4 ha5 ha6
  simp only [cc5__self_stats_kernel_eq_skeleton]; unfold cc5__self_stats_kernel_skel
  unfold owns
  iintro ⟨HR₁, HR₂, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, %hf5, H5⟩, ⟨%d6, %f6, %hf6, H6⟩⟩
  replace hf0 := hf0.trans (h0 d0); replace hf1 := hf1.trans (h1 d1)
  replace hf2 := hf2.trans (h2 d2); replace hf3 := hf3.trans (h3 d3)
  obtain rfl := harg1.eq_unread hf0; obtain rfl := harg2.eq_unread hf1
  obtain rfl := harg3.eq_unread hf2; obtain rfl := harg4.eq_unread hf3
  by_cases hc0 : cond5_0 i
  on_goal 1 => rw [if_pos hc0] at h5 h6; subst h5 h6
  on_goal 2 =>
    rw [if_neg hc0] at h5 h6
    replace hf5 := hf5.trans (h5 d5); replace hf6 := hf6.trans (h6 d6)
    obtain rfl := harg6.eq_unread hf5; obtain rfl := harg7.eq_unread hf6
  all_goals
    sl_exec (disch := first | exact hc0)
    sl_step
    isplitl [HR₁]; · iexact HR₁
    isplitl [HR₂]; · iexact HR₂
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap; · iexact H4
      ipureintro
      rw [View.read_writes_eq_canon _ _ _ (cover5 hz5 _ _ _), View.canon_cons_unit_zero hz5]
      simp only [View.readAt_eq_ld, hf0, hf1, hf2, hf3, View.ld_unit_zero (S := S5000x128) hz5,
        View.ld_unit_zero (S := S128x128) hz5, View.ld_unit_zero (S := S1x128) hz5]
    isplitl [H5]
    · iexists _; isplitr
      swap; · iexact H5
      ipureintro
      rw [View.read_writes_eq_canon _ _ _ (cover5 hz5 _ _ _), View.canon_cons_unit_zero hz5]
      try sl_unfold_run_names
      simp only [View.readCov_unit_zero (S := S1x128) _ hz5, View.readAt_eq_ld, hf0, hf1, hf2, hf3, hf5, View.ld_unit_zero (S := S5000x128) hz5,
        View.ld_unit_zero (S := S128x128) hz5, View.ld_unit_zero (S := S1x128) hz5]
    · iexists _; isplitr
      swap; · iexact H6
      ipureintro
      rw [View.read_writes_eq_canon _ _ _ (cover5 hz5 _ _ _), View.canon_cons_unit_zero hz5]
      try sl_unfold_run_names
      simp only [View.readCov_unit_zero (S := S1x128) _ hz5, View.readAt_eq_ld, hf0, hf1, hf2, hf3, hf6, View.ld_unit_zero (S := S5000x128) hz5,
        View.ld_unit_zero (S := S128x128) hz5, View.ld_unit_zero (S := S1x128) hz5]

theorem body_obligation5 (c : Dev nD) : BodyObligation (dat5 (F := F) V c) (defs₀ (F := F)) Variants.none () Set.univ := fun t => by
  rw [bigSep_W5, bigSep_W5]
  show _ ⊢ wp _ _ _ (bodyAt5 t) _
  exact sound_kernel5 c (before5_in V c t 0 rfl) (before5_in V c t 1 rfl) (before5_in V c t 2 rfl) (before5_in V c t 3 rfl)
    (before5_acc V c t 5 rfl flush5_5 (fun _ => rfl) (fun _ _ => rfl) k5_pay4 k5_pay1 _
      fun s hs => (after5_5 V c s).trans (acc5_step V c k5_pay4 k5_pay1 s hs))
    (before5_acc V c t 6 rfl flush5_6 (fun _ => rfl) (fun _ _ => rfl) k5_pay5 k5_pay2 _
      fun s hs => (after5_6 V c s).trans (acc5_step V c k5_pay5 k5_pay2 s hs))
    (after5_4 V c t) (after5_5 V c t) (after5_6 V c t)

end Cert.Kernel.Hand

end
-- ==== Proof.K.Reg6.lean ====
import proofs.«411265_j32847909880435_1_alg».proof.Proof.Gen.Kernel.Launch
import proofs.«411265_j32847909880435_1_alg».proof.Proof.Gen.Kernel.Skeleton
import proofs.«411265_j32847909880435_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S5000x128 := Rect.unit (s := S5000x128) ![0, 0] S5000x128.size inb_S5000x128_S5000x128_0_0
abbrev r6_1 : Rect S1x128 := Rect.unit (s := S1x128) ![0, 0] S1x128.size inb_S1x128_S1x128_0_0

theorem off6 : (![0, 0] : Fin 2 → Nat) = fun _ => 0 := funext fun a => by fin_cases a <;> rfl

def out6_3 (x0 : Vec F S5000x128 .f32) (x1 : Vec F S1x128 .f32) (x2 : Vec F S1x128 .f32) : Vec F S5000x128 .f32 :=
  View.canon [⟨r6_0, k6_pay1 (View.ld x0 r6_0) (View.ld x1 r6_1) (View.ld x2 r6_1)⟩]

-- Through whole-block rectangles the one store leaves the payload of the three blocks.
theorem out6_3_eq (x0 : Vec F S5000x128 .f32) (x1 : Vec F S1x128 .f32) (x2 : Vec F S1x128 .f32) :
    out6_3 x0 x1 x2 = k6_pay1 x0 x1 x2 := by
  unfold out6_3
  rw [View.canon_unit_zero off6, View.ld_unit_zero off6, View.ld_unit_zero off6, View.ld_unit_zero off6]

theorem cover6_3 (p0 : Vec F S5000x128 .f32) (y : S5000x128.Idx) :
    ∃ pc ∈ ([⟨r6_0, p0⟩] : List (View.Piece (Elt F) S5000x128 .f32)), y ∈ pc.1.set :=
  ⟨_, List.mem_singleton_self _, View.mem_set_unit_zero off6 inb_S5000x128_S5000x128_0_0 y⟩

set_option maxHeartbeats 1000000 in
-- The body's triple: the inputs stay, the output ends at `out6_3` of them; `R₁`, `R₂` are framed.
theorem sound_kernel6 (c : Dev nD) {i : grid6.Coords} {R₁ R₂ : sProp 𝕄}
    {arg1 : Memref sig .tc .vmem S5000x128 .f32} {harg1 : arg1.IsWhole}
    {arg2 : Memref sig .tc .vmem S1x128 .f32} {harg2 : arg2.IsWhole}
    {arg3 : Memref sig .tc .vmem S1x128 .f32} {harg3 : arg3.IsWhole}
    {arg4 : Memref sig .tc .vmem S5000x128 .f32} {harg4 : arg4.IsWhole}
    {x0 : Vec F S5000x128 .f32} {x1 x2 : Vec F S1x128 .f32}
    {B0 B3 : Vec F S5000x128 .f32 → Vec F S5000x128 .f32} {B1 B2 : Vec F S1x128 .f32 → Vec F S1x128 .f32} {a3 : Vec F S5000x128 .f32}
    (h0 : ∀ d, B0 d = x0) (h1 : ∀ d, B1 d = x1) (h2 : ∀ d, B2 d = x2) (ha : a3 = out6_3 x0 x1 x2) :
    iprop(R₁ ∗ R₂ ∗ (∃ d, owns (c : Thread nD τ) arg1 fullShare (B0 d)) ∗ (∃ d, owns (c : Thread nD τ) arg2 fullShare (B1 d))
        ∗ (∃ d, owns (c : Thread nD τ) arg3 fullShare (B2 d)) ∗ (∃ d, owns (c : Thread nD τ) arg4 fullShare (B3 d)))
      ⊢ wp frame (wpE (defs₀ (F := F)) Variants.none c none) Set.univ
          (cc6__normalize_kernel i arg1 harg1 arg2 harg2 arg3 harg3 arg4 harg4) fun _ =>
          iprop(R₁ ∗ R₂ ∗ owns (c : Thread nD τ) arg1 fullShare x0 ∗ owns (c : Thread nD τ) arg2 fullShare x1
            ∗ owns (c : Thread nD τ) arg3 fullShare x2 ∗ owns (c : Thread nD τ) arg4 fullShare a3) := by
  subst ha
  simp only [cc6__normalize_kernel_eq_skeleton]; unfold cc6__normalize_kernel_skel
  unfold owns
  iintro ⟨HR₁, HR₂, ⟨%d0, %f0, %hf0, H0⟩, ⟨%d1, %f1, %hf1, H1⟩, ⟨%d2, %f2, %hf2, H2⟩, ⟨%d3, %f3, -, H3⟩⟩
  obtain rfl := hf0.trans (h0 d0); obtain rfl := hf1.trans (h1 d1); obtain rfl := hf2.trans (h2 d2)
  sl_exec
  sl_step
  isplitl [HR₁]; · iexact HR₁
  isplitl [HR₂]; · iexact HR₂
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_3 (c : Dev nD) (t : Fin cfg6.N) :
    (dat6 V c).after 3 t = out6_3 ((dat6 V c).after 0 t) ((dat6 V c).after 1 t) ((dat6 V c).after 2 t) := by dsimp only [dat6]

-- On entry to the body at any point an input window holds what the body leaves there: its block of the array.
theorem before6_in (c : Dev nD) (t : Fin cfg6.N) : ∀ (w : Fin cfg6.W), (cfg6.win w).isOut = false → ∀ d,
    (dat6 V c).before w t d = (dat6 V c).after w t
  | ⟨0, _⟩, _, d | ⟨1, _⟩, _, d | ⟨2, _⟩, _, d =>
    ((dat6 V c).before_in_eq_fetched _ rfl (fun _ => rfl) (fun _ _ _ => rfl) (fun _ => rfl) t d).trans rfl
  | ⟨3, _⟩, h, _ => by cases h

theorem body_obligation6 (c : Dev nD) : BodyObligation (dat6 (F := F) V c) (defs₀ (F := F)) Variants.none () Set.univ := fun t => by
  rw [bigSep_W6, bigSep_W6]
  show _ ⊢ wp _ _ _ (bodyAt6 t) _
  exact sound_kernel6 c (before6_in V c t 0 rfl) (before6_in V c t 1 rfl) (before6_in V c t 2 rfl) (after6_3 V c t)

end Cert.Kernel.Hand

end
-- ==== Proof.K.Vals.lean ====
import proofs.«411265_j32847909880435_1_alg».proof.Proof.Gen.Kernel.Launch
import proofs.«411265_j32847909880435_1_alg».proof.Proof.Gen.Kernel.Skeleton
import proofs.«411265_j32847909880435_1_alg».proof.Proof.Gen.Kernel.Points
import proofs.«411265_j32847909880435_1_alg».proof.Proof.Gen.Kernel.Regions
import proofs.«411265_j32847909880435_1_alg».proof.Proof.K.Reg0
import proofs.«411265_j32847909880435_1_alg».proof.Proof.K.Reg1
import proofs.«411265_j32847909880435_1_alg».proof.Proof.K.Reg2
import proofs.«411265_j32847909880435_1_alg».proof.Proof.K.Reg3
import proofs.«411265_j32847909880435_1_alg».proof.Proof.K.Reg4
import proofs.«411265_j32847909880435_1_alg».proof.Proof.K.Reg5
import proofs.«411265_j32847909880435_1_alg».proof.Proof.K.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) :
    (c : Dev nD) → (b : Ref sig .tc) → Buf (Elt F) ((c : Thread nD τ).loc b) :=
  fun c b => W c b

/-- Replacing one array's contents leaves every other reference's. -/
theorem update_of_ne (V : Valuation τ sig (Elt F)) {o r : Ref sig .tc} (x) (h : r ≠ o) :
    Function.update V (o : DevRef τ sig) x r = V r :=
  Function.update_of_ne (StableHlo.devRef_ne_of_ne h) _ _

/-- Off a region's arrays, replacing one of them changes nothing. -/
theorem update_off {cfg : Cfg sig Λ₀} (V : Valuation τ sig (Elt F)) (o : Fin cfg.W) (x) (b : Ref sig .tc)
    (hb : b ∉ Finset.univ.image (Pipeline.arrRef cfg.spec)) :
    Function.update V (Pipeline.arrRef cfg.spec o : DevRef τ sig) x b = V b :=
  update_of_ne V x fun e => hb (Finset.mem_image.mpr ⟨o, Finset.mem_univ _, e.symm⟩)

/-- A region whose windows other than `o` are inputs read off `V`: after the last point each array holds what `V`
    with `o`'s array at its final contents holds, an input never being written back. -/
theorem arrAt_update {cfg : Cfg sig Λ₀} {c : Dev nD} (dat : Dat τ (Elt F) Unit ℕ (UR sig nD τ) ℕ cfg c)
    (hw : Pipeline.WinFacts cfg.spec) (V : Valuation τ sig (Elt F)) (hA : ∀ w, dat.A w = V (Pipeline.arrRef cfg.spec w))
    (o : Fin cfg.W) (hin : ∀ w, w ≠ o → (cfg.win w).isOut = false) (w : Fin cfg.W) :
    dat.arrAt w cfg.N
      = Function.update V (Pipeline.arrRef cfg.spec o : DevRef τ sig) (dat.arrAt o cfg.N) (Pipeline.arrRef cfg.spec w) := by
  by_cases h : w = o
  · subst h; exact (Function.update_self (Pipeline.arrRef cfg.spec w : DevRef τ sig) _ V).symm
  · exact ((dat.arrAt_in w (hin w h) _).trans (hA w)).trans (update_of_ne V _ fun e => h (hw.arr_inj e)).symm

/-- Updating `W = V` at `r` with what `V` updated at `r` holds there is that update of `V`. -/
theorem update_update_self {V W : Valuation τ sig (Elt F)} (r : DevRef τ sig) (x) (h : W = V) :
    Function.update W r (Function.update V r x r) = Function.update V r x := by
  subst h; rw [Function.update_self]

abbrev Vin0 (c : Dev nD) : Valuation τ sig (Elt F) := Gen.V4 m c

def Vout0 (c : Dev nD) : Valuation τ sig (Elt F) :=
  Function.update (Vin0 m c) (main_v6 : DevRef τ sig) ((dat0 (atTc (Vin0 m)) c).arrAt 2 cfg0.N)

abbrev Vin1 (c : Dev nD) : Valuation τ sig (Elt F) :=
  StableHlo.after hostOps1_2 (StableHlo.after hostOps1_1 (StableHlo.after hostOps1 (Vout0 m c)))

def Vout1 (c : Dev nD) : Valuation τ sig (Elt F) :=
  Function.update (Vin1 m c) (main_v12 : DevRef τ sig) ((dat1 (atTc (Vin1 m)) c).arrAt 2 cfg1.N)

abbrev Vin2 (c : Dev nD) : Valuation τ sig (Elt F) :=
  StableHlo.after hostOps2_2 (StableHlo.after hostOps2_1 (StableHlo.after hostOps2 (Vout1 m c)))

def Vout2 (c : Dev nD) : Valuation τ sig (Elt F) :=
  Function.update (Vin2 m c) (main_v18 : DevRef τ sig) ((dat2 (atTc (Vin2 m)) c).arrAt 2 cfg2.N)

abbrev Vin3 (c : Dev nD) : Valuation τ sig (Elt F) :=
  StableHlo.after hostOps3_2 (StableHlo.after hostOps3_1 (StableHlo.after hostOps3 (Vout2 m c)))

def Vout3 (c : Dev nD) : Valuation τ sig (Elt F) :=
  Function.update (Vin3 m c) (main_v24 : DevRef τ sig) ((dat3 (atTc (Vin3 m)) c).arrAt 2 cfg3.N)

abbrev Vin4 (c : Dev nD) : Valuation τ sig (Elt F) :=
  StableHlo.after hostOps4_2 (StableHlo.after hostOps4_1 (StableHlo.after hostOps4 (Vout3 m c)))

def Vout4 (c : Dev nD) : Valuation τ sig (Elt F) :=
  Function.update (Vin4 m c) (main_v30 : DevRef τ sig) ((dat4 (atTc (Vin4 m)) c).arrAt 2 cfg4.N)

abbrev Vin5 (c : Dev nD) : Valuation τ sig (Elt F) := StableHlo.after hostOps5 (Vout4 m c)

def Vout5 (c : Dev nD) : Valuation τ sig (Elt F) :=
  Function.update
    (Function.update
      (Function.update (Vin5 m c) (main_v32_0 : DevRef τ sig) ((dat5 (atTc (Vin5 m)) c).arrAt 4 cfg5.N))
      (main_v32_1 : DevRef τ sig) ((dat5 (atTc (Vin5 m)) c).arrAt 5 cfg5.N))
    (main_v32_2 : DevRef τ sig) ((dat5 (atTc (Vin5 m)) c).arrAt 6 cfg5.N)

theorem Vout5_of_ne (c : Dev nD) (r : Ref sig .tc) (h0 : r ≠ main_v32_0) (h1 : r ≠ main_v32_1) (h2 : r ≠ main_v32_2) :
    Vout5 m c r = Vin5 m c r :=
  (update_of_ne _ _ h2).trans ((update_of_ne _ _ h1).trans (update_of_ne _ _ h0))

theorem Vout5_out4 (c : Dev nD) : Vout5 m c main_v32_0 = (dat5 (atTc (Vin5 m)) c).arrAt 4 cfg5.N :=
  (update_of_ne _ _ (by decide)).trans ((update_of_ne _ _ (by decide)).trans (Function.update_self _ _ _))

theorem Vout5_out5 (c : Dev nD) : Vout5 m c main_v32_1 = (dat5 (atTc (Vin5 m)) c).arrAt 5 cfg5.N :=
  (update_of_ne _ _ (by decide)).trans (Function.update_self _ _ _)

theorem Vout5_out6 (c : Dev nD) : Vout5 m c main_v32_2 = (dat5 (atTc (Vin5 m)) c).arrAt 6 cfg5.N :=
  Function.update_self _ _ _

/-- Region 5 writes three arrays: each array after the last point is what `Vout5` holds there. -/
theorem hF5 (c : Dev nD) (w : Fin cfg5.W) :
    (dat5 (atTc (Vin5 m)) c).arrAt w cfg5.N = atTc (Vout5 m) c (Pipeline.arrRef spec5 w) :=
  match w with
  | ⟨0, _⟩ => ((dat5 (atTc (Vin5 m)) c).arrAt_in 0 rfl _).trans
      ((A_eq5 (atTc (Vin5 m)) c 0).trans (Vout5_of_ne m c main_arg0 (by decide) (by decide) (by decide)).symm)
  | ⟨1, _⟩ => ((dat5 (atTc (Vin5 m)) c).arrAt_in 1 rfl _).trans
      ((A_eq5 (atTc (Vin5 m)) c 1).trans (Vout5_of_ne m c main_v31 (by decide) (by decide) (by decide)).symm)
  | ⟨2, _⟩ => ((dat5 (atTc (Vin5 m)) c).arrAt_in 2 rfl _).trans
      ((A_eq5 (atTc (Vin5 m)) c 2).trans (Vout5_of_ne m c main_arg2 (by decide) (by decide) (by decide)).symm)
  | ⟨3, _⟩ => ((dat5 (atTc (Vin5 m)) c).arrAt_in 3 rfl _).trans
      ((A_eq5 (atTc (Vin5 m)) c 3).trans (Vout5_of_ne m c main_arg3 (by decide) (by decide) (by decide)).symm)
  | ⟨4, _⟩ => (Vout5_out4 m c).symm
  | ⟨5, _⟩ => (Vout5_out5 m c).symm
  | ⟨6, _⟩ => (Vout5_out6 m c).symm

theorem hrest5 (c : Dev nD) :
    ∀ b, b ∉ Finset.univ.image (Pipeline.arrRef spec5) → atTc (Vout5 m) c b = atTc (Vin5 m) c b :=
  fun b hb => Vout5_of_ne m c b
    (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))

abbrev Vin6 (c : Dev nD) : Valuation τ sig (Elt F) :=
  StableHlo.after hostOps6 (Vout5 m c)

def Vout6 (c : Dev nD) : Valuation τ sig (Elt F) :=
  Function.update (Vin6 m c) (main_v42 : DevRef τ sig) ((dat6 (atTc (Vin6 m)) c).arrAt 3 cfg6.N)

/-- What each buffer holds after item `J - 1`: the fold above, read after each region. -/
def outsH : Gen.Outs (F := F) := fun J r c =>
  match J with
  | 5 => Vout0 m c r
  | 9 => Vout1 m c r
  | 13 => Vout2 m c r
  | 17 => Vout3 m c r
  | 21 => Vout4 m c r
  | 23 => Vout5 m c r
  | 25 => Vout6 m c r
  | _ => Gen.V0 m c r

theorem V4_eq (c : Dev nD) : Gen.V4 m c = Vin0 m c := rfl
theorem V5_eq (c : Dev nD) : Gen.V5 m (outsH m) c = Vout0 m c := update_update_self _ _ rfl
theorem V8_eq (c : Dev nD) : Gen.V8 m (outsH m) c = Vin1 m c :=
  congrArg (fun V : Valuation τ sig (Elt F) => StableHlo.after hostOps1_2 (StableHlo.after hostOps1_1 (StableHlo.after hostOps1 V))) (V5_eq m c)
theorem V9_eq (c : Dev nD) : Gen.V9 m (outsH m) c = Vout1 m c := update_update_self _ _ (V8_eq m c)
theorem V12_eq (c : Dev nD) : Gen.V12 m (outsH m) c = Vin2 m c :=
  congrArg (fun V : Valuation τ sig (Elt F) => StableHlo.after hostOps2_2 (StableHlo.after hostOps2_1 (StableHlo.after hostOps2 V))) (V9_eq m c)
theorem V13_eq (c : Dev nD) : Gen.V13 m (outsH m) c = Vout2 m c := update_update_self _ _ (V12_eq m c)
theorem V16_eq (c : Dev nD) : Gen.V16 m (outsH m) c = Vin3 m c :=
  congrArg (fun V : Valuation τ sig (Elt F) => StableHlo.after hostOps3_2 (StableHlo.after hostOps3_1 (StableHlo.after hostOps3 V))) (V13_eq m c)
theorem V17_eq (c : Dev nD) : Gen.V17 m (outsH m) c = Vout3 m c := update_update_self _ _ (V16_eq m c)
theorem V20_eq (c : Dev nD) : Gen.V20 m (outsH m) c = Vin4 m c :=
  congrArg (fun V : Valuation τ sig (Elt F) => StableHlo.after hostOps4_2 (StableHlo.after hostOps4_1 (StableHlo.after hostOps4 V))) (V17_eq m c)
theorem V21_eq (c : Dev nD) : Gen.V21 m (outsH m) c = Vout4 m c := update_update_self _ _ (V20_eq m c)
theorem V22_eq (c : Dev nD) : Gen.V22 m (outsH m) c = Vin5 m c :=
  congrArg (fun V : Valuation τ sig (Elt F) => StableHlo.after hostOps5 V) (V21_eq m c)
theorem V23_eq (c : Dev nD) : Gen.V23 m (outsH m) c = Vout5 m c := by
  show Function.update
      (Function.update
        (Function.update (Gen.V22 m (outsH m) c) (main_v32_0 : DevRef τ sig) (Vout5 m c main_v32_0))
        (main_v32_1 : DevRef τ sig) (Vout5 m c main_v32_1))
      (main_v32_2 : DevRef τ sig) (Vout5 m c main_v32_2) = Vout5 m c
  rw [Vout5_out4 m c, Vout5_out5 m c, Vout5_out6 m c, V22_eq m c]
  try rfl
theorem V24_eq (c : Dev nD) : Gen.V24 m (outsH m) c = Vin6 m c :=
  congrArg (fun V : Valuation τ sig (Elt F) => StableHlo.after hostOps6 V) (V23_eq m c)
theorem V25_eq (c : Dev nD) : Gen.V25 m (outsH m) c = Vout6 m c := update_update_self _ _ (V24_eq m c)

/-- The seven regions' proof data, each at what its region finds. -/
def pdats : (p : Fin 7) → (c : Dev nD) → Dat τ (Elt F) Unit ℕ (UR sig nD τ) ℕ (cfgs p) c
  | ⟨0, _⟩ => fun c => dat0 (atTc (Vin0 m)) c
  | ⟨1, _⟩ => fun c => dat1 (atTc (Vin1 m)) c
  | ⟨2, _⟩ => fun c => dat2 (atTc (Vin2 m)) c
  | ⟨3, _⟩ => fun c => dat3 (atTc (Vin3 m)) c
  | ⟨4, _⟩ => fun c => dat4 (atTc (Vin4 m)) c
  | ⟨5, _⟩ => fun c => dat5 (atTc (Vin5 m)) c
  | ⟨6, _⟩ => fun c => dat6 (atTc (Vin6 m)) c

abbrev Lz : GSem nD τ sig → Finset Unit := fun _ => ∅
abbrev lvz : GSem nD τ sig → Unit → ℕ := fun _ _ => 0

abbrev Rst (c : Dev nD) : sProp 𝕄 :=
  iprop((∃ r, prngReg c r) ∗ ∃ W, owes (c : Thread nD τ) (0 : CellTallies nD τ sig Unit) W)

end Cert.Kernel.Hand

end
-- ==== Proof.K.Frame.lean ====
import proofs.«411265_j32847909880435_1_alg».proof.Proof.K.Vals

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev heldAt (V : Dev nD → Valuation τ sig (Elt F)) (c : Dev nD) : sProp 𝕄 :=
  iprop(StableHlo.held (c : Thread nD τ) (Pipeline.ucRefs τ sig) (V c) ∗ Rst c)

theorem heldAt_of_eq {V W : Dev nD → Valuation τ sig (Elt F)} (c : Dev nD) (h : V c = W c) :
    (heldAt V c : sProp 𝕄) ⊢ heldAt W c := by
  unfold heldAt; rw [h]

set_option backward.isDefEq.respectTransparency.types false in
/-- A region is a segment from `Vin` to `Vout` once its arrays end at `Vout`'s contents and `Vout` is `Vin` elsewhere. -/
def regSeg (p : Fin 7) (L : Pipeline.LaunchFacts (nD := nD) (τ := τ) cfgs p) (Vin Vout : Dev nD → Valuation τ sig (Elt F))
    (hbody : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hA : ∀ c w, (pdats m p c).A w = atTc Vin c (Pipeline.arrRef (cfgs p).spec w))
    (hΦ : ∀ c t, (pdats m p c).Φ t = Pipeline.ΦA (cfgs p).spec c)
    (hF : ∀ c w, (pdats m p c).arrAt w (cfgs p).N = atTc Vout c (Pipeline.arrRef (cfgs p).spec w))
    (hrest : ∀ c b, b ∉ Finset.univ.image (Pipeline.arrRef (cfgs p).spec) → atTc Vout c b = atTc Vin c b) :
    RegionSeg (pcfgs (F := F)) adm (pdats m) () defs₀ Variants.none Lz lvz p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ Lz lvz p howed
  pre := heldAt Vin
  post := heldAt Vout
  X c := iprop(∃ r, prngReg c r)
  Y c := iprop(∃ r, prngReg c r)
  Z c := Pipeline.unscopedRest (Ix := Unit) (Name := ℕ) (U := UR sig nD τ) (Lvl := ℕ) (cfgs p).spec c (atTc Vin c)
  hentry c := by
    rw [Pipeline.ownSems0_none]
    have hsplit := Pipeline.arrays_of_unscopedBufs (p := p) (pcfgs (F := F)) adm (pdats m) L.win L.arr_whole c
      ((pdats m p c).share_full (hq c)) (atTc Vin c) (hA c)
    rw [Pipeline.unscopedBufs_held] at hsplit
    unfold Pipeline.Dat.owesAt Pipeline.owesWithin
    rw [howed c 0]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (hrec c 0 ▸ Set.mem_univ _)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c (pdats m) ((pdats m p c).share_full (hq c))
      (atTc Vin c) (atTc Vout c) ((pdats m p c).arrAt · (cfgs p).N) (hF c) (hrest c)
    rw [Pipeline.unscopedBufs_held] at hjoin
    unfold Pipeline.Dat.owesAt Pipeline.owesWithin
    rw [howed c (Fin.last _)]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 := regSeg m 0 launch0 (Vin0 m) (Vout0 m) (body_obligation0 (atTc (Vin0 m))) (fun _ _ => rfl) (fun _ _ => rfl)
  (fun _ _ => rfl) (fun _ _ => rfl) (fun _ _ => rfl)
  (fun c => arrAt_update _ launch0.win (Vin0 m c) (fun _ => rfl) 2 (by decide)) (fun c => update_off (cfg := cfg0) (Vin0 m c) 2 _)
def reg1 := regSeg m 1 launch1 (Vin1 m) (Vout1 m) (body_obligation1 (atTc (Vin1 m))) (fun _ _ => rfl) (fun _ _ => rfl)
  (fun _ _ => rfl) (fun _ _ => rfl) (fun _ _ => rfl)
  (fun c => arrAt_update _ launch1.win (Vin1 m c) (fun _ => rfl) 2 (by decide)) (fun c => update_off (cfg := cfg1) (Vin1 m c) 2 _)
def reg2 := regSeg m 2 launch2 (Vin2 m) (Vout2 m) (body_obligation2 (atTc (Vin2 m))) (fun _ _ => rfl) (fun _ _ => rfl)
  (fun _ _ => rfl) (fun _ _ => rfl) (fun _ _ => rfl)
  (fun c => arrAt_update _ launch2.win (Vin2 m c) (fun _ => rfl) 2 (by decide)) (fun c => update_off (cfg := cfg2) (Vin2 m c) 2 _)
def reg3 := regSeg m 3 launch3 (Vin3 m) (Vout3 m) (body_obligation3 (atTc (Vin3 m))) (fun _ _ => rfl) (fun _ _ => rfl)
  (fun _ _ => rfl) (fun _ _ => rfl) (fun _ _ => rfl)
  (fun c => arrAt_update _ launch3.win (Vin3 m c) (fun _ => rfl) 2 (by decide)) (fun c => update_off (cfg := cfg3) (Vin3 m c) 2 _)
def reg4 := regSeg m 4 launch4 (Vin4 m) (Vout4 m) (body_obligation4 (atTc (Vin4 m))) (fun _ _ => rfl) (fun _ _ => rfl)
  (fun _ _ => rfl) (fun _ _ => rfl) (fun _ _ => rfl)
  (fun c => arrAt_update _ launch4.win (Vin4 m c) (fun _ => rfl) 2 (by decide)) (fun c => update_off (cfg := cfg4) (Vin4 m c) 2 _)
def reg5 := regSeg m 5 launch5 (Vin5 m) (Vout5 m) (body_obligation5 (atTc (Vin5 m))) (fun _ _ => rfl) (fun _ _ => rfl)
  (fun _ _ => rfl) (fun _ _ => rfl) (fun _ _ => rfl) (hF5 m) (hrest5 m)
def reg6 := regSeg m 6 launch6 (Vin6 m) (Vout6 m) (body_obligation6 (atTc (Vin6 m))) (fun _ _ => rfl) (fun _ _ => rfl)
  (fun _ _ => rfl) (fun _ _ => rfl) (fun _ _ => rfl)
  (fun c => arrAt_update _ launch6.win (Vin6 m c) (fun _ => rfl) 3 (by decide)) (fun c => update_off (cfg := cfg6) (Vin6 m c) 3 _)

theorem hpre0 (c : Dev nD) : heldAt (Gen.V4 m) c ⊢ (reg0 m).pre c := heldAt_of_eq c (V4_eq m c)
theorem hpost0 (c : Dev nD) : (reg0 m).post c ⊢ heldAt (Gen.V5 m (outsH m)) c := heldAt_of_eq c (V5_eq m c).symm
theorem hpre1 (c : Dev nD) : heldAt (Gen.V8 m (outsH m)) c ⊢ (reg1 m).pre c := heldAt_of_eq c (V8_eq m c)
theorem hpost1 (c : Dev nD) : (reg1 m).post c ⊢ heldAt (Gen.V9 m (outsH m)) c := heldAt_of_eq c (V9_eq m c).symm
theorem hpre2 (c : Dev nD) : heldAt (Gen.V12 m (outsH m)) c ⊢ (reg2 m).pre c := heldAt_of_eq c (V12_eq m c)
theorem hpost2 (c : Dev nD) : (reg2 m).post c ⊢ heldAt (Gen.V13 m (outsH m)) c := heldAt_of_eq c (V13_eq m c).symm
theorem hpre3 (c : Dev nD) : heldAt (Gen.V16 m (outsH m)) c ⊢ (reg3 m).pre c := heldAt_of_eq c (V16_eq m c)
theorem hpost3 (c : Dev nD) : (reg3 m).post c ⊢ heldAt (Gen.V17 m (outsH m)) c := heldAt_of_eq c (V17_eq m c).symm
theorem hpre4 (c : Dev nD) : heldAt (Gen.V20 m (outsH m)) c ⊢ (reg4 m).pre c := heldAt_of_eq c (V20_eq m c)
theorem hpost4 (c : Dev nD) : (reg4 m).post c ⊢ heldAt (Gen.V21 m (outsH m)) c := heldAt_of_eq c (V21_eq m c).symm
theorem hpre5 (c : Dev nD) : heldAt (Gen.V22 m (outsH m)) c ⊢ (reg5 m).pre c := heldAt_of_eq c (V22_eq m c)
theorem hpost5 (c : Dev nD) : (reg5 m).post c ⊢ heldAt (Gen.V23 m (outsH m)) c := heldAt_of_eq c (V23_eq m c).symm
theorem hpre6 (c : Dev nD) : heldAt (Gen.V24 m (outsH m)) c ⊢ (reg6 m).pre c := heldAt_of_eq c (V24_eq m c)
theorem hpost6 (c : Dev nD) : (reg6 m).post c ⊢ heldAt (Gen.V25 m (outsH m)) c := heldAt_of_eq c (V25_eq m c).symm

theorem hu₀ :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz)
      ⊢ (|={Set.univ}=> bigSep Finset.univ (fun c : Dev nD => Rst c) : sProp 𝕄) := by
  refine Pipeline.initEach Lz lvz fun c => ?_
  iintro ⟨⟨-, HO, -, Hp, -⟩, -⟩
  imodintro
  isplitl [Hp]; · iexists _; iexact Hp
  iexists ∅; iexact HO

theorem hE7 (c : Dev nD) :
    Rst c ⊢ (iprop(∃ W, owes (c : Thread nD τ) (0 : CellTallies nD τ sig Unit) W) : sProp 𝕄) := by
  iintro ⟨-, HO⟩; iexact HO

set_option backward.isDefEq.respectTransparency.types false in
/-- Every weakly fair execution of the program from zero counters terminates with each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Gen.frame_cond m (Ix := Unit) (U := UR sig nD τ) (Lvl := ℕ) (EP := emb₁) (ι := ()) (𝒱₀ := Variants.none) (L := Lz) (lv := lvz)
    (hL := fun _ _ => rfl) (ρ := ρ) (outs := outsH m) (pdats := pdats m) (O₀ := 0) (G := fun _ => iprop(emp))
    (u₀ := initOf (Pipeline.cells cfgs cellOf_inj) (Pipeline.launchToks cfgs cellOf_inj)) (hu₀ := hu₀)
    (E := fun _ c => Rst c) (hE0 := hE0 ρ) (hE7 := hE7)
    (R0 := reg0 m) (hpre0 := hpre0 m) (hpost0 := hpost0 m)
    (R1 := reg1 m) (hpre1 := hpre1 m) (hpost1 := hpost1 m)
    (R2 := reg2 m) (hpre2 := hpre2 m) (hpost2 := hpost2 m)
    (R3 := reg3 m) (hpre3 := hpre3 m) (hpost3 := hpost3 m)
    (R4 := reg4 m) (hpre4 := hpre4 m) (hpost4 := hpost4 m)
    (R5 := reg5 m) (hpre5 := hpre5 m) (hpost5 := hpost5 m)
    (R6 := reg6 m) (hpre6 := hpre6 m) (hpost6 := hpost6 m)

end Cert.Kernel.Hand

end
-- ==== Proof.KI.MM.lean ====
import proofs.«411265_j32847909880435_1_alg».proof.Proof.Gen.KernelIdeal.Launch
import proofs.«411265_j32847909880435_1_alg».proof.Proof.Gen.KernelIdeal.Skeleton
import proofs.«411265_j32847909880435_1_alg».proof.Proof.Gen.KernelIdeal.Points
import Idealize.ShloMosaic.Lib.Pipeline.FrameBody
import Idealize.ShloMosaic.Lib.Pipeline.Value
import Idealize.ShloMosaic.Lib.Tactic
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

variable {F : FTy → Type} [FloatOps F]

local notation "𝕄" => MT nD τ sig Unit (Elt F) ℕ (UR sig nD τ) ℕ

/-- Window `w`'s block at point `t`, read off its array as the region finds it. -/
def mm_iblk (cfg : Cfg sig Λ₀) (V : (c : Dev nD) → (b : Ref sig .tc) → Buf (Elt F) ((c : Thread nD τ).loc b)) (c : Dev nD)
    (w : Fin cfg.W) (t : Fin cfg.N) : ((cfg.win w).xblock (cfg.grid.coords t)).Idx → Elt F (cfg.win w).elt :=
  ((cfg.win w).blk t).view.read (Elt F) (V c (Pipeline.arrRef cfg.spec w))

/-- For an input window that the body leaves at its block, `before` is that block of the array. -/
theorem mm_before {cfg : Cfg sig Λ₀} {c : Dev nD} (dat : Dat τ (Elt F) Unit ℕ (UR sig nD τ) ℕ cfg c)
    (V : (c : Dev nD) → (b : Ref sig .tc) → Buf (Elt F) ((c : Thread nD τ).loc b))
    (hA : ∀ w, dat.A w = V c (Pipeline.arrRef cfg.spec w)) (w : Fin cfg.W) (hw : (cfg.win w).isOut = false)
    (hlive : ∀ i, cfg.idle w i = false)
    (hclip : ∀ t t' : Fin cfg.N, (cfg.win w).index t = (cfg.win w).index t' →
      (cfg.win w).clip (cfg.grid.coords t) = (cfg.win w).clip (cfg.grid.coords t'))
    (hkeep : ∀ s, (cfg.win w).cut (cfg.grid.coords s) (dat.after w s) = mm_iblk cfg V c w s)
    (t : Fin cfg.N) (d : (cfg.win w).block.Idx → Elt F (cfg.win w).elt) :
    dat.before w t d = (cfg.win w).fill (cfg.grid.coords t) d (mm_iblk cfg V c w t) := by
  have e : ∀ s, dat.blockOf w s = mm_iblk cfg V c w s := fun s => by unfold Dat.blockOf mm_iblk; rw [hA]
  rw [dat.before_in_eq_fetched w hw hlive hclip (fun s => (hkeep s).trans (e s).symm) t d]
  unfold Dat.fetched; rw [e]

theorem mm_zoff : (![0, 0] : Fin 2 → Nat) = fun _ => 0 := funext fun a => by fin_cases a <;> rfl

/-- Regions 1 to 4 run the same body: each one's function equals region 0's skeleton. -/
theorem mm_eq1 : cc1__degree_matmul_kernel (F := F) = cc0__degree_matmul_kernel_skel := cc1__degree_matmul_kernel_eq_skeleton
theorem mm_eq2 : cc2__degree_matmul_kernel (F := F) = cc0__degree_matmul_kernel_skel := cc2__degree_matmul_kernel_eq_skeleton
theorem mm_eq3 : cc3__degree_matmul_kernel (F := F) = cc0__degree_matmul_kernel_skel := cc3__degree_matmul_kernel_eq_skeleton
theorem mm_eq4 : cc4__degree_matmul_kernel (F := F) = cc0__degree_matmul_kernel_skel := cc4__degree_matmul_kernel_eq_skeleton

/-- The body loads its two blocks whole and stores their product over the whole third buffer; `Φ` and `O` are framed. -/
theorem mm_body (c : Dev nD) {i : grid0.Coords}
    {arg1 : Memref sig .tc .vmem S10000x160 .f32} {harg1 : arg1.IsWhole}
    {arg2 : Memref sig .tc .vmem S160x128 .f32} {harg2 : arg2.IsWhole}
    {arg3 : Memref sig .tc .vmem S10000x128 .f32} {harg3 : arg3.IsWhole}
    {x0 z0 : Vec F S10000x160 .f32} {x1 z1 : Vec F S160x128 .f32} {z2 : Vec F S10000x128 .f32} {Φ O : sProp 𝕄} {D0 D1 D2 : Type}
    {y0 : D0 → Vec F S10000x160 .f32} {y1 : D1 → Vec F S160x128 .f32} {y2 : D2 → Vec F S10000x128 .f32}
    (e0 : ∀ d, y0 d = x0) (e1 : ∀ d, y1 d = x1) (f0 : z0 = x0) (f1 : z1 = x1) (f2 : z2 = k0_pay1 x0 x1) :
    iprop(Φ ∗ O ∗ (∃ d, owns (c : Thread nD τ) arg1 fullShare (y0 d)) ∗ (∃ d, owns (c : Thread nD τ) arg2 fullShare (y1 d))
        ∗ (∃ d, owns (c : Thread nD τ) arg3 fullShare (y2 d)))
      ⊢ wp frame (wpE (defs₀ (F := F)) Variants.none c none) Set.univ (cc0__degree_matmul_kernel_skel i arg1 harg1 arg2 harg2 arg3 harg3)
          fun _ => iprop(Φ ∗ O ∗ owns (c : Thread nD τ) arg1 fullShare z0 ∗ owns (c : Thread nD τ) arg2 fullShare z1
            ∗ owns (c : Thread nD τ) arg3 fullShare z2) := by
  subst z0 z1 z2
  simp only [e0, e1]
  unfold cc0__degree_matmul_kernel_skel owns
  iintro ⟨HΦ, Ho, ⟨%da, %fa, %hfa, Ha⟩, ⟨%db, %fb, %hfb, Hb⟩, ⟨%dc, %fc, -, Hc⟩⟩
  subst hfa; subst hfb
  sl_exec
  sl_step
  isplitl [HΦ]; · iexact HΦ
  isplitl [Ho]; · iexact Ho
  isplitl [Ha]
  · iexists fa; isplitr; · ipureintro; rfl
    iexact Ha
  isplitl [Hb]
  · iexists fb; isplitr; · ipureintro; rfl
    iexact Hb
  iexists _; isplitr
  swap; · iexact Hc
  ipureintro
  exact (View.read_writes_eq_canon _ _ _ fun y => ⟨_, List.mem_singleton_self _, View.mem_set_unit_zero mm_zoff inb_S10000x128_S10000x128_0_0 y⟩).trans
    (by rw [View.canon_unit_zero mm_zoff]
        exact congrArg₂ k0_pay1 (View.ld_unit_zero mm_zoff _ _) (View.ld_unit_zero mm_zoff _ _))

abbrev mmDot : DotDims S10000x160 S160x128 S10000x128 := dot_S10000x160_S160x128_S10000x128_1_0_0_1_n_n

theorem mmDot_lhs_row (i : S10000x128.Idx) (r : mmDot.contr.Idx) : (mmDot.lhsIdx i r 0).val = (i 0).val := by
  unfold DotDims.lhsIdx
  rw [dif_neg (show ¬(0 : Fin S10000x160.rank) ∈ mmDot.lhsBatch by decide),
    dif_pos (show (0 : Fin S10000x160.rank) ∈ mmDot.lhsNonContracting by decide)]
  rfl
theorem mmDot_rhs_col (i : S10000x128.Idx) (r : mmDot.contr.Idx) : (mmDot.rhsIdx i r 1).val = (i 1).val := by
  unfold DotDims.rhsIdx
  rw [dif_neg (show ¬(1 : Fin S160x128.rank) ∈ mmDot.rhsBatch by decide),
    dif_pos (show (1 : Fin S160x128.rank) ∈ mmDot.rhsNonContracting by decide)]
  rfl

/-- At the ideal values the narrowing is the identity, so the product block at (p, q) is row p times column q. -/
theorem mm_pay_apply (x0 : Vec Ideal S10000x160 .f32) (x1 : Vec Ideal S160x128 .f32) (p : Fin 10000) (q : Fin 128) :
    k0_pay1 (F := Ideal) x0 x1 (ValueIdx.ix2 p q) = ∑ k : Fin 160, x0 (ValueIdx.ix2 p k) * x1 (ValueIdx.ix2 k q) := by
  unfold k0_pay1
  simp only [matmul]
  rw [shapeCast_self, Ideal.matmul_constant_zero_apply, ← Equiv.sum_comp (ValueIdx.contrEquiv1 mmDot 160 rfl rfl).symm]
  refine Finset.sum_congr rfl fun k _ => ?_
  have hk := ValueIdx.contrEquiv1_symm_val mmDot 160 rfl rfl k
  have el : mmDot.lhsIdx (ValueIdx.ix2 p q) ((ValueIdx.contrEquiv1 mmDot 160 rfl rfl).symm k) = ValueIdx.ix2 p k :=
    funext fun a => Fin.ext (by
      match a with
      | ⟨0, _⟩ => exact mmDot_lhs_row _ _
      | ⟨1, _⟩ => exact (mmDot.lhsIdx_val_of_single rfl _ _).trans hk)
  have er : mmDot.rhsIdx (ValueIdx.ix2 p q) ((ValueIdx.contrEquiv1 mmDot 160 rfl rfl).symm k) = ValueIdx.ix2 k q :=
    funext fun a => Fin.ext (by
      match a with
      | ⟨0, _⟩ => exact (mmDot.rhsIdx_val_of_single rfl _ _).trans hk
      | ⟨1, _⟩ => exact mmDot_rhs_col _ _)
  rw [el, er]
  rfl

/-- The product of the two factor arrays, index by index. -/
def mmProd (A : Vec Ideal S100000x160 .f32) (B : Vec Ideal S160x128 .f32) : Vec Ideal S100000x128 .f32 :=
  fun i => ∑ k : Fin 160, A (ValueIdx.ix2 (n0 := 100000) (n1 := 160) (i 0) k) * B (ValueIdx.ix2 (n0 := 160) (n1 := 128) k (i 1))

/-- The block indices at point t, decided over the grid's points. -/
theorem mm_index : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 := by decide +kernel

/-- Where the elements of the three windows' blocks at point t sit in their arrays. -/
theorem mm_emb0 (t : Fin grid0.N) (a : Fin 10000) (k : Fin 160) (h : 10000 * t.val + a.val < 100000) :
    ((win0_0.rect t).emb (ValueIdx.ix2 a k) : S100000x160.Idx) = ValueIdx.ix2 ⟨10000 * t.val + a.val, h⟩ k := by
  obtain ⟨e0, e1, -⟩ := mm_index t
  funext d; apply Fin.ext
  match d with
  | ⟨0, _⟩ => show win0_0.index t (0 : Fin 2) * 10000 + 1 * a.val = 10000 * t.val + a.val; rw [e0]; omega
  | ⟨1, _⟩ => show win0_0.index t (1 : Fin 2) * 160 + 1 * k.val = k.val; rw [e1]; omega
theorem mm_emb1 (t : Fin grid0.N) (k : Fin 160) (b : Fin 128) :
    ((win0_1.rect t).emb (ValueIdx.ix2 k b) : S160x128.Idx) = ValueIdx.ix2 k b := by
  obtain ⟨-, -, e0, e1, -⟩ := mm_index t
  funext d; apply Fin.ext
  match d with
  | ⟨0, _⟩ => show win0_1.index t (0 : Fin 2) * 160 + 1 * k.val = k.val; rw [e0]; omega
  | ⟨1, _⟩ => show win0_1.index t (1 : Fin 2) * 128 + 1 * b.val = b.val; rw [e1]; omega
theorem mm_emb2 (t : Fin grid0.N) (a : Fin 10000) (b : Fin 128) (h : 10000 * t.val + a.val < 100000) :
    ((win0_2.rect t).emb (ValueIdx.ix2 a b) : S100000x128.Idx) = ValueIdx.ix2 ⟨10000 * t.val + a.val, h⟩ b := by
  obtain ⟨-, -, -, -, e0, e1⟩ := mm_index t
  funext d; apply Fin.ext
  match d with
  | ⟨0, _⟩ => show win0_2.index t (0 : Fin 2) * 10000 + 1 * a.val = 10000 * t.val + a.val; rw [e0]; omega
  | ⟨1, _⟩ => show win0_2.index t (1 : Fin 2) * 128 + 1 * b.val = b.val; rw [e1]; omega

/-- Block t of the product array is the left factor's block t times the whole right factor. -/
theorem mm_prod_block (A : Vec Ideal S100000x160 .f32) (B : Vec Ideal S160x128 .f32) (t : Fin grid0.N) (j : S10000x128.Idx) :
    k0_pay1 (F := Ideal) (fun y => A ((win0_0.rect t).emb y)) (fun y => B ((win0_1.rect t).emb y)) j
      = mmProd A B ((win0_2.rect t).emb j) := by
  obtain ⟨a, b, rfl⟩ : ∃ (a : Fin 10000) (b : Fin 128), j = ValueIdx.ix2 a b := ⟨j 0, j 1, ValueIdx.eq_ix2 j⟩
  have h : 10000 * t.val + a.val < 100000 := by have := a.isLt; have := t.isLt.trans_eq N_0; omega
  rw [mm_pay_apply, mm_emb2 t a b h]
  show _ = ∑ k : Fin 160, _
  refine Finset.sum_congr rfl fun k _ => ?_
  rw [mm_emb0 t a k h, mm_emb1 t k b]

/-- Row p of the product array lies in the block of point p / 10000, which is one of the grid's points. -/
theorem mm_mem (t : Fin grid0.N) (p : Fin 100000) (q : Fin 128) (h : p.val / 10000 = t.val) :
    (ValueIdx.ix2 p q : S100000x128.Idx) ∈ (win0_2.rect t).set := by
  obtain ⟨-, -, -, -, e0, e1⟩ := mm_index t
  rw [Rect.mem_set_unit]
  intro d
  match d with
  | ⟨0, _⟩ =>
    show win0_2.index t (0 : Fin 2) * 10000 ≤ p.val ∧ p.val < win0_2.index t (0 : Fin 2) * 10000 + 10000
    rw [e0]; omega
  | ⟨1, _⟩ =>
    show win0_2.index t (1 : Fin 2) * 128 ≤ q.val ∧ q.val < win0_2.index t (1 : Fin 2) * 128 + 128
    rw [e1]; have := q.isLt; omega
theorem mm_div_lt (p : Fin 100000) : p.val / 10000 < grid0.N := by rw [N_0]; have := p.isLt; omega

end Cert.KernelIdeal.Hand
-- ==== Proof.KI.Reg0.lean ====
import proofs.«411265_j32847909880435_1_alg».proof.Proof.KI.MM

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  mm_iblk cfg0 V c w t

/-- Proof data: each input window keeps its block, the output window gets their product. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

/-- At every point the body's triple applies to the inputs' blocks. -/
theorem body_obligation0 (c : Dev nD) : BodyObligation (dat0 (F := F) V c) (defs₀ (F := F)) Variants.none () Set.univ := fun t => by
  rw [bigSep_W0, bigSep_W0]
  show _ ⊢ wp _ _ _ (bodyAt0 t) _
  unfold bodyAt0
  rw [cc0__degree_matmul_kernel_eq_skeleton]
  exact mm_body c (x0 := iblk0 V c 0 t) (x1 := iblk0 V c 1 t)
    (mm_before (dat0 V c) V (A_eq0 V c) 0 rfl (fun _ => rfl) (fun _ _ _ => rfl) (fun _ => rfl) t)
    (mm_before (dat0 V c) V (A_eq0 V c) 1 rfl (fun _ => rfl) (fun _ _ _ => rfl) (fun _ => rfl) t) rfl rfl rfl

end Cert.KernelIdeal.Hand
-- ==== Proof.KI.Reg1.lean ====
import proofs.«411265_j32847909880435_1_alg».proof.Proof.KI.MM

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  mm_iblk cfg1 V c w t

/-- Proof data: each input window keeps its block, the output window gets their product. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k0_pay1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := rfl

/-- At every point the body's triple applies to the inputs' blocks. -/
theorem body_obligation1 (c : Dev nD) : BodyObligation (dat1 (F := F) V c) (defs₀ (F := F)) Variants.none () Set.univ := fun t => by
  rw [bigSep_W1, bigSep_W1]
  show _ ⊢ wp _ _ _ (bodyAt1 t) _
  unfold bodyAt1
  rw [mm_eq1]
  exact mm_body c (x0 := iblk1 V c 0 t) (x1 := iblk1 V c 1 t)
    (mm_before (dat1 V c) V (A_eq1 V c) 0 rfl (fun _ => rfl) (fun _ _ _ => rfl) (fun _ => rfl) t)
    (mm_before (dat1 V c) V (A_eq1 V c) 1 rfl (fun _ => rfl) (fun _ _ _ => rfl) (fun _ => rfl) t) rfl rfl rfl

end Cert.KernelIdeal.Hand
-- ==== Proof.KI.Reg2.lean ====
import proofs.«411265_j32847909880435_1_alg».proof.Proof.KI.MM

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  mm_iblk cfg2 V c w t

/-- Proof data: each input window keeps its block, the output window gets their product. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k0_pay1 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

/-- At every point the body's triple applies to the inputs' blocks. -/
theorem body_obligation2 (c : Dev nD) : BodyObligation (dat2 (F := F) V c) (defs₀ (F := F)) Variants.none () Set.univ := fun t => by
  rw [bigSep_W2, bigSep_W2]
  show _ ⊢ wp _ _ _ (bodyAt2 t) _
  unfold bodyAt2
  rw [mm_eq2]
  exact mm_body c (x0 := iblk2 V c 0 t) (x1 := iblk2 V c 1 t)
    (mm_before (dat2 V c) V (A_eq2 V c) 0 rfl (fun _ => rfl) (fun _ _ _ => rfl) (fun _ => rfl) t)
    (mm_before (dat2 V c) V (A_eq2 V c) 1 rfl (fun _ => rfl) (fun _ _ _ => rfl) (fun _ => rfl) t) rfl rfl rfl

end Cert.KernelIdeal.Hand
-- ==== Proof.KI.Reg3.lean ====
import proofs.«411265_j32847909880435_1_alg».proof.Proof.KI.MM

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  mm_iblk cfg3 V c w t

/-- Proof data: each input window keeps its block, the output window gets their product. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k0_pay1 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl

/-- At every point the body's triple applies to the inputs' blocks. -/
theorem body_obligation3 (c : Dev nD) : BodyObligation (dat3 (F := F) V c) (defs₀ (F := F)) Variants.none () Set.univ := fun t => by
  rw [bigSep_W3, bigSep_W3]
  show _ ⊢ wp _ _ _ (bodyAt3 t) _
  unfold bodyAt3
  rw [mm_eq3]
  exact mm_body c (x0 := iblk3 V c 0 t) (x1 := iblk3 V c 1 t)
    (mm_before (dat3 V c) V (A_eq3 V c) 0 rfl (fun _ => rfl) (fun _ _ _ => rfl) (fun _ => rfl) t)
    (mm_before (dat3 V c) V (A_eq3 V c) 1 rfl (fun _ => rfl) (fun _ _ _ => rfl) (fun _ => rfl) t) rfl rfl rfl

end Cert.KernelIdeal.Hand
-- ==== Proof.KI.Reg4.lean ====
import proofs.«411265_j32847909880435_1_alg».proof.Proof.KI.MM

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  mm_iblk cfg4 V c w t

/-- Proof data: each input window keeps its block, the output window gets their product. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k0_pay1 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := rfl

/-- At every point the body's triple applies to the inputs' blocks. -/
theorem body_obligation4 (c : Dev nD) : BodyObligation (dat4 (F := F) V c) (defs₀ (F := F)) Variants.none () Set.univ := fun t => by
  rw [bigSep_W4, bigSep_W4]
  show _ ⊢ wp _ _ _ (bodyAt4 t) _
  unfold bodyAt4
  rw [mm_eq4]
  exact mm_body c (x0 := iblk4 V c 0 t) (x1 := iblk4 V c 1 t)
    (mm_before (dat4 V c) V (A_eq4 V c) 0 rfl (fun _ => rfl) (fun _ _ _ => rfl) (fun _ => rfl) t)
    (mm_before (dat4 V c) V (A_eq4 V c) 1 rfl (fun _ => rfl) (fun _ _ _ => rfl) (fun _ => rfl) t) rfl rfl rfl

end Cert.KernelIdeal.Hand
-- ==== Proof.KI.Reg5.lean ====
import proofs.«411265_j32847909880435_1_alg».proof.Proof.Gen.KernelIdeal.Launch
import proofs.«411265_j32847909880435_1_alg».proof.Proof.Gen.KernelIdeal.Skeleton
import proofs.«411265_j32847909880435_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

-- An accumulator before point `n`: `pay` folded over the blocks of the points below `n`, from `z`.
def acc5 (c : Dev nD) (pay : Vec F S5000x128 .f32 → Vec F S128x128 .f32 → Vec F S5000x128 .f32 → Vec F S1x128 .f32 → Vec F S1x128 .f32 → Vec F S1x128 .f32)
    (z : Vec F S1x128 .f32) : ℕ → Vec F S1x128 .f32
  | 0 => z
  | n + 1 => if h : n < cfg5.N then pay (iblk5 V c 0 ⟨n, h⟩) (iblk5 V c 2 ⟨n, h⟩) (iblk5 V c 1 ⟨n, h⟩) (iblk5 V c 3 ⟨n, h⟩) (acc5 c pay z n)
    else acc5 c pay z n

-- One step of the fold: point `s`'s blocks onto what the points before left.
theorem acc5_step (c : Dev nD) (pay) (z : Vec F S1x128 .f32) (s : Fin cfg5.N) {n : ℕ} (hs : s.val + 1 = n) :
    pay (iblk5 V c 0 s) (iblk5 V c 2 s) (iblk5 V c 1 s) (iblk5 V c 3 s) (acc5 V c pay z s.val) = acc5 V c pay z n := by
  subst hs; rw [acc5, dif_pos s.isLt]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => k5_pay3 (iblk5 V c 0 t) (iblk5 V c 2 t) (iblk5 V c 1 t) (iblk5 V c 3 t)
    | ⟨5, _⟩ => k5_pay4 (iblk5 V c 0 t) (iblk5 V c 2 t) (iblk5 V c 1 t) (iblk5 V c 3 t) (acc5 V c k5_pay4 k5_pay1 t.val)
    | ⟨6, _⟩ => k5_pay5 (iblk5 V c 0 t) (iblk5 V c 2 t) (iblk5 V c 1 t) (iblk5 V c 3 t) (acc5 V c k5_pay5 k5_pay2 t.val)
  Φ _ := Pipeline.ΦA spec5 c
  q _ := fullShare
  owed _ := 0

theorem A_eq5 (c : Dev nD) (w : Fin cfg5.W) : (dat5 V c).A w = V c (Pipeline.arrRef spec5 w) := by
  dsimp only [dat5]

-- On entry to the body at any point an input window holds what the body leaves there: its block of the array.
theorem before5_in (c : Dev nD) (t : Fin cfg5.N) : ∀ (w : Fin cfg5.W), (cfg5.win w).isOut = false → ∀ d,
    (dat5 V c).before w t d = (dat5 V c).after w t
  | ⟨0, _⟩, _, d | ⟨1, _⟩, _, d | ⟨2, _⟩, _, d | ⟨3, _⟩, _, d =>
    ((dat5 V c).before_in_eq_fetched _ rfl (fun _ => rfl) (fun _ _ _ => rfl) (fun _ => rfl) t d).trans rfl
  | ⟨4, _⟩, h, _ | ⟨5, _⟩, h, _ | ⟨6, _⟩, h, _ => by cases h

-- What the body leaves in the output windows, over what it leaves in the inputs.
theorem after5_4 (c : Dev nD) (t : Fin cfg5.N) : (dat5 V c).after 4 t
    = k5_pay3 ((dat5 V c).after 0 t) ((dat5 V c).after 2 t) ((dat5 V c).after 1 t) ((dat5 V c).after 3 t) := by dsimp only [dat5]
theorem after5_5 (c : Dev nD) (t : Fin cfg5.N) : (dat5 V c).after 5 t
    = k5_pay4 ((dat5 V c).after 0 t) ((dat5 V c).after 2 t) ((dat5 V c).after 1 t) ((dat5 V c).after 3 t) (acc5 V c k5_pay4 k5_pay1 t.val) := by
  dsimp only [dat5]
theorem after5_6 (c : Dev nD) (t : Fin cfg5.N) : (dat5 V c).after 6 t
    = k5_pay5 ((dat5 V c).after 0 t) ((dat5 V c).after 2 t) ((dat5 V c).after 1 t) ((dat5 V c).after 3 t) (acc5 V c k5_pay5 k5_pay2 t.val) := by
  dsimp only [dat5]

abbrev cond5_0 (i : grid5.Coords) : Prop :=
  (Scalar.cmpi .ne (Scalar.extui (Scalar.cmpi .eq (BitVec.ofNat 32 (i 0).val) 0#32)) 0#32) = 1#1

theorem hcond5_0 : ∀ t : Fin cfg5.N, cond5_0 (grid5.coords t) ↔ t.val = 0 :=
  (by decide +kernel : ∀ t : Fin grid5.N, cond5_0 (grid5.coords t) ↔ t.val = 0)

-- At the first point the fold is at `z`; at a later point an accumulator holds on entry what the point before left.
theorem before5_acc (c : Dev nD) (t : Fin cfg5.N) (w : Fin cfg5.W) (hw : (cfg5.win w).isOut = true)
    (hfl : ∀ t : Fin cfg5.N, (cfg5.win w).flush t = true ↔ t.val % 120 = 119) (hl : ∀ i, cfg5.idle w i = false)
    (hc : ∀ (i : cfg5.grid.Coords) a, (cfg5.win w).clip i a = none) (pay) (z : Vec F S1x128 .f32)
    (X : (cfg5.win w).block.Idx → Elt F (cfg5.win w).elt)
    (hX : ∀ s : Fin cfg5.N, s.val + 1 = t.val → (dat5 V c).after w s = X) :
    if cond5_0 (grid5.coords t) then acc5 V c pay z t.val = z else ∀ d, (dat5 V c).before w t d = X := by
  by_cases h0 : t.val = 0
  · rw [if_pos ((hcond5_0 t).mpr h0)]; exact congrArg (acc5 V c pay z) h0
  · rw [if_neg (mt (hcond5_0 t).mp h0)]
    have hN : t.val < 120 := t.isLt
    exact fun d => ((dat5 V c).before_out_kept w hw t h0
      (Bool.eq_false_iff.mpr fun h => by have := (hfl _).mp h; dsimp only at this; omega) hl hc d).trans
      (hX _ (Nat.sub_add_cancel (Nat.pos_of_ne_zero h0)))

theorem hz5 : (![0, 0] : Fin 2 → Nat) = fun _ => 0 := funext fun a => by fin_cases a <;> rfl

-- A list of stores whose head is through the whole block covers the block.
theorem cover5 {S : Shape} {off : Fin S.rank → Nat} (hz : off = fun _ => 0) (inb : ∀ a, off a + S.size a ≤ S.size a)
    (p : Vec F S .f32) (L : List (View.Piece (Elt F) S .f32)) (y : S.Idx) :
    ∃ pc ∈ ((⟨Rect.unit off S.size inb, p⟩ : View.Piece (Elt F) S .f32) :: L), y ∈ pc.1.set :=
  ⟨_, List.mem_cons_self, View.mem_set_unit_zero hz inb y⟩

set_option maxHeartbeats 2000000 in
-- The body's triple: the inputs stay, window 4 ends at the affine map, each accumulator one fold step on (from the zero block where the branch is taken); `R₁`, `R₂` are framed.
theorem sound_kernel5 (c : Dev nD) {i : grid5.Coords} {R₁ R₂ : sProp 𝕄}
    {arg1 : Memref sig .tc .vmem S5000x128 .f32} {harg1 : arg1.IsWhole} {arg2 : Memref sig .tc .vmem S5000x128 .f32} {harg2 : arg2.IsWhole}
    {arg3 : Memref sig .tc .vmem S128x128 .f32} {harg3 : arg3.IsWhole} {arg4 : Memref sig .tc .vmem S1x128 .f32} {harg4 : arg4.IsWhole}
    {arg5 : Memref sig .tc .vmem S5000x128 .f32} {harg5 : arg5.IsWhole} {arg6 : Memref sig .tc .vmem S1x128 .f32} {harg6 : arg6.IsWhole}
    {arg7 : Memref sig .tc .vmem S1x128 .f32} {harg7 : arg7.IsWhole}
    {x0 x1 : Vec F S5000x128 .f32} {x2 : Vec F S128x128 .f32} {x3 xo5 xo6 : Vec F S1x128 .f32}
    {B0 B1 B4 : Vec F S5000x128 .f32 → Vec F S5000x128 .f32} {B2 : Vec F S128x128 .f32 → Vec F S128x128 .f32}
    {B3 B5 B6 : Vec F S1x128 .f32 → Vec F S1x128 .f32} {a4 : Vec F S5000x128 .f32} {a5 a6 : Vec F S1x128 .f32}
    (h0 : ∀ d, B0 d = x0) (h1 : ∀ d, B1 d = x1) (h2 : ∀ d, B2 d = x2) (h3 : ∀ d, B3 d = x3)
    (h5 : if cond5_0 i then xo5 = k5_pay1 else ∀ d, B5 d = xo5) (h6 : if cond5_0 i then xo6 = k5_pay2 else ∀ d, B6 d = xo6)
    (ha4 : a4 = k5_pay3 x0 x2 x1 x3) (ha5 : a5 = k5_pay4 x0 x2 x1 x3 xo5) (ha6 : a6 = k5_pay5 x0 x2 x1 x3 xo6) :
    iprop(R₁ ∗ R₂ ∗ (∃ d, owns (c : Thread nD τ) arg1 fullShare (B0 d)) ∗ (∃ d, owns (c : Thread nD τ) arg2 fullShare (B1 d))
        ∗ (∃ d, owns (c : Thread nD τ) arg3 fullShare (B2 d)) ∗ (∃ d, owns (c : Thread nD τ) arg4 fullShare (B3 d))
        ∗ (∃ d, owns (c : Thread nD τ) arg5 fullShare (B4 d)) ∗ (∃ d, owns (c : Thread nD τ) arg6 fullShare (B5 d))
        ∗ (∃ d, owns (c : Thread nD τ) arg7 fullShare (B6 d)))
      ⊢ wp frame (wpE (defs₀ (F := F)) Variants.none c none) Set.univ
          (cc5__self_stats_kernel i arg1 harg1 arg2 harg2 arg3 harg3 arg4 harg4 arg5 harg5 arg6 harg6 arg7 harg7) fun _ =>
          iprop(R₁ ∗ R₂ ∗ owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare a4
            ∗ owns (c : Thread nD τ) arg6 fullShare a5
            ∗ owns (c : Thread nD τ) arg7 fullShare a6) := by
  subst ha4 ha5 ha6
  simp only [cc5__self_stats_kernel_eq_skeleton]; unfold cc5__self_stats_kernel_skel
  unfold owns
  iintro ⟨HR₁, HR₂, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, %hf5, H5⟩, ⟨%d6, %f6, %hf6, H6⟩⟩
  replace hf0 := hf0.trans (h0 d0); replace hf1 := hf1.trans (h1 d1)
  replace hf2 := hf2.trans (h2 d2); replace hf3 := hf3.trans (h3 d3)
  obtain rfl := harg1.eq_unread hf0; obtain rfl := harg2.eq_unread hf1
  obtain rfl := harg3.eq_unread hf2; obtain rfl := harg4.eq_unread hf3
  by_cases hc0 : cond5_0 i
  on_goal 1 => rw [if_pos hc0] at h5 h6; subst h5 h6
  on_goal 2 =>
    rw [if_neg hc0] at h5 h6
    replace hf5 := hf5.trans (h5 d5); replace hf6 := hf6.trans (h6 d6)
    obtain rfl := harg6.eq_unread hf5; obtain rfl := harg7.eq_unread hf6
  all_goals
    sl_exec (disch := first | exact hc0)
    sl_step
    isplitl [HR₁]; · iexact HR₁
    isplitl [HR₂]; · iexact HR₂
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr
      swap; · iexact H4
      ipureintro
      rw [View.read_writes_eq_canon _ _ _ (cover5 hz5 _ _ _), View.canon_cons_unit_zero hz5]
      simp only [View.readAt_eq_ld, hf0, hf1, hf2, hf3, View.ld_unit_zero (S := S5000x128) hz5,
        View.ld_unit_zero (S := S128x128) hz5, View.ld_unit_zero (S := S1x128) hz5]
    isplitl [H5]
    · iexists _; isplitr
      swap; · iexact H5
      ipureintro
      rw [View.read_writes_eq_canon _ _ _ (cover5 hz5 _ _ _), View.canon_cons_unit_zero hz5]
      try sl_unfold_run_names
      simp only [View.readCov_unit_zero (S := S1x128) _ hz5, View.readAt_eq_ld, hf0, hf1, hf2, hf3, hf5, View.ld_unit_zero (S := S5000x128) hz5,
        View.ld_unit_zero (S := S128x128) hz5, View.ld_unit_zero (S := S1x128) hz5]
    · iexists _; isplitr
      swap; · iexact H6
      ipureintro
      rw [View.read_writes_eq_canon _ _ _ (cover5 hz5 _ _ _), View.canon_cons_unit_zero hz5]
      try sl_unfold_run_names
      simp only [View.readCov_unit_zero (S := S1x128) _ hz5, View.readAt_eq_ld, hf0, hf1, hf2, hf3, hf6, View.ld_unit_zero (S := S5000x128) hz5,
        View.ld_unit_zero (S := S128x128) hz5, View.ld_unit_zero (S := S1x128) hz5]

theorem body_obligation5 (c : Dev nD) : BodyObligation (dat5 (F := F) V c) (defs₀ (F := F)) Variants.none () Set.univ := fun t => by
  rw [bigSep_W5, bigSep_W5]
  show _ ⊢ wp _ _ _ (bodyAt5 t) _
  exact sound_kernel5 c (before5_in V c t 0 rfl) (before5_in V c t 1 rfl) (before5_in V c t 2 rfl) (before5_in V c t 3 rfl)
    (before5_acc V c t 5 rfl flush5_5 (fun _ => rfl) (fun _ _ => rfl) k5_pay4 k5_pay1 _
      fun s hs => (after5_5 V c s).trans (acc5_step V c k5_pay4 k5_pay1 s hs))
    (before5_acc V c t 6 rfl flush5_6 (fun _ => rfl) (fun _ _ => rfl) k5_pay5 k5_pay2 _
      fun s hs => (after5_6 V c s).trans (acc5_step V c k5_pay5 k5_pay2 s hs))
    (after5_4 V c t) (after5_5 V c t) (after5_6 V c t)

end Cert.KernelIdeal.Hand

end
-- ==== Proof.KI.Reg6.lean ====
import proofs.«411265_j32847909880435_1_alg».proof.Proof.Gen.KernelIdeal.Launch
import proofs.«411265_j32847909880435_1_alg».proof.Proof.Gen.KernelIdeal.Skeleton
import proofs.«411265_j32847909880435_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S5000x128 := Rect.unit (s := S5000x128) ![0, 0] S5000x128.size inb_S5000x128_S5000x128_0_0
abbrev r6_1 : Rect S1x128 := Rect.unit (s := S1x128) ![0, 0] S1x128.size inb_S1x128_S1x128_0_0

theorem off6 : (![0, 0] : Fin 2 → Nat) = fun _ => 0 := funext fun a => by fin_cases a <;> rfl

def out6_3 (x0 : Vec F S5000x128 .f32) (x1 : Vec F S1x128 .f32) (x2 : Vec F S1x128 .f32) : Vec F S5000x128 .f32 :=
  View.canon [⟨r6_0, k6_pay1 (View.ld x0 r6_0) (View.ld x1 r6_1) (View.ld x2 r6_1)⟩]

-- Through whole-block rectangles the one store leaves the payload of the three blocks.
theorem out6_3_eq (x0 : Vec F S5000x128 .f32) (x1 : Vec F S1x128 .f32) (x2 : Vec F S1x128 .f32) :
    out6_3 x0 x1 x2 = k6_pay1 x0 x1 x2 := by
  unfold out6_3
  rw [View.canon_unit_zero off6, View.ld_unit_zero off6, View.ld_unit_zero off6, View.ld_unit_zero off6]

theorem cover6_3 (p0 : Vec F S5000x128 .f32) (y : S5000x128.Idx) :
    ∃ pc ∈ ([⟨r6_0, p0⟩] : List (View.Piece (Elt F) S5000x128 .f32)), y ∈ pc.1.set :=
  ⟨_, List.mem_singleton_self _, View.mem_set_unit_zero off6 inb_S5000x128_S5000x128_0_0 y⟩

set_option maxHeartbeats 1000000 in
-- The body's triple: the inputs stay, the output ends at `out6_3` of them; `R₁`, `R₂` are framed.
theorem sound_kernel6 (c : Dev nD) {i : grid6.Coords} {R₁ R₂ : sProp 𝕄}
    {arg1 : Memref sig .tc .vmem S5000x128 .f32} {harg1 : arg1.IsWhole}
    {arg2 : Memref sig .tc .vmem S1x128 .f32} {harg2 : arg2.IsWhole}
    {arg3 : Memref sig .tc .vmem S1x128 .f32} {harg3 : arg3.IsWhole}
    {arg4 : Memref sig .tc .vmem S5000x128 .f32} {harg4 : arg4.IsWhole}
    {x0 : Vec F S5000x128 .f32} {x1 x2 : Vec F S1x128 .f32}
    {B0 B3 : Vec F S5000x128 .f32 → Vec F S5000x128 .f32} {B1 B2 : Vec F S1x128 .f32 → Vec F S1x128 .f32} {a3 : Vec F S5000x128 .f32}
    (h0 : ∀ d, B0 d = x0) (h1 : ∀ d, B1 d = x1) (h2 : ∀ d, B2 d = x2) (ha : a3 = out6_3 x0 x1 x2) :
    iprop(R₁ ∗ R₂ ∗ (∃ d, owns (c : Thread nD τ) arg1 fullShare (B0 d)) ∗ (∃ d, owns (c : Thread nD τ) arg2 fullShare (B1 d))
        ∗ (∃ d, owns (c : Thread nD τ) arg3 fullShare (B2 d)) ∗ (∃ d, owns (c : Thread nD τ) arg4 fullShare (B3 d)))
      ⊢ wp frame (wpE (defs₀ (F := F)) Variants.none c none) Set.univ
          (cc6__normalize_kernel i arg1 harg1 arg2 harg2 arg3 harg3 arg4 harg4) fun _ =>
          iprop(R₁ ∗ R₂ ∗ owns (c : Thread nD τ) arg1 fullShare x0 ∗ owns (c : Thread nD τ) arg2 fullShare x1
            ∗ owns (c : Thread nD τ) arg3 fullShare x2 ∗ owns (c : Thread nD τ) arg4 fullShare a3) := by
  subst ha
  simp only [cc6__normalize_kernel_eq_skeleton]; unfold cc6__normalize_kernel_skel
  unfold owns
  iintro ⟨HR₁, HR₂, ⟨%d0, %f0, %hf0, H0⟩, ⟨%d1, %f1, %hf1, H1⟩, ⟨%d2, %f2, %hf2, H2⟩, ⟨%d3, %f3, -, H3⟩⟩
  obtain rfl := hf0.trans (h0 d0); obtain rfl := hf1.trans (h1 d1); obtain rfl := hf2.trans (h2 d2)
  sl_exec
  sl_step
  isplitl [HR₁]; · iexact HR₁
  isplitl [HR₂]; · iexact HR₂
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_3 (c : Dev nD) (t : Fin cfg6.N) :
    (dat6 V c).after 3 t = out6_3 ((dat6 V c).after 0 t) ((dat6 V c).after 1 t) ((dat6 V c).after 2 t) := by dsimp only [dat6]

-- On entry to the body at any point an input window holds what the body leaves there: its block of the array.
theorem before6_in (c : Dev nD) (t : Fin cfg6.N) : ∀ (w : Fin cfg6.W), (cfg6.win w).isOut = false → ∀ d,
    (dat6 V c).before w t d = (dat6 V c).after w t
  | ⟨0, _⟩, _, d | ⟨1, _⟩, _, d | ⟨2, _⟩, _, d =>
    ((dat6 V c).before_in_eq_fetched _ rfl (fun _ => rfl) (fun _ _ _ => rfl) (fun _ => rfl) t d).trans rfl
  | ⟨3, _⟩, h, _ => by cases h

theorem body_obligation6 (c : Dev nD) : BodyObligation (dat6 (F := F) V c) (defs₀ (F := F)) Variants.none () Set.univ := fun t => by
  rw [bigSep_W6, bigSep_W6]
  show _ ⊢ wp _ _ _ (bodyAt6 t) _
  exact sound_kernel6 c (before6_in V c t 0 rfl) (before6_in V c t 1 rfl) (before6_in V c t 2 rfl) (after6_3 V c t)

end Cert.KernelIdeal.Hand

end
-- ==== Proof.KI.Vals.lean ====
import proofs.«411265_j32847909880435_1_alg».proof.Proof.Gen.KernelIdeal.Launch
import proofs.«411265_j32847909880435_1_alg».proof.Proof.Gen.KernelIdeal.Skeleton
import proofs.«411265_j32847909880435_1_alg».proof.Proof.Gen.KernelIdeal.Points
import proofs.«411265_j32847909880435_1_alg».proof.Proof.Gen.KernelIdeal.Regions
import proofs.«411265_j32847909880435_1_alg».proof.Proof.KI.Reg0
import proofs.«411265_j32847909880435_1_alg».proof.Proof.KI.Reg1
import proofs.«411265_j32847909880435_1_alg».proof.Proof.KI.Reg2
import proofs.«411265_j32847909880435_1_alg».proof.Proof.KI.Reg3
import proofs.«411265_j32847909880435_1_alg».proof.Proof.KI.Reg4
import proofs.«411265_j32847909880435_1_alg».proof.Proof.KI.Reg5
import proofs.«411265_j32847909880435_1_alg».proof.Proof.KI.Reg6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) :
    (c : Dev nD) → (b : Ref sig .tc) → Buf (Elt F) ((c : Thread nD τ).loc b) :=
  fun c b => W c b

/-- Replacing one array's contents leaves every other reference's. -/
theorem update_of_ne (V : Valuation τ sig (Elt F)) {o r : Ref sig .tc} (x) (h : r ≠ o) :
    Function.update V (o : DevRef τ sig) x r = V r :=
  Function.update_of_ne (StableHlo.devRef_ne_of_ne h) _ _

/-- Off a region's arrays, replacing one of them changes nothing. -/
theorem update_off {cfg : Cfg sig Λ₀} (V : Valuation τ sig (Elt F)) (o : Fin cfg.W) (x) (b : Ref sig .tc)
    (hb : b ∉ Finset.univ.image (Pipeline.arrRef cfg.spec)) :
    Function.update V (Pipeline.arrRef cfg.spec o : DevRef τ sig) x b = V b :=
  update_of_ne V x fun e => hb (Finset.mem_image.mpr ⟨o, Finset.mem_univ _, e.symm⟩)

/-- A region whose windows other than `o` are inputs read off `V`: after the last point each array holds what `V`
    with `o`'s array at its final contents holds, an input never being written back. -/
theorem arrAt_update {cfg : Cfg sig Λ₀} {c : Dev nD} (dat : Dat τ (Elt F) Unit ℕ (UR sig nD τ) ℕ cfg c)
    (hw : Pipeline.WinFacts cfg.spec) (V : Valuation τ sig (Elt F)) (hA : ∀ w, dat.A w = V (Pipeline.arrRef cfg.spec w))
    (o : Fin cfg.W) (hin : ∀ w, w ≠ o → (cfg.win w).isOut = false) (w : Fin cfg.W) :
    dat.arrAt w cfg.N
      = Function.update V (Pipeline.arrRef cfg.spec o : DevRef τ sig) (dat.arrAt o cfg.N) (Pipeline.arrRef cfg.spec w) := by
  by_cases h : w = o
  · subst h; exact (Function.update_self (Pipeline.arrRef cfg.spec w : DevRef τ sig) _ V).symm
  · exact ((dat.arrAt_in w (hin w h) _).trans (hA w)).trans (update_of_ne V _ fun e => h (hw.arr_inj e)).symm

/-- Updating `W = V` at `r` with what `V` updated at `r` holds there is that update of `V`. -/
theorem update_update_self {V W : Valuation τ sig (Elt F)} (r : DevRef τ sig) (x) (h : W = V) :
    Function.update W r (Function.update V r x r) = Function.update V r x := by
  subst h; rw [Function.update_self]

abbrev Vin0 (c : Dev nD) : Valuation τ sig (Elt F) := Gen.V4 m c

def Vout0 (c : Dev nD) : Valuation τ sig (Elt F) :=
  Function.update (Vin0 m c) (main_v6 : DevRef τ sig) ((dat0 (atTc (Vin0 m)) c).arrAt 2 cfg0.N)

abbrev Vin1 (c : Dev nD) : Valuation τ sig (Elt F) :=
  StableHlo.after hostOps1_2 (StableHlo.after hostOps1_1 (StableHlo.after hostOps1 (Vout0 m c)))

def Vout1 (c : Dev nD) : Valuation τ sig (Elt F) :=
  Function.update (Vin1 m c) (main_v12 : DevRef τ sig) ((dat1 (atTc (Vin1 m)) c).arrAt 2 cfg1.N)

abbrev Vin2 (c : Dev nD) : Valuation τ sig (Elt F) :=
  StableHlo.after hostOps2_2 (StableHlo.after hostOps2_1 (StableHlo.after hostOps2 (Vout1 m c)))

def Vout2 (c : Dev nD) : Valuation τ sig (Elt F) :=
  Function.update (Vin2 m c) (main_v18 : DevRef τ sig) ((dat2 (atTc (Vin2 m)) c).arrAt 2 cfg2.N)

abbrev Vin3 (c : Dev nD) : Valuation τ sig (Elt F) :=
  StableHlo.after hostOps3_2 (StableHlo.after hostOps3_1 (StableHlo.after hostOps3 (Vout2 m c)))

def Vout3 (c : Dev nD) : Valuation τ sig (Elt F) :=
  Function.update (Vin3 m c) (main_v24 : DevRef τ sig) ((dat3 (atTc (Vin3 m)) c).arrAt 2 cfg3.N)

abbrev Vin4 (c : Dev nD) : Valuation τ sig (Elt F) :=
  StableHlo.after hostOps4_2 (StableHlo.after hostOps4_1 (StableHlo.after hostOps4 (Vout3 m c)))

def Vout4 (c : Dev nD) : Valuation τ sig (Elt F) :=
  Function.update (Vin4 m c) (main_v30 : DevRef τ sig) ((dat4 (atTc (Vin4 m)) c).arrAt 2 cfg4.N)

abbrev Vin5 (c : Dev nD) : Valuation τ sig (Elt F) := StableHlo.after hostOps5 (Vout4 m c)

def Vout5 (c : Dev nD) : Valuation τ sig (Elt F) :=
  Function.update
    (Function.update
      (Function.update (Vin5 m c) (main_v32_0 : DevRef τ sig) ((dat5 (atTc (Vin5 m)) c).arrAt 4 cfg5.N))
      (main_v32_1 : DevRef τ sig) ((dat5 (atTc (Vin5 m)) c).arrAt 5 cfg5.N))
    (main_v32_2 : DevRef τ sig) ((dat5 (atTc (Vin5 m)) c).arrAt 6 cfg5.N)

theorem Vout5_of_ne (c : Dev nD) (r : Ref sig .tc) (h0 : r ≠ main_v32_0) (h1 : r ≠ main_v32_1) (h2 : r ≠ main_v32_2) :
    Vout5 m c r = Vin5 m c r :=
  (update_of_ne _ _ h2).trans ((update_of_ne _ _ h1).trans (update_of_ne _ _ h0))

theorem Vout5_out4 (c : Dev nD) : Vout5 m c main_v32_0 = (dat5 (atTc (Vin5 m)) c).arrAt 4 cfg5.N :=
  (update_of_ne _ _ (by decide)).trans ((update_of_ne _ _ (by decide)).trans (Function.update_self _ _ _))

theorem Vout5_out5 (c : Dev nD) : Vout5 m c main_v32_1 = (dat5 (atTc (Vin5 m)) c).arrAt 5 cfg5.N :=
  (update_of_ne _ _ (by decide)).trans (Function.update_self _ _ _)

theorem Vout5_out6 (c : Dev nD) : Vout5 m c main_v32_2 = (dat5 (atTc (Vin5 m)) c).arrAt 6 cfg5.N :=
  Function.update_self _ _ _

/-- Region 5 writes three arrays: each array after the last point is what `Vout5` holds there. -/
theorem hF5 (c : Dev nD) (w : Fin cfg5.W) :
    (dat5 (atTc (Vin5 m)) c).arrAt w cfg5.N = atTc (Vout5 m) c (Pipeline.arrRef spec5 w) :=
  match w with
  | ⟨0, _⟩ => ((dat5 (atTc (Vin5 m)) c).arrAt_in 0 rfl _).trans
      ((A_eq5 (atTc (Vin5 m)) c 0).trans (Vout5_of_ne m c main_arg0 (by decide) (by decide) (by decide)).symm)
  | ⟨1, _⟩ => ((dat5 (atTc (Vin5 m)) c).arrAt_in 1 rfl _).trans
      ((A_eq5 (atTc (Vin5 m)) c 1).trans (Vout5_of_ne m c main_v31 (by decide) (by decide) (by decide)).symm)
  | ⟨2, _⟩ => ((dat5 (atTc (Vin5 m)) c).arrAt_in 2 rfl _).trans
      ((A_eq5 (atTc (Vin5 m)) c 2).trans (Vout5_of_ne m c main_arg2 (by decide) (by decide) (by decide)).symm)
  | ⟨3, _⟩ => ((dat5 (atTc (Vin5 m)) c).arrAt_in 3 rfl _).trans
      ((A_eq5 (atTc (Vin5 m)) c 3).trans (Vout5_of_ne m c main_arg3 (by decide) (by decide) (by decide)).symm)
  | ⟨4, _⟩ => (Vout5_out4 m c).symm
  | ⟨5, _⟩ => (Vout5_out5 m c).symm
  | ⟨6, _⟩ => (Vout5_out6 m c).symm

theorem hrest5 (c : Dev nD) :
    ∀ b, b ∉ Finset.univ.image (Pipeline.arrRef spec5) → atTc (Vout5 m) c b = atTc (Vin5 m) c b :=
  fun b hb => Vout5_of_ne m c b
    (fun e => hb (Finset.mem_image.mpr ⟨4, Finset.mem_univ _, e.symm⟩))
    (fun e => hb (Finset.mem_image.mpr ⟨5, Finset.mem_univ _, e.symm⟩))
    (fun e => hb (Finset.mem_image.mpr ⟨6, Finset.mem_univ _, e.symm⟩))

abbrev Vin6 (c : Dev nD) : Valuation τ sig (Elt F) :=
  StableHlo.after hostOps6 (Vout5 m c)

def Vout6 (c : Dev nD) : Valuation τ sig (Elt F) :=
  Function.update (Vin6 m c) (main_v42 : DevRef τ sig) ((dat6 (atTc (Vin6 m)) c).arrAt 3 cfg6.N)

/-- What each buffer holds after item `J - 1`: the fold above, read after each region. -/
def outsH : Gen.Outs (F := F) := fun J r c =>
  match J with
  | 5 => Vout0 m c r
  | 9 => Vout1 m c r
  | 13 => Vout2 m c r
  | 17 => Vout3 m c r
  | 21 => Vout4 m c r
  | 23 => Vout5 m c r
  | 25 => Vout6 m c r
  | _ => Gen.V0 m c r

theorem V4_eq (c : Dev nD) : Gen.V4 m c = Vin0 m c := rfl
theorem V5_eq (c : Dev nD) : Gen.V5 m (outsH m) c = Vout0 m c := update_update_self _ _ rfl
theorem V8_eq (c : Dev nD) : Gen.V8 m (outsH m) c = Vin1 m c :=
  congrArg (fun V : Valuation τ sig (Elt F) => StableHlo.after hostOps1_2 (StableHlo.after hostOps1_1 (StableHlo.after hostOps1 V))) (V5_eq m c)
theorem V9_eq (c : Dev nD) : Gen.V9 m (outsH m) c = Vout1 m c := update_update_self _ _ (V8_eq m c)
theorem V12_eq (c : Dev nD) : Gen.V12 m (outsH m) c = Vin2 m c :=
  congrArg (fun V : Valuation τ sig (Elt F) => StableHlo.after hostOps2_2 (StableHlo.after hostOps2_1 (StableHlo.after hostOps2 V))) (V9_eq m c)
theorem V13_eq (c : Dev nD) : Gen.V13 m (outsH m) c = Vout2 m c := update_update_self _ _ (V12_eq m c)
theorem V16_eq (c : Dev nD) : Gen.V16 m (outsH m) c = Vin3 m c :=
  congrArg (fun V : Valuation τ sig (Elt F) => StableHlo.after hostOps3_2 (StableHlo.after hostOps3_1 (StableHlo.after hostOps3 V))) (V13_eq m c)
theorem V17_eq (c : Dev nD) : Gen.V17 m (outsH m) c = Vout3 m c := update_update_self _ _ (V16_eq m c)
theorem V20_eq (c : Dev nD) : Gen.V20 m (outsH m) c = Vin4 m c :=
  congrArg (fun V : Valuation τ sig (Elt F) => StableHlo.after hostOps4_2 (StableHlo.after hostOps4_1 (StableHlo.after hostOps4 V))) (V17_eq m c)
theorem V21_eq (c : Dev nD) : Gen.V21 m (outsH m) c = Vout4 m c := update_update_self _ _ (V20_eq m c)
theorem V22_eq (c : Dev nD) : Gen.V22 m (outsH m) c = Vin5 m c :=
  congrArg (fun V : Valuation τ sig (Elt F) => StableHlo.after hostOps5 V) (V21_eq m c)
theorem V23_eq (c : Dev nD) : Gen.V23 m (outsH m) c = Vout5 m c := by
  show Function.update
      (Function.update
        (Function.update (Gen.V22 m (outsH m) c) (main_v32_0 : DevRef τ sig) (Vout5 m c main_v32_0))
        (main_v32_1 : DevRef τ sig) (Vout5 m c main_v32_1))
      (main_v32_2 : DevRef τ sig) (Vout5 m c main_v32_2) = Vout5 m c
  rw [Vout5_out4 m c, Vout5_out5 m c, Vout5_out6 m c, V22_eq m c]
  try rfl
theorem V24_eq (c : Dev nD) : Gen.V24 m (outsH m) c = Vin6 m c :=
  congrArg (fun V : Valuation τ sig (Elt F) => StableHlo.after hostOps6 V) (V23_eq m c)
theorem V25_eq (c : Dev nD) : Gen.V25 m (outsH m) c = Vout6 m c := update_update_self _ _ (V24_eq m c)

/-- What a region leaves in an output, read at the conditional frame's own entry valuation. -/
theorem entry_eq {VG W : Dev nD → Valuation τ sig (Elt F)} (h : ∀ c, VG c = W c) :
    (fun (c : Dev nD) (b : Ref sig .tc) => (VG c b : Buf (Elt F) ((c : Thread nD τ).loc b))) = atTc W :=
  funext fun c => funext fun b => congrFun (h c) _

theorem outs_v6 (c : Dev nD) :
    outsH m 5 main_v6 c = (dat0 (fun c b => Gen.V4 m c b) c).arrAt 2 cfg0.N := by
  show Vout0 m c main_v6 = _
  exact Function.update_self _ _ _

theorem outs_v12 (c : Dev nD) :
    outsH m 9 main_v12 c = (dat1 (fun c b => Gen.V8 m (outsH m) c b) c).arrAt 2 cfg1.N := by
  show Vout1 m c main_v12 = _
  exact (Function.update_self _ _ _).trans (congrArg (fun E => (dat1 E c).arrAt 2 cfg1.N) (entry_eq (V8_eq m)).symm)

theorem outs_v18 (c : Dev nD) :
    outsH m 13 main_v18 c = (dat2 (fun c b => Gen.V12 m (outsH m) c b) c).arrAt 2 cfg2.N := by
  show Vout2 m c main_v18 = _
  exact (Function.update_self _ _ _).trans (congrArg (fun E => (dat2 E c).arrAt 2 cfg2.N) (entry_eq (V12_eq m)).symm)

theorem outs_v24 (c : Dev nD) :
    outsH m 17 main_v24 c = (dat3 (fun c b => Gen.V16 m (outsH m) c b) c).arrAt 2 cfg3.N := by
  show Vout3 m c main_v24 = _
  exact (Function.update_self _ _ _).trans (congrArg (fun E => (dat3 E c).arrAt 2 cfg3.N) (entry_eq (V16_eq m)).symm)

theorem outs_v30 (c : Dev nD) :
    outsH m 21 main_v30 c = (dat4 (fun c b => Gen.V20 m (outsH m) c b) c).arrAt 2 cfg4.N := by
  show Vout4 m c main_v30 = _
  exact (Function.update_self _ _ _).trans (congrArg (fun E => (dat4 E c).arrAt 2 cfg4.N) (entry_eq (V20_eq m)).symm)

theorem outs_v32_0 (c : Dev nD) :
    outsH m 23 main_v32_0 c = (dat5 (fun c b => Gen.V22 m (outsH m) c b) c).arrAt 4 cfg5.N :=
  (Vout5_out4 m c).trans (congrArg (fun E => (dat5 E c).arrAt 4 cfg5.N) (entry_eq (V22_eq m)).symm)

theorem outs_v32_1 (c : Dev nD) :
    outsH m 23 main_v32_1 c = (dat5 (fun c b => Gen.V22 m (outsH m) c b) c).arrAt 5 cfg5.N :=
  (Vout5_out5 m c).trans (congrArg (fun E => (dat5 E c).arrAt 5 cfg5.N) (entry_eq (V22_eq m)).symm)

theorem outs_v32_2 (c : Dev nD) :
    outsH m 23 main_v32_2 c = (dat5 (fun c b => Gen.V22 m (outsH m) c b) c).arrAt 6 cfg5.N :=
  (Vout5_out6 m c).trans (congrArg (fun E => (dat5 E c).arrAt 6 cfg5.N) (entry_eq (V22_eq m)).symm)

theorem outs_v42 (c : Dev nD) :
    outsH m 25 main_v42 c = (dat6 (fun c b => Gen.V24 m (outsH m) c b) c).arrAt 3 cfg6.N := by
  show Vout6 m c main_v42 = _
  exact (Function.update_self _ _ _).trans (congrArg (fun E => (dat6 E c).arrAt 3 cfg6.N) (entry_eq (V24_eq m)).symm)

/-- The seven regions' proof data, each at what its region finds. -/
def pdats : (p : Fin 7) → (c : Dev nD) → Dat τ (Elt F) Unit ℕ (UR sig nD τ) ℕ (cfgs p) c
  | ⟨0, _⟩ => fun c => dat0 (atTc (Vin0 m)) c
  | ⟨1, _⟩ => fun c => dat1 (atTc (Vin1 m)) c
  | ⟨2, _⟩ => fun c => dat2 (atTc (Vin2 m)) c
  | ⟨3, _⟩ => fun c => dat3 (atTc (Vin3 m)) c
  | ⟨4, _⟩ => fun c => dat4 (atTc (Vin4 m)) c
  | ⟨5, _⟩ => fun c => dat5 (atTc (Vin5 m)) c
  | ⟨6, _⟩ => fun c => dat6 (atTc (Vin6 m)) c

abbrev Lz : GSem nD τ sig → Finset Unit := fun _ => ∅
abbrev lvz : GSem nD τ sig → Unit → ℕ := fun _ _ => 0

abbrev Rst (c : Dev nD) : sProp 𝕄 :=
  iprop((∃ r, prngReg c r) ∗ ∃ W, owes (c : Thread nD τ) (0 : CellTallies nD τ sig Unit) W)

end Cert.KernelIdeal.Hand

end
-- ==== Proof.KI.Frame.lean ====
import proofs.«411265_j32847909880435_1_alg».proof.Proof.KI.Vals

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev heldAt (V : Dev nD → Valuation τ sig (Elt F)) (c : Dev nD) : sProp 𝕄 :=
  iprop(StableHlo.held (c : Thread nD τ) (Pipeline.ucRefs τ sig) (V c) ∗ Rst c)

theorem heldAt_of_eq {V W : Dev nD → Valuation τ sig (Elt F)} (c : Dev nD) (h : V c = W c) :
    (heldAt V c : sProp 𝕄) ⊢ heldAt W c := by
  unfold heldAt; rw [h]

set_option backward.isDefEq.respectTransparency.types false in
/-- A region is a segment from `Vin` to `Vout` once its arrays end at `Vout`'s contents and `Vout` is `Vin` elsewhere. -/
def regSeg (p : Fin 7) (L : Pipeline.LaunchFacts (nD := nD) (τ := τ) cfgs p) (Vin Vout : Dev nD → Valuation τ sig (Elt F))
    (hbody : ∀ c, BodyObligation (pdats m p c) (defs₀ (F := F)) Variants.none () Set.univ)
    (hq : ∀ c w, (pdats m p c).q w = fullShare) (howed : ∀ c t, (pdats m p c).owed t = 0)
    (hrec : ∀ c t, (pdats m p c).recorded t = Set.univ)
    (hA : ∀ c w, (pdats m p c).A w = atTc Vin c (Pipeline.arrRef (cfgs p).spec w))
    (hΦ : ∀ c t, (pdats m p c).Φ t = Pipeline.ΦA (cfgs p).spec c)
    (hF : ∀ c w, (pdats m p c).arrAt w (cfgs p).N = atTc Vout c (Pipeline.arrRef (cfgs p).spec w))
    (hrest : ∀ c b, b ∉ Finset.univ.image (Pipeline.arrRef (cfgs p).spec) → atTc Vout c b = atTc Vin c b) :
    RegionSeg (pcfgs (F := F)) adm (pdats m) () defs₀ Variants.none Lz lvz p where
  win := L.win.to₀
  block_pos := L.block_pos
  stage_whole := L.stage_whole
  K := PEmpty
  osem k := k.elim
  ho := Pipeline.OwnSemFacts.none _
  hbody c := (hbody c).loose
  hwaits := Pipeline.hwaits_of_owed_zero _ _ _ _ Lz lvz p howed
  pre := heldAt Vin
  post := heldAt Vout
  X c := iprop(∃ r, prngReg c r)
  Y c := iprop(∃ r, prngReg c r)
  Z c := Pipeline.unscopedRest (Ix := Unit) (Name := ℕ) (U := UR sig nD τ) (Lvl := ℕ) (cfgs p).spec c (atTc Vin c)
  hentry c := by
    rw [Pipeline.ownSems0_none]
    have hsplit := Pipeline.arrays_of_unscopedBufs (p := p) (pcfgs (F := F)) adm (pdats m) L.win L.arr_whole c
      ((pdats m p c).share_full (hq c)) (atTc Vin c) (hA c)
    rw [Pipeline.unscopedBufs_held] at hsplit
    unfold Pipeline.Dat.owesAt Pipeline.owesWithin
    rw [howed c 0]
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl (hrec c 0 ▸ Set.mem_univ _)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      L.win L.arr_whole c (pdats m) ((pdats m p c).share_full (hq c))
      (atTc Vin c) (atTc Vout c) ((pdats m p c).arrAt · (cfgs p).N) (hF c) (hrest c)
    rw [Pipeline.unscopedBufs_held] at hjoin
    unfold Pipeline.Dat.owesAt Pipeline.owesWithin
    rw [howed c (Fin.last _)]
    iintro ⟨Ha, HO, HY, Hrest⟩
    imodintro
    isplitl [Ha Hrest]
    · iapply hjoin; isplitl [Ha] <;> iassumption
    isplitl [HY]; · iexact HY
    icases HO with ⟨%W, -, HO⟩; iexists W; iexact HO

def reg0 := regSeg m 0 launch0 (Vin0 m) (Vout0 m) (body_obligation0 (atTc (Vin0 m))) (fun _ _ => rfl) (fun _ _ => rfl)
  (fun _ _ => rfl) (fun _ _ => rfl) (fun _ _ => rfl)
  (fun c => arrAt_update _ launch0.win (Vin0 m c) (fun _ => rfl) 2 (by decide)) (fun c => update_off (cfg := cfg0) (Vin0 m c) 2 _)
def reg1 := regSeg m 1 launch1 (Vin1 m) (Vout1 m) (body_obligation1 (atTc (Vin1 m))) (fun _ _ => rfl) (fun _ _ => rfl)
  (fun _ _ => rfl) (fun _ _ => rfl) (fun _ _ => rfl)
  (fun c => arrAt_update _ launch1.win (Vin1 m c) (fun _ => rfl) 2 (by decide)) (fun c => update_off (cfg := cfg1) (Vin1 m c) 2 _)
def reg2 := regSeg m 2 launch2 (Vin2 m) (Vout2 m) (body_obligation2 (atTc (Vin2 m))) (fun _ _ => rfl) (fun _ _ => rfl)
  (fun _ _ => rfl) (fun _ _ => rfl) (fun _ _ => rfl)
  (fun c => arrAt_update _ launch2.win (Vin2 m c) (fun _ => rfl) 2 (by decide)) (fun c => update_off (cfg := cfg2) (Vin2 m c) 2 _)
def reg3 := regSeg m 3 launch3 (Vin3 m) (Vout3 m) (body_obligation3 (atTc (Vin3 m))) (fun _ _ => rfl) (fun _ _ => rfl)
  (fun _ _ => rfl) (fun _ _ => rfl) (fun _ _ => rfl)
  (fun c => arrAt_update _ launch3.win (Vin3 m c) (fun _ => rfl) 2 (by decide)) (fun c => update_off (cfg := cfg3) (Vin3 m c) 2 _)
def reg4 := regSeg m 4 launch4 (Vin4 m) (Vout4 m) (body_obligation4 (atTc (Vin4 m))) (fun _ _ => rfl) (fun _ _ => rfl)
  (fun _ _ => rfl) (fun _ _ => rfl) (fun _ _ => rfl)
  (fun c => arrAt_update _ launch4.win (Vin4 m c) (fun _ => rfl) 2 (by decide)) (fun c => update_off (cfg := cfg4) (Vin4 m c) 2 _)
def reg5 := regSeg m 5 launch5 (Vin5 m) (Vout5 m) (body_obligation5 (atTc (Vin5 m))) (fun _ _ => rfl) (fun _ _ => rfl)
  (fun _ _ => rfl) (fun _ _ => rfl) (fun _ _ => rfl) (hF5 m) (hrest5 m)
def reg6 := regSeg m 6 launch6 (Vin6 m) (Vout6 m) (body_obligation6 (atTc (Vin6 m))) (fun _ _ => rfl) (fun _ _ => rfl)
  (fun _ _ => rfl) (fun _ _ => rfl) (fun _ _ => rfl)
  (fun c => arrAt_update _ launch6.win (Vin6 m c) (fun _ => rfl) 3 (by decide)) (fun c => update_off (cfg := cfg6) (Vin6 m c) 3 _)

theorem hpre0 (c : Dev nD) : heldAt (Gen.V4 m) c ⊢ (reg0 m).pre c := heldAt_of_eq c (V4_eq m c)
theorem hpost0 (c : Dev nD) : (reg0 m).post c ⊢ heldAt (Gen.V5 m (outsH m)) c := heldAt_of_eq c (V5_eq m c).symm
theorem hpre1 (c : Dev nD) : heldAt (Gen.V8 m (outsH m)) c ⊢ (reg1 m).pre c := heldAt_of_eq c (V8_eq m c)
theorem hpost1 (c : Dev nD) : (reg1 m).post c ⊢ heldAt (Gen.V9 m (outsH m)) c := heldAt_of_eq c (V9_eq m c).symm
theorem hpre2 (c : Dev nD) : heldAt (Gen.V12 m (outsH m)) c ⊢ (reg2 m).pre c := heldAt_of_eq c (V12_eq m c)
theorem hpost2 (c : Dev nD) : (reg2 m).post c ⊢ heldAt (Gen.V13 m (outsH m)) c := heldAt_of_eq c (V13_eq m c).symm
theorem hpre3 (c : Dev nD) : heldAt (Gen.V16 m (outsH m)) c ⊢ (reg3 m).pre c := heldAt_of_eq c (V16_eq m c)
theorem hpost3 (c : Dev nD) : (reg3 m).post c ⊢ heldAt (Gen.V17 m (outsH m)) c := heldAt_of_eq c (V17_eq m c).symm
theorem hpre4 (c : Dev nD) : heldAt (Gen.V20 m (outsH m)) c ⊢ (reg4 m).pre c := heldAt_of_eq c (V20_eq m c)
theorem hpost4 (c : Dev nD) : (reg4 m).post c ⊢ heldAt (Gen.V21 m (outsH m)) c := heldAt_of_eq c (V21_eq m c).symm
theorem hpre5 (c : Dev nD) : heldAt (Gen.V22 m (outsH m)) c ⊢ (reg5 m).pre c := heldAt_of_eq c (V22_eq m c)
theorem hpost5 (c : Dev nD) : (reg5 m).post c ⊢ heldAt (Gen.V23 m (outsH m)) c := heldAt_of_eq c (V23_eq m c).symm
theorem hpre6 (c : Dev nD) : heldAt (Gen.V24 m (outsH m)) c ⊢ (reg6 m).pre c := heldAt_of_eq c (V24_eq m c)
theorem hpost6 (c : Dev nD) : (reg6 m).post c ⊢ heldAt (Gen.V25 m (outsH m)) c := heldAt_of_eq c (V25_eq m c).symm

theorem hu₀ :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts Lz lvz)
      ⊢ (|={Set.univ}=> bigSep Finset.univ (fun c : Dev nD => Rst c) : sProp 𝕄) := by
  refine Pipeline.initEach Lz lvz fun c => ?_
  iintro ⟨⟨-, HO, -, Hp, -⟩, -⟩
  imodintro
  isplitl [Hp]; · iexists _; iexact Hp
  iexists ∅; iexact HO

theorem hE7 (c : Dev nD) :
    Rst c ⊢ (iprop(∃ W, owes (c : Thread nD τ) (0 : CellTallies nD τ sig Unit) W) : sProp 𝕄) := by
  iintro ⟨-, HO⟩; iexact HO

end Cert.KernelIdeal.Hand

end
-- ==== Proof.Spec.Algebra.lean ====
import Idealize.ShloMosaic.PureOps.Ideal
import Idealize.ShloMosaic.PureOps.Ideal.Laws
import Idealize.ShloMosaic.Lib.Affine
import Idealize.ShloMosaic.Lib.DynamicIndex
import Mathlib.Data.EReal.Operations
import Mathlib.Data.EReal.Inv
import Mathlib.Algebra.BigOperators.Fin
import Mathlib.Algebra.BigOperators.Group.Finset.Basic
import Mathlib.Algebra.BigOperators.Ring.Finset
import Mathlib.Logic.Equiv.Fin.Basic
import Mathlib.Tactic.Ring
import Mathlib.Tactic.FieldSimp
import Mathlib.Tactic.Linarith

namespace Cert.Spec

open Idealize.ShloMosaic
open scoped BigOperators

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

-- The coercion of the reals is additive, so it commutes with a finite sum.
theorem coe_sum {ι : Type*} (s : Finset ι) (r : ι → ℝ) :
    ∑ i ∈ s, ((r i : ℝ) : EReal) = ((∑ i ∈ s, r i : ℝ) : EReal) := by
  classical
  refine Finset.induction_on s (by simp) fun a s ha ih => ?_
  rw [Finset.sum_insert ha, Finset.sum_insert ha, ih, EReal.coe_add]

-- Zero is real and reals are closed under addition, so a finite sum of reals is real.
theorem real_sum {ι : Type*} (s : Finset ι) (f : ι → EReal) (hf : ∀ i ∈ s, ∃ r : ℝ, f i = (r : EReal)) :
    ∃ r : ℝ, ∑ i ∈ s, f i = (r : EReal) :=
  Finset.sum_induction f (fun x => ∃ r : ℝ, x = (r : EReal)) (fun _ _ => real_add) ⟨0, rfl⟩ hf

theorem real_sum_univ {ι : Type*} [Fintype ι] (f : ι → EReal) (hf : ∀ i, ∃ r : ℝ, f i = (r : EReal)) :
    ∃ r : ℝ, ∑ i, f i = (r : EReal) :=
  real_sum Finset.univ f fun i _ => hf i

-- With μ = S / N over N terms: ∑ (rᵢ - μ)² = Q - 2 μ S + N μ² = Q - S² / N.
theorem var_identity_real {n : ℕ} (r : Fin n → ℝ) (N : ℝ) (hN : N ≠ 0) (hn : (n : ℝ) = N) :
    (∑ i, r i * r i) * (1 / N) - (∑ i, r i) * (1 / N) * ((∑ i, r i) * (1 / N))
      = (∑ i, (r i - (∑ i, r i) * (1 / N)) * (r i - (∑ i, r i) * (1 / N))) * (1 / N) := by
  generalize hμ : (∑ i, r i) * (1 / N) = μ
  have hexp : ∑ i, (r i - μ) * (r i - μ) = (∑ i, r i * r i) - 2 * μ * (∑ i, r i) + (n : ℝ) * (μ * μ) := by
    have h : ∀ i, (r i - μ) * (r i - μ) = r i * r i - 2 * μ * r i + μ * μ := fun i => by ring
    simp only [h, Finset.sum_add_distrib, Finset.sum_sub_distrib, ← Finset.mul_sum, Finset.sum_const,
      Finset.card_univ, Fintype.card_fin, nsmul_eq_mul]
    ring
  rw [hexp, hn, ← hμ]
  field_simp
  ring

-- Real entries are coerced reals, and so are their sums, squares and mean: the identity is the one on the reals.
theorem var_identity {n : ℕ} (a : Fin n → EReal) (ha : ∀ i, ∃ r : ℝ, a i = (r : EReal)) (N : ℝ) (hN : N ≠ 0)
    (hn : (n : ℝ) = N) :
    Ideal.div (∑ i, a i * a i) (N : EReal) - Ideal.div (∑ i, a i) (N : EReal) * Ideal.div (∑ i, a i) (N : EReal)
      = Ideal.div (∑ i, (a i - Ideal.div (∑ i, a i) (N : EReal)) * (a i - Ideal.div (∑ i, a i) (N : EReal)))
          (N : EReal) := by
  choose r hr using ha
  obtain rfl : a = fun i => ((r i : ℝ) : EReal) := funext hr
  simp only [← EReal.coe_mul, ← EReal.coe_sub, coe_sum, Ideal.div_coe hN]
  exact congrArg _ (var_identity_real r N hN hn)

theorem slt_zero_iff (i : BitVec 32) : i.slt 0 = true ↔ i.toInt < 0 := by
  simp [BitVec.slt]

-- A signed word in [-N, N), raised by N when it is negative (no wrap, as N < 2^30), lies in [0, N).
theorem wrap_index (N : ℕ) (hN : N < 2 ^ 30) (i : BitVec 32) (hlo : -(N : ℤ) ≤ i.toInt) (hhi : i.toInt < N) :
    0 ≤ (if i.slt 0 then i + BitVec.ofNat 32 N else i).toInt
      ∧ (if i.slt 0 then i + BitVec.ofNat 32 N else i).toInt ≤ (N : ℤ) - 1 := by
  by_cases h : i.toInt < 0
  · rw [if_pos ((slt_zero_iff i).mpr h), BitVec.toInt_add, BitVec.toInt_ofNat']
    simp only [Int.bmod_def]
    omega
  · rw [if_neg (fun hc => h ((slt_zero_iff i).mp hc))]
    omega

theorem wrap_index_sel (N : ℕ) (i : BitVec 32) :
    Scalar.select (IntOp.cmpi .slt i 0#32) (IntOp.addi i (BitVec.ofNat 32 N)) i
      = if i.slt 0 then i + BitVec.ofNat 32 N else i := by
  unfold Scalar.select IntOp.cmpi IntOp.addi
  cases h : i.slt 0 <;> simp [h]

theorem wrap_index_sge (N : ℕ) (hN : N < 2 ^ 30) (i : BitVec 32) (hlo : -(N : ℤ) ≤ i.toInt) (hhi : i.toInt < N) :
    IntOp.cmpi .sge (Scalar.select (IntOp.cmpi .slt i 0#32) (IntOp.addi i (BitVec.ofNat 32 N)) i) 0#32 = 1#1 := by
  rw [wrap_index_sel N i]
  exact IntOp.cmpi_sge.2 (by rw [BitVec.toInt_zero]; exact (wrap_index N hN i hlo hhi).1)

theorem wrap_index_sle (N : ℕ) (hN : N < 2 ^ 30) (i : BitVec 32) (hlo : -(N : ℤ) ≤ i.toInt) (hhi : i.toInt < N) :
    IntOp.cmpi .sle (Scalar.select (IntOp.cmpi .slt i 0#32) (IntOp.addi i (BitVec.ofNat 32 N)) i)
      (BitVec.ofNat 32 (N - 1)) = 1#1 := by
  rw [wrap_index_sel N i]
  have h := (wrap_index N hN i hlo hhi).2
  exact IntOp.cmpi_sle.2 (by rw [toInt_ofNat_of_lt (by omega)]; omega)

end Cert.Spec
-- ==== Proof.KI.Host.lean ====
import proofs.«411265_j32847909880435_1_alg».proof.Proof.Gen.KernelIdeal.Regions
import proofs.«411265_j32847909880435_1_alg».proof.Proof.Spec.Algebra
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ) (outs : Gen.Outs (F := Ideal))

theorem ofBuf_toBuf {T : BufTy} (x : StableHlo.TRef sig T) (v : T.Contents (Elt Ideal)) : x.ofBuf (x.toBuf v) = v := by
  simp only [StableHlo.TRef.ofBuf, StableHlo.TRef.toBuf, cast_cast, cast_eq]

theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

theorem reduce_andi_ones {s t u : Shape} {axes : List (Fin s.rank)} (x : IVec s 1) (init : IVec u 1)
    (h : s.ReducesTo axes t) (hu : 0 < u.numel) (hx : ∀ i, x i = 1#1) (hinit : ∀ i, init i = 1#1) (j : t.Idx) :
    Host.reduce IntOp.andi x init h hu j = 1#1 := by
  unfold Host.reduce
  rw [hinit]
  exact foldl_andi_ones (fun n => x (s.rowMajor.symm n)) _ fun n _ => hx _

-- A selection under the broadcast of an all-ones ∧-reduction keeps its first branch everywhere.
theorem select_of_all_ones {α : Type} {sJ sI sT u : Shape} {axes : List (Fin sJ.rank)} (x : IVec sJ 1) (init : IVec u 1)
    (h : sJ.ReducesTo axes sI) (hu : 0 < u.numel) (dims : Fin sI.rank → Fin sT.rank) (hb : sI.BroadcastsInDim sT dims)
    (a b : sT.Idx → α) (hx : ∀ i, x i = 1#1) (hinit : ∀ i, init i = 1#1) :
    select (broadcastInDim sT dims hb (Host.reduce IntOp.andi x init h hu)) a b = a := by
  funext i
  have e : broadcastInDim sT dims hb (Host.reduce IntOp.andi x init h hu) i = 1#1 :=
    reduce_andi_ones x init h hu hx hinit _
  show Scalar.select (broadcastInDim sT dims hb (Host.reduce IntOp.andi x init h hu) i) (a i) (b i) = a i
  rw [e]
  rfl

-- Every word, read signed, lies in [-N, N).
abbrev InRange {s : Shape} (N : ℤ) (x : IVec s 32) : Prop := ∀ i, -N ≤ (x i).toInt ∧ (x i).toInt < N

-- An index array with each negative entry raised by N, laid out as the column of start indices a gather reads.
def wrap {sI sJ : Shape} (dJ : Fin sI.rank → Fin sJ.rank) (hJ : sI.BroadcastsInDim sJ dJ)
    (h0 : S_.BroadcastsInDim sI (![] : Fin 0 → Fin sI.rank)) (N : BitVec 32) (idx : IVec sI 32) : IVec sJ 32 :=
  broadcastInDim sJ dJ hJ (select (cmpi .slt idx (broadcastInDim sI ![] h0 (constantI S_ 32 0#32)))
    (addi idx (broadcastInDim sI ![] h0 (constantI S_ 32 N))) idx)

-- A raised index in [-N, N) passes the test 0 ≤ j ≤ N - 1 at every position, so the guarded select keeps the gathered rows.
theorem guard_eq {α : Type} {sI sJ sT : Shape} {axes : List (Fin sJ.rank)} {dJ : Fin sI.rank → Fin sJ.rank}
    {hJ : sI.BroadcastsInDim sJ dJ} {h0 : S_.BroadcastsInDim sI (![] : Fin 0 → Fin sI.rank)}
    {hJ0 : S_.BroadcastsInDim sJ (![] : Fin 0 → Fin sJ.rank)} {e3 : Fin 3 → Fin sJ.rank} {hJ1 : S1x1x1.BroadcastsInDim sJ e3}
    {hR : sJ.ReducesTo axes sI} {dT : Fin sI.rank → Fin sT.rank} {hT : sI.BroadcastsInDim sT dT}
    (N : ℕ) (hN : N < 2 ^ 30) (idx : IVec sI 32) (h : InRange N idx) (a b : sT.Idx → α) :
    select (broadcastInDim sT dT hT (Host.reduce IntOp.andi
        (andi (cmpi .sge (wrap dJ hJ h0 (BitVec.ofNat 32 N) idx) (broadcastInDim sJ ![] hJ0 (constantI S_ 32 0#32)))
          (cmpi .sle (wrap dJ hJ h0 (BitVec.ofNat 32 N) idx) (broadcastInDim sJ e3 hJ1
            (broadcastInDim S1x1x1 ![2] bcast_S1_S1x1x1_2 (constantI S1 32 (BitVec.ofNat 32 (N - 1)))))))
        (constantI S_ 1 1#1) hR h_S_)) a b = a := by
  refine select_of_all_ones _ _ _ _ _ _ _ _ (fun i => ?_) (fun _ => rfl)
  exact (congrArg₂ IntOp.andi (Cert.Spec.wrap_index_sge N hN _ (h _).1 (h _).2)
    (Cert.Spec.wrap_index_sle N hN _ (h _).1 (h _).2)).trans rfl

-- Two arrays summed over their middle axis, side by side.
abbrev summedOf {sN sE : Shape} {aN : List (Fin sN.rank)} {aE : List (Fin sE.rank)} (rN : sN.ReducesTo aN S100000x128)
    (rE : sE.ReducesTo aE S100000x32) (xN : Vec Ideal sN .f32) (xE : Vec Ideal sE .f32) : Vec Ideal S100000x160 .f32 :=
  concatenate S100000x160 1
    [⟨S100000x128, Host.reduceAdd xN (constant (F := Ideal) S_ .f32 0x00000000#32) rN h_S_⟩,
     ⟨S100000x32, Host.reduceAdd xE (constant (F := Ideal) S_ .f32 0x00000000#32) rE h_S_⟩]
    concatenates_S100000x128_S100000x32_S100000x160_d1

theorem takeN1_after (V : Valuation τ sig (Elt Ideal)) {x : Vec Ideal S600000x128 .f32} {i : IVec S100000x1 32}
    (ex : V main_arg0 = x) (ei : V main_arg9 = i) (h : InRange 600000 i) :
    (StableHlo.after hostOps0_1 V main_v1 : Vec Ideal S100000x1x128 .f32) = Host.gather gather_S600000x128_S100000x1x1_S100000x1x128_2_0_n_n_0_2_1128 x (wrap ![0, 1] bcast_S100000x1_S100000x1x1_0_1 bcast_S_S100000x1 600000#32 i) := by
  subst ex ei
  simp only [hostOps0_1]
  after_results_simp
  simp only [ofBuf_toBuf]
  dsimp only [StableHlo.TRef.toBuf, StableHlo.TRef.ofBuf, cast_eq]
  exact guard_eq 600000 (by norm_num) _ h _ _

theorem takeE1_after (V : Valuation τ sig (Elt Ideal)) {x : Vec Ideal S1600000x32 .f32} {i : IVec S100000x1 32}
    (ex : V main_arg1 = x) (ei : V main_arg10 = i) (h : InRange 1600000 i) :
    (StableHlo.after hostOps0_2 V main_v2 : Vec Ideal S100000x1x32 .f32) = Host.gather gather_S1600000x32_S100000x1x1_S100000x1x32_2_0_n_n_0_2_132 x (wrap ![0, 1] bcast_S100000x1_S100000x1x1_0_1 bcast_S_S100000x1 1600000#32 i) := by
  subst ex ei
  simp only [hostOps0_2]
  after_results_simp
  simp only [ofBuf_toBuf]
  dsimp only [StableHlo.TRef.toBuf, StableHlo.TRef.ofBuf, cast_eq]
  exact guard_eq 1600000 (by norm_num) _ h _ _

theorem summed0_after (V : Valuation τ sig (Elt Ideal)) :
    (StableHlo.after hostOps0_3 V main_v5 : Vec Ideal S100000x160 .f32)
      = summedOf reducesTo_S100000x1x128_S100000x128_d1 reducesTo_S100000x1x32_S100000x32_d1 (V main_v1) (V main_v2) := by
  simp only [hostOps0_3]
  after_results

theorem takeN2_after (V : Valuation τ sig (Elt Ideal)) {x : Vec Ideal S600000x128 .f32} {i : IVec S100000x2 32}
    (ex : V main_arg0 = x) (ei : V main_arg11 = i) (h : InRange 600000 i) :
    (StableHlo.after hostOps1 V main_v7 : Vec Ideal S100000x2x128 .f32) = Host.gather gather_S600000x128_S100000x2x1_S100000x2x128_2_0_n_n_0_2_1128 x (wrap ![0, 1] bcast_S100000x2_S100000x2x1_0_1 bcast_S_S100000x2 600000#32 i) := by
  subst ex ei
  simp only [hostOps1]
  after_results_simp
  simp only [ofBuf_toBuf]
  dsimp only [StableHlo.TRef.toBuf, StableHlo.TRef.ofBuf, cast_eq]
  exact guard_eq 600000 (by norm_num) _ h _ _

theorem takeE2_after (V : Valuation τ sig (Elt Ideal)) {x : Vec Ideal S1600000x32 .f32} {i : IVec S100000x2 32}
    (ex : V main_arg1 = x) (ei : V main_arg12 = i) (h : InRange 1600000 i) :
    (StableHlo.after hostOps1_1 V main_v8 : Vec Ideal S100000x2x32 .f32) = Host.gather gather_S1600000x32_S100000x2x1_S100000x2x32_2_0_n_n_0_2_132 x (wrap ![0, 1] bcast_S100000x2_S100000x2x1_0_1 bcast_S_S100000x2 1600000#32 i) := by
  subst ex ei
  simp only [hostOps1_1]
  after_results_simp
  simp only [ofBuf_toBuf]
  dsimp only [StableHlo.TRef.toBuf, StableHlo.TRef.ofBuf, cast_eq]
  exact guard_eq 1600000 (by norm_num) _ h _ _

theorem summed1_after (V : Valuation τ sig (Elt Ideal)) :
    (StableHlo.after hostOps1_2 V main_v11 : Vec Ideal S100000x160 .f32)
      = summedOf reducesTo_S100000x2x128_S100000x128_d1 reducesTo_S100000x2x32_S100000x32_d1 (V main_v7) (V main_v8) := by
  simp only [hostOps1_2]
  after_results

theorem takeN3_after (V : Valuation τ sig (Elt Ideal)) {x : Vec Ideal S600000x128 .f32} {i : IVec S100000x3 32}
    (ex : V main_arg0 = x) (ei : V main_arg13 = i) (h : InRange 600000 i) :
    (StableHlo.after hostOps2 V main_v13 : Vec Ideal S100000x3x128 .f32) = Host.gather gather_S600000x128_S100000x3x1_S100000x3x128_2_0_n_n_0_2_1128 x (wrap ![0, 1] bcast_S100000x3_S100000x3x1_0_1 bcast_S_S100000x3 600000#32 i) := by
  subst ex ei
  simp only [hostOps2]
  after_results_simp
  simp only [ofBuf_toBuf]
  dsimp only [StableHlo.TRef.toBuf, StableHlo.TRef.ofBuf, cast_eq]
  exact guard_eq 600000 (by norm_num) _ h _ _

theorem takeE3_after (V : Valuation τ sig (Elt Ideal)) {x : Vec Ideal S1600000x32 .f32} {i : IVec S100000x3 32}
    (ex : V main_arg1 = x) (ei : V main_arg14 = i) (h : InRange 1600000 i) :
    (StableHlo.after hostOps2_1 V main_v14 : Vec Ideal S100000x3x32 .f32) = Host.gather gather_S1600000x32_S100000x3x1_S100000x3x32_2_0_n_n_0_2_132 x (wrap ![0, 1] bcast_S100000x3_S100000x3x1_0_1 bcast_S_S100000x3 1600000#32 i) := by
  subst ex ei
  simp only [hostOps2_1]
  after_results_simp
  simp only [ofBuf_toBuf]
  dsimp only [StableHlo.TRef.toBuf, StableHlo.TRef.ofBuf, cast_eq]
  exact guard_eq 1600000 (by norm_num) _ h _ _

theorem summed2_after (V : Valuation τ sig (Elt Ideal)) :
    (StableHlo.after hostOps2_2 V main_v17 : Vec Ideal S100000x160 .f32)
      = summedOf reducesTo_S100000x3x128_S100000x128_d1 reducesTo_S100000x3x32_S100000x32_d1 (V main_v13) (V main_v14) := by
  simp only [hostOps2_2]
  after_results

theorem takeN4_after (V : Valuation τ sig (Elt Ideal)) {x : Vec Ideal S600000x128 .f32} {i : IVec S100000x4 32}
    (ex : V main_arg0 = x) (ei : V main_arg15 = i) (h : InRange 600000 i) :
    (StableHlo.after hostOps3 V main_v19 : Vec Ideal S100000x4x128 .f32) = Host.gather gather_S600000x128_S100000x4x1_S100000x4x128_2_0_n_n_0_2_1128 x (wrap ![0, 1] bcast_S100000x4_S100000x4x1_0_1 bcast_S_S100000x4 600000#32 i) := by
  subst ex ei
  simp only [hostOps3]
  after_results_simp
  simp only [ofBuf_toBuf]
  dsimp only [StableHlo.TRef.toBuf, StableHlo.TRef.ofBuf, cast_eq]
  exact guard_eq 600000 (by norm_num) _ h _ _

theorem takeE4_after (V : Valuation τ sig (Elt Ideal)) {x : Vec Ideal S1600000x32 .f32} {i : IVec S100000x4 32}
    (ex : V main_arg1 = x) (ei : V main_arg16 = i) (h : InRange 1600000 i) :
    (StableHlo.after hostOps3_1 V main_v20 : Vec Ideal S100000x4x32 .f32) = Host.gather gather_S1600000x32_S100000x4x1_S100000x4x32_2_0_n_n_0_2_132 x (wrap ![0, 1] bcast_S100000x4_S100000x4x1_0_1 bcast_S_S100000x4 1600000#32 i) := by
  subst ex ei
  simp only [hostOps3_1]
  after_results_simp
  simp only [ofBuf_toBuf]
  dsimp only [StableHlo.TRef.toBuf, StableHlo.TRef.ofBuf, cast_eq]
  exact guard_eq 1600000 (by norm_num) _ h _ _

theorem summed3_after (V : Valuation τ sig (Elt Ideal)) :
    (StableHlo.after hostOps3_2 V main_v23 : Vec Ideal S100000x160 .f32)
      = summedOf reducesTo_S100000x4x128_S100000x128_d1 reducesTo_S100000x4x32_S100000x32_d1 (V main_v19) (V main_v20) := by
  simp only [hostOps3_2]
  after_results

theorem takeN5_after (V : Valuation τ sig (Elt Ideal)) {x : Vec Ideal S600000x128 .f32} {i : IVec S100000x5 32}
    (ex : V main_arg0 = x) (ei : V main_arg17 = i) (h : InRange 600000 i) :
    (StableHlo.after hostOps4 V main_v25 : Vec Ideal S100000x5x128 .f32) = Host.gather gather_S600000x128_S100000x5x1_S100000x5x128_2_0_n_n_0_2_1128 x (wrap ![0, 1] bcast_S100000x5_S100000x5x1_0_1 bcast_S_S100000x5 600000#32 i) := by
  subst ex ei
  simp only [hostOps4]
  after_results_simp
  simp only [ofBuf_toBuf]
  dsimp only [StableHlo.TRef.toBuf, StableHlo.TRef.ofBuf, cast_eq]
  exact guard_eq 600000 (by norm_num) _ h _ _

theorem takeE5_after (V : Valuation τ sig (Elt Ideal)) {x : Vec Ideal S1600000x32 .f32} {i : IVec S100000x5 32}
    (ex : V main_arg1 = x) (ei : V main_arg18 = i) (h : InRange 1600000 i) :
    (StableHlo.after hostOps4_1 V main_v26 : Vec Ideal S100000x5x32 .f32) = Host.gather gather_S1600000x32_S100000x5x1_S100000x5x32_2_0_n_n_0_2_132 x (wrap ![0, 1] bcast_S100000x5_S100000x5x1_0_1 bcast_S_S100000x5 1600000#32 i) := by
  subst ex ei
  simp only [hostOps4_1]
  after_results_simp
  simp only [ofBuf_toBuf]
  dsimp only [StableHlo.TRef.toBuf, StableHlo.TRef.ofBuf, cast_eq]
  exact guard_eq 1600000 (by norm_num) _ h _ _

theorem summed4_after (V : Valuation τ sig (Elt Ideal)) :
    (StableHlo.after hostOps4_2 V main_v29 : Vec Ideal S100000x160 .f32)
      = summedOf reducesTo_S100000x5x128_S100000x128_d1 reducesTo_S100000x5x32_S100000x32_d1 (V main_v25) (V main_v26) := by
  simp only [hostOps4_2]
  after_results

-- A reference outside every write set of the run: it holds the launch contents throughout.
abbrev NotWritten (r : Ref sig .tc) : Prop :=
  r ∉ hostOps0_W ∧ r ∉ hostOps0_1_W ∧ r ∉ hostOps0_2_W ∧ r ∉ hostOps0_3_W ∧ r ∉ ([main_v6] : List (Ref sig .tc))
  ∧ r ∉ hostOps1_W ∧ r ∉ hostOps1_1_W ∧ r ∉ hostOps1_2_W ∧ r ∉ ([main_v12] : List (Ref sig .tc))
  ∧ r ∉ hostOps2_W ∧ r ∉ hostOps2_1_W ∧ r ∉ hostOps2_2_W ∧ r ∉ ([main_v18] : List (Ref sig .tc))
  ∧ r ∉ hostOps3_W ∧ r ∉ hostOps3_1_W ∧ r ∉ hostOps3_2_W ∧ r ∉ ([main_v24] : List (Ref sig .tc))
  ∧ r ∉ hostOps4_W ∧ r ∉ hostOps4_1_W ∧ r ∉ hostOps4_2_W ∧ r ∉ ([main_v30] : List (Ref sig .tc)) ∧ r ∉ hostOps5_W

section
variable {r : Ref sig .tc} (h : NotWritten r) (c : Dev nD)
include h

theorem V1_arg : Gen.V1 m c r = m (c, r) := (Gen.V1_of m c r h.1).trans rfl
theorem V2_arg : Gen.V2 m c r = m (c, r) := (Gen.V2_of m c r h.2.1).trans (V1_arg m h c)
theorem V3_arg : Gen.V3 m c r = m (c, r) := (Gen.V3_of m c r h.2.2.1).trans (V2_arg m h c)
theorem V4_arg : Gen.V4 m c r = m (c, r) := (Gen.V4_of m c r h.2.2.2.1).trans (V3_arg m h c)
theorem V5_arg : Gen.V5 m outs c r = m (c, r) := (Gen.V5_of m outs c r h.2.2.2.2.1).trans (V4_arg m h c)
theorem V6_arg : Gen.V6 m outs c r = m (c, r) := (Gen.V6_of m outs c r h.2.2.2.2.2.1).trans (V5_arg m outs h c)
theorem V7_arg : Gen.V7 m outs c r = m (c, r) := (Gen.V7_of m outs c r h.2.2.2.2.2.2.1).trans (V6_arg m outs h c)
theorem V8_arg : Gen.V8 m outs c r = m (c, r) := (Gen.V8_of m outs c r h.2.2.2.2.2.2.2.1).trans (V7_arg m outs h c)
theorem V9_arg : Gen.V9 m outs c r = m (c, r) := (Gen.V9_of m outs c r h.2.2.2.2.2.2.2.2.1).trans (V8_arg m outs h c)
theorem V10_arg : Gen.V10 m outs c r = m (c, r) := (Gen.V10_of m outs c r h.2.2.2.2.2.2.2.2.2.1).trans (V9_arg m outs h c)
theorem V11_arg : Gen.V11 m outs c r = m (c, r) := (Gen.V11_of m outs c r h.2.2.2.2.2.2.2.2.2.2.1).trans (V10_arg m outs h c)
theorem V12_arg : Gen.V12 m outs c r = m (c, r) := (Gen.V12_of m outs c r h.2.2.2.2.2.2.2.2.2.2.2.1).trans (V11_arg m outs h c)
theorem V13_arg : Gen.V13 m outs c r = m (c, r) := (Gen.V13_of m outs c r h.2.2.2.2.2.2.2.2.2.2.2.2.1).trans (V12_arg m outs h c)
theorem V14_arg : Gen.V14 m outs c r = m (c, r) := (Gen.V14_of m outs c r h.2.2.2.2.2.2.2.2.2.2.2.2.2.1).trans (V13_arg m outs h c)
theorem V15_arg : Gen.V15 m outs c r = m (c, r) := (Gen.V15_of m outs c r h.2.2.2.2.2.2.2.2.2.2.2.2.2.2.1).trans (V14_arg m outs h c)
theorem V16_arg : Gen.V16 m outs c r = m (c, r) := (Gen.V16_of m outs c r h.2.2.2.2.2.2.2.2.2.2.2.2.2.2.2.1).trans (V15_arg m outs h c)
theorem V17_arg : Gen.V17 m outs c r = m (c, r) := (Gen.V17_of m outs c r h.2.2.2.2.2.2.2.2.2.2.2.2.2.2.2.2.1).trans (V16_arg m outs h c)
theorem V18_arg : Gen.V18 m outs c r = m (c, r) := (Gen.V18_of m outs c r h.2.2.2.2.2.2.2.2.2.2.2.2.2.2.2.2.2.1).trans (V17_arg m outs h c)
theorem V19_arg : Gen.V19 m outs c r = m (c, r) := (Gen.V19_of m outs c r h.2.2.2.2.2.2.2.2.2.2.2.2.2.2.2.2.2.2.1).trans (V18_arg m outs h c)
theorem V20_arg : Gen.V20 m outs c r = m (c, r) := (Gen.V20_of m outs c r h.2.2.2.2.2.2.2.2.2.2.2.2.2.2.2.2.2.2.2.1).trans (V19_arg m outs h c)
theorem V21_arg : Gen.V21 m outs c r = m (c, r) := (Gen.V21_of m outs c r h.2.2.2.2.2.2.2.2.2.2.2.2.2.2.2.2.2.2.2.2.1).trans (V20_arg m outs h c)
theorem V22_arg : Gen.V22 m outs c r = m (c, r) := (Gen.V22_of m outs c r h.2.2.2.2.2.2.2.2.2.2.2.2.2.2.2.2.2.2.2.2.2).trans (V21_arg m outs h c)

end

theorem nw0 : NotWritten main_arg0 := by (repeat' constructor) <;> decide
theorem nw1 : NotWritten main_arg1 := by (repeat' constructor) <;> decide
theorem nw2 : NotWritten main_arg2 := by (repeat' constructor) <;> decide
theorem nw3 : NotWritten main_arg3 := by (repeat' constructor) <;> decide
theorem nw4 : NotWritten main_arg4 := by (repeat' constructor) <;> decide
theorem nw5 : NotWritten main_arg5 := by (repeat' constructor) <;> decide
theorem nw6 : NotWritten main_arg6 := by (repeat' constructor) <;> decide
theorem nw7 : NotWritten main_arg7 := by (repeat' constructor) <;> decide
theorem nw8 : NotWritten main_arg8 := by (repeat' constructor) <;> decide
theorem nw9 : NotWritten main_arg9 := by (repeat' constructor) <;> decide
theorem nw10 : NotWritten main_arg10 := by (repeat' constructor) <;> decide
theorem nw11 : NotWritten main_arg11 := by (repeat' constructor) <;> decide
theorem nw12 : NotWritten main_arg12 := by (repeat' constructor) <;> decide
theorem nw13 : NotWritten main_arg13 := by (repeat' constructor) <;> decide
theorem nw14 : NotWritten main_arg14 := by (repeat' constructor) <;> decide
theorem nw15 : NotWritten main_arg15 := by (repeat' constructor) <;> decide
theorem nw16 : NotWritten main_arg16 := by (repeat' constructor) <;> decide
theorem nw17 : NotWritten main_arg17 := by (repeat' constructor) <;> decide
theorem nw18 : NotWritten main_arg18 := by (repeat' constructor) <;> decide

theorem V4_main_arg4 (c : Dev nD) : Gen.V4 m c main_arg4 = m (c, main_arg4) := V4_arg m nw4 c
theorem V8_main_arg5 (c : Dev nD) : Gen.V8 m outs c main_arg5 = m (c, main_arg5) := V8_arg m outs nw5 c
theorem V12_main_arg6 (c : Dev nD) : Gen.V12 m outs c main_arg6 = m (c, main_arg6) := V12_arg m outs nw6 c
theorem V16_main_arg7 (c : Dev nD) : Gen.V16 m outs c main_arg7 = m (c, main_arg7) := V16_arg m outs nw7 c
theorem V20_main_arg8 (c : Dev nD) : Gen.V20 m outs c main_arg8 = m (c, main_arg8) := V20_arg m outs nw8 c
theorem V22_main_arg0 (c : Dev nD) : Gen.V22 m outs c main_arg0 = m (c, main_arg0) := V22_arg m outs nw0 c
theorem V22_main_arg2 (c : Dev nD) : Gen.V22 m outs c main_arg2 = m (c, main_arg2) := V22_arg m outs nw2 c
theorem V22_main_arg3 (c : Dev nD) : Gen.V22 m outs c main_arg3 = m (c, main_arg3) := V22_arg m outs nw3 c

-- With its index arrays in range, each degree's summed array is its two plain gathers, summed and laid side by side.
theorem summed0 (c : Dev nD) (hN : InRange 600000 (m (c, main_arg9) : IVec S100000x1 32))
    (hE : InRange 1600000 (m (c, main_arg10) : IVec S100000x1 32)) :
    (Gen.V4 m c main_v5 : Vec Ideal S100000x160 .f32)
      = summedOf reducesTo_S100000x1x128_S100000x128_d1 reducesTo_S100000x1x32_S100000x32_d1
          (Host.gather gather_S600000x128_S100000x1x1_S100000x1x128_2_0_n_n_0_2_1128 (m (c, main_arg0)) (wrap ![0, 1] bcast_S100000x1_S100000x1x1_0_1 bcast_S_S100000x1 600000#32 (m (c, main_arg9))))
          (Host.gather gather_S1600000x32_S100000x1x1_S100000x1x32_2_0_n_n_0_2_132 (m (c, main_arg1)) (wrap ![0, 1] bcast_S100000x1_S100000x1x1_0_1 bcast_S_S100000x1 1600000#32 (m (c, main_arg10)))) := by
  show StableHlo.after hostOps0_3 (Gen.V3 m c) main_v5 = _
  rw [summed0_after, Gen.V3_of m c main_v1 (by decide)]
  exact congrArg₂ (summedOf _ _) (takeN1_after (Gen.V1 m c) (V1_arg m nw0 c) (V1_arg m nw9 c) hN)
    (takeE1_after (Gen.V2 m c) (V2_arg m nw1 c) (V2_arg m nw10 c) hE)

theorem summed1 (c : Dev nD) (hN : InRange 600000 (m (c, main_arg11) : IVec S100000x2 32))
    (hE : InRange 1600000 (m (c, main_arg12) : IVec S100000x2 32)) :
    (Gen.V8 m outs c main_v11 : Vec Ideal S100000x160 .f32)
      = summedOf reducesTo_S100000x2x128_S100000x128_d1 reducesTo_S100000x2x32_S100000x32_d1
          (Host.gather gather_S600000x128_S100000x2x1_S100000x2x128_2_0_n_n_0_2_1128 (m (c, main_arg0)) (wrap ![0, 1] bcast_S100000x2_S100000x2x1_0_1 bcast_S_S100000x2 600000#32 (m (c, main_arg11))))
          (Host.gather gather_S1600000x32_S100000x2x1_S100000x2x32_2_0_n_n_0_2_132 (m (c, main_arg1)) (wrap ![0, 1] bcast_S100000x2_S100000x2x1_0_1 bcast_S_S100000x2 1600000#32 (m (c, main_arg12)))) := by
  show StableHlo.after hostOps1_2 (Gen.V7 m outs c) main_v11 = _
  rw [summed1_after, Gen.V7_of m outs c main_v7 (by decide)]
  exact congrArg₂ (summedOf _ _) (takeN2_after (Gen.V5 m outs c) (V5_arg m outs nw0 c) (V5_arg m outs nw11 c) hN)
    (takeE2_after (Gen.V6 m outs c) (V6_arg m outs nw1 c) (V6_arg m outs nw12 c) hE)

theorem summed2 (c : Dev nD) (hN : InRange 600000 (m (c, main_arg13) : IVec S100000x3 32))
    (hE : InRange 1600000 (m (c, main_arg14) : IVec S100000x3 32)) :
    (Gen.V12 m outs c main_v17 : Vec Ideal S100000x160 .f32)
      = summedOf reducesTo_S100000x3x128_S100000x128_d1 reducesTo_S100000x3x32_S100000x32_d1
          (Host.gather gather_S600000x128_S100000x3x1_S100000x3x128_2_0_n_n_0_2_1128 (m (c, main_arg0)) (wrap ![0, 1] bcast_S100000x3_S100000x3x1_0_1 bcast_S_S100000x3 600000#32 (m (c, main_arg13))))
          (Host.gather gather_S1600000x32_S100000x3x1_S100000x3x32_2_0_n_n_0_2_132 (m (c, main_arg1)) (wrap ![0, 1] bcast_S100000x3_S100000x3x1_0_1 bcast_S_S100000x3 1600000#32 (m (c, main_arg14)))) := by
  show StableHlo.after hostOps2_2 (Gen.V11 m outs c) main_v17 = _
  rw [summed2_after, Gen.V11_of m outs c main_v13 (by decide)]
  exact congrArg₂ (summedOf _ _) (takeN3_after (Gen.V9 m outs c) (V9_arg m outs nw0 c) (V9_arg m outs nw13 c) hN)
    (takeE3_after (Gen.V10 m outs c) (V10_arg m outs nw1 c) (V10_arg m outs nw14 c) hE)

theorem summed3 (c : Dev nD) (hN : InRange 600000 (m (c, main_arg15) : IVec S100000x4 32))
    (hE : InRange 1600000 (m (c, main_arg16) : IVec S100000x4 32)) :
    (Gen.V16 m outs c main_v23 : Vec Ideal S100000x160 .f32)
      = summedOf reducesTo_S100000x4x128_S100000x128_d1 reducesTo_S100000x4x32_S100000x32_d1
          (Host.gather gather_S600000x128_S100000x4x1_S100000x4x128_2_0_n_n_0_2_1128 (m (c, main_arg0)) (wrap ![0, 1] bcast_S100000x4_S100000x4x1_0_1 bcast_S_S100000x4 600000#32 (m (c, main_arg15))))
          (Host.gather gather_S1600000x32_S100000x4x1_S100000x4x32_2_0_n_n_0_2_132 (m (c, main_arg1)) (wrap ![0, 1] bcast_S100000x4_S100000x4x1_0_1 bcast_S_S100000x4 1600000#32 (m (c, main_arg16)))) := by
  show StableHlo.after hostOps3_2 (Gen.V15 m outs c) main_v23 = _
  rw [summed3_after, Gen.V15_of m outs c main_v19 (by decide)]
  exact congrArg₂ (summedOf _ _) (takeN4_after (Gen.V13 m outs c) (V13_arg m outs nw0 c) (V13_arg m outs nw15 c) hN)
    (takeE4_after (Gen.V14 m outs c) (V14_arg m outs nw1 c) (V14_arg m outs nw16 c) hE)

theorem summed4 (c : Dev nD) (hN : InRange 600000 (m (c, main_arg17) : IVec S100000x5 32))
    (hE : InRange 1600000 (m (c, main_arg18) : IVec S100000x5 32)) :
    (Gen.V20 m outs c main_v29 : Vec Ideal S100000x160 .f32)
      = summedOf reducesTo_S100000x5x128_S100000x128_d1 reducesTo_S100000x5x32_S100000x32_d1
          (Host.gather gather_S600000x128_S100000x5x1_S100000x5x128_2_0_n_n_0_2_1128 (m (c, main_arg0)) (wrap ![0, 1] bcast_S100000x5_S100000x5x1_0_1 bcast_S_S100000x5 600000#32 (m (c, main_arg17))))
          (Host.gather gather_S1600000x32_S100000x5x1_S100000x5x32_2_0_n_n_0_2_132 (m (c, main_arg1)) (wrap ![0, 1] bcast_S100000x5_S100000x5x1_0_1 bcast_S_S100000x5 1600000#32 (m (c, main_arg18)))) := by
  show StableHlo.after hostOps4_2 (Gen.V19 m outs c) main_v29 = _
  rw [summed4_after, Gen.V19_of m outs c main_v25 (by decide)]
  exact congrArg₂ (summedOf _ _) (takeN5_after (Gen.V17 m outs c) (V17_arg m outs nw0 c) (V17_arg m outs nw17 c) hN)
    (takeE5_after (Gen.V18 m outs c) (V18_arg m outs nw1 c) (V18_arg m outs nw18 c) hE)

theorem zeros_after (V : Valuation τ sig (Elt Ideal)) :
    (StableHlo.after hostOps0 V main_v0 : Vec Ideal S100000x128 .f32)
      = broadcastInDim S100000x128 ![] bcast_S_S100000x128 (constant (F := Ideal) S_ .f32 0x00000000#32) := by
  simp only [hostOps0]
  after_results_simp

theorem neighbor_after (V : Valuation τ sig (Elt Ideal)) :
    (StableHlo.after hostOps5 V main_v31 : Vec Ideal S600000x128 .f32)
      = concatenate S600000x128 0
          [⟨S100000x128, V main_v0⟩, ⟨S100000x128, V main_v6⟩, ⟨S100000x128, V main_v12⟩, ⟨S100000x128, V main_v18⟩,
           ⟨S100000x128, V main_v24⟩, ⟨S100000x128, V main_v30⟩]
          concatenates_S100000x128_S100000x128_S100000x128_S100000x128_S100000x128_S100000x128_S600000x128_d0 := by
  simp only [hostOps5]
  after_results_simp
  rfl

-- A region's output block, and the zero block, stay as they were left until the blocks are stacked.
section
variable {r : Ref sig .tc} (c : Dev nD)

theorem keep21 (h : r ∈ ([main_v0, main_v6, main_v12, main_v18, main_v24] : List (Ref sig .tc))) :
    Gen.V21 m outs c r = Gen.V17 m outs c r :=
  (Gen.V21_of m outs c r (by revert r; decide)).trans <| (Gen.V20_of m outs c r (by revert r; decide)).trans <|
    (Gen.V19_of m outs c r (by revert r; decide)).trans <| Gen.V18_of m outs c r (by revert r; decide)

theorem keep17 (h : r ∈ ([main_v0, main_v6, main_v12, main_v18] : List (Ref sig .tc))) :
    Gen.V17 m outs c r = Gen.V13 m outs c r :=
  (Gen.V17_of m outs c r (by revert r; decide)).trans <| (Gen.V16_of m outs c r (by revert r; decide)).trans <|
    (Gen.V15_of m outs c r (by revert r; decide)).trans <| Gen.V14_of m outs c r (by revert r; decide)

theorem keep13 (h : r ∈ ([main_v0, main_v6, main_v12] : List (Ref sig .tc))) :
    Gen.V13 m outs c r = Gen.V9 m outs c r :=
  (Gen.V13_of m outs c r (by revert r; decide)).trans <| (Gen.V12_of m outs c r (by revert r; decide)).trans <|
    (Gen.V11_of m outs c r (by revert r; decide)).trans <| Gen.V10_of m outs c r (by revert r; decide)

theorem keep9 (h : r ∈ ([main_v0, main_v6] : List (Ref sig .tc))) :
    Gen.V9 m outs c r = Gen.V5 m outs c r :=
  (Gen.V9_of m outs c r (by revert r; decide)).trans <| (Gen.V8_of m outs c r (by revert r; decide)).trans <|
    (Gen.V7_of m outs c r (by revert r; decide)).trans <| Gen.V6_of m outs c r (by revert r; decide)

end

theorem V21_main_v0 (c : Dev nD) :
    (Gen.V21 m outs c main_v0 : Vec Ideal S100000x128 .f32)
      = broadcastInDim S100000x128 ![] bcast_S_S100000x128 (constant (F := Ideal) S_ .f32 0x00000000#32) :=
  (keep21 m outs c (by decide)).trans <| (keep17 m outs c (by decide)).trans <| (keep13 m outs c (by decide)).trans <|
    (keep9 m outs c (by decide)).trans <| (Gen.V5_of m outs c main_v0 (by decide)).trans <|
    (Gen.V4_of m c main_v0 (by decide)).trans <| (Gen.V3_of m c main_v0 (by decide)).trans <|
    (Gen.V2_of m c main_v0 (by decide)).trans <| zeros_after (Gen.V0 m c)

theorem V21_main_v6 (c : Dev nD) : Gen.V21 m outs c main_v6 = outs 5 main_v6 c :=
  (keep21 m outs c (by decide)).trans <| (keep17 m outs c (by decide)).trans <| (keep13 m outs c (by decide)).trans <|
    (keep9 m outs c (by decide)).trans <| Function.update_self _ _ _

theorem V21_main_v12 (c : Dev nD) : Gen.V21 m outs c main_v12 = outs 9 main_v12 c :=
  (keep21 m outs c (by decide)).trans <| (keep17 m outs c (by decide)).trans <| (keep13 m outs c (by decide)).trans <|
    Function.update_self _ _ _

theorem V21_main_v18 (c : Dev nD) : Gen.V21 m outs c main_v18 = outs 13 main_v18 c :=
  (keep21 m outs c (by decide)).trans <| (keep17 m outs c (by decide)).trans <| Function.update_self _ _ _

theorem V21_main_v24 (c : Dev nD) : Gen.V21 m outs c main_v24 = outs 17 main_v24 c :=
  (keep21 m outs c (by decide)).trans <| Function.update_self _ _ _

theorem V21_main_v30 (c : Dev nD) : Gen.V21 m outs c main_v30 = outs 21 main_v30 c :=
  Function.update_self _ _ _

theorem neighbor_eq (c : Dev nD) :
    (Gen.V22 m outs c main_v31 : Vec Ideal S600000x128 .f32)
      = concatenate S600000x128 0
          [⟨S100000x128, broadcastInDim S100000x128 ![] bcast_S_S100000x128 (constant (F := Ideal) S_ .f32 0x00000000#32)⟩,
           ⟨S100000x128, outs 5 main_v6 c⟩, ⟨S100000x128, outs 9 main_v12 c⟩, ⟨S100000x128, outs 13 main_v18 c⟩,
           ⟨S100000x128, outs 17 main_v24 c⟩, ⟨S100000x128, outs 21 main_v30 c⟩]
          concatenates_S100000x128_S100000x128_S100000x128_S100000x128_S100000x128_S100000x128_S600000x128_d0 := by
  show StableHlo.after hostOps5 (Gen.V21 m outs c) main_v31 = _
  rw [neighbor_after, V21_main_v0 m outs c, V21_main_v6 m outs c, V21_main_v12 m outs c, V21_main_v18 m outs c,
    V21_main_v24 m outs c, V21_main_v30 m outs c]

theorem V23_main_v32_0 (c : Dev nD) : Gen.V23 m outs c main_v32_0 = outs 23 main_v32_0 c :=
  (Function.update_of_ne (StableHlo.devRef_ne_of_ne (by decide)) _ _).trans <|
    (Function.update_of_ne (StableHlo.devRef_ne_of_ne (by decide)) _ _).trans <| Function.update_self _ _ _
theorem V23_main_v32_1 (c : Dev nD) : Gen.V23 m outs c main_v32_1 = outs 23 main_v32_1 c :=
  (Function.update_of_ne (StableHlo.devRef_ne_of_ne (by decide)) _ _).trans <| Function.update_self _ _ _
theorem V23_main_v32_2 (c : Dev nD) : Gen.V23 m outs c main_v32_2 = outs 23 main_v32_2 c :=
  Function.update_self _ _ _

theorem mean_eq (c : Dev nD) :
    (Gen.V24 m outs c main_v34 : Vec Ideal S1x128 .f32) = Host.divf (outs 23 main_v32_1 c) (broadcastInDim S1x128 ![] bcast_S_S1x128 (constant (F := Ideal) S_ .f32 0x49127C00#32)) := by
  show StableHlo.after hostOps6 (Gen.V23 m outs c) main_v34 = _
  rw [← V23_main_v32_1 m outs c]
  generalize Gen.V23 m outs c = V
  simp only [hostOps6]
  after_results_simp

theorem inv_eq (c : Dev nD) :
    (Gen.V24 m outs c main_v41 : Vec Ideal S1x128 .f32)
      = Host.rsqrt (addf (subf (Host.divf (outs 23 main_v32_2 c) (broadcastInDim S1x128 ![] bcast_S_S1x128 (constant (F := Ideal) S_ .f32 0x49127C00#32)))
          (mulf (Host.divf (outs 23 main_v32_1 c) (broadcastInDim S1x128 ![] bcast_S_S1x128 (constant (F := Ideal) S_ .f32 0x49127C00#32))) (Host.divf (outs 23 main_v32_1 c) (broadcastInDim S1x128 ![] bcast_S_S1x128 (constant (F := Ideal) S_ .f32 0x49127C00#32))))) (broadcastInDim S1x128 ![] bcast_S_S1x128 (constant (F := Ideal) S_ .f32 0x3727C5AC#32))) := by
  show StableHlo.after hostOps6 (Gen.V23 m outs c) main_v41 = _
  rw [← V23_main_v32_1 m outs c, ← V23_main_v32_2 m outs c]
  generalize Gen.V23 m outs c = V
  simp only [hostOps6]
  after_results_simp

theorem V24_main_v32_0 (c : Dev nD) : Gen.V24 m outs c main_v32_0 = outs 23 main_v32_0 c :=
  (Gen.V24_of m outs c main_v32_0 (by decide)).trans (V23_main_v32_0 m outs c)

theorem V25_main_v42 (c : Dev nD) : Gen.V25 m outs c main_v42 = outs 25 main_v42 c :=
  Function.update_self _ _ _

end Cert.KernelIdeal.Hand
-- ==== Proof.Pre.lean ====
import proofs.«411265_j32847909880435_1_alg».proof.Pre_finite_inputs
import proofs.«411265_j32847909880435_1_alg».proof.Proof.Gen.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.PreFacts

open Idealize.ShloMosaic Cert.Pre_finite_inputs

open Idealize.ShloMosaic.ValueIdx

instance : Subsingleton S_.Idx := ⟨fun a b => funext fun d => d.elim0⟩

theorem ofBits_inf : Ideal.ofBits .f32 0x7F800000#32 = ⊤ := by simp [Ideal.ofBits, Ideal.ieee]

theorem lt_of_cmp_olt {x y : EReal} (e : Ideal.cmp .olt x y = 1#1) : x < y := by
  unfold Ideal.cmp at e
  by_contra hn
  simp [hn] at e

-- Neither infinity has max x (-x) below +∞, so only the real numbers are left.
theorem real_of_abs_lt_top (x : EReal) (hx : max x (-x) < ⊤) : ∃ r : ℝ, x = (r : EReal) := by
  induction x using EReal.rec with
  | bot => simp at hx
  | coe r => exact ⟨r, rfl⟩
  | top => simp at hx

-- A reduction by `and` that is 1 was 1 at every index: there |x| < +∞, so the entry is a real number.
theorem fin_of_all {s : Shape} {axes : List (Fin s.rank)} (x : FVec Ideal s .f32)
    (hb : S_.BroadcastsInDim s (![] : Fin 0 → Fin s.rank)) (hr : s.ReducesTo axes S_) (hu : 0 < S_.numel) (init : IVec S_ 1)
    (e : Host.reduce IntOp.andi (cmpf .olt (Host.absf x) (broadcastInDim s ![] hb (constant S_ .f32 0x7F800000#32)))
          init hr hu ix0 = 1#1) :
    ∀ i, ∃ r : ℝ, x i = (r : EReal) := by
  intro i
  have e2 : Ideal.cmp .olt (max (x i) (-(x i))) (Ideal.ofBits .f32 0x7F800000#32) = 1#1 :=
    Host.reduce_andi_all _ init hr hu ix0 e i
  rw [ofBits_inf] at e2
  exact real_of_abs_lt_top (x i) (lt_of_cmp_olt e2)

-- Likewise for (x ≥ lo) ∧ (x < hi) compared signed, with the two bounds read as the signed integers L and H.
theorem rng_of_all {s : Shape} {axes : List (Fin s.rank)} (x : IVec s 32) (lo hi : BitVec 32) {L H : ℤ}
    (hL : lo.toInt = L) (hH : hi.toInt = H)
    (hb : S_.BroadcastsInDim s (![] : Fin 0 → Fin s.rank)) (hr : s.ReducesTo axes S_) (hu : 0 < S_.numel) (init : IVec S_ 1)
    (e : Host.reduce IntOp.andi (andi (cmpi .sge x (broadcastInDim s ![] hb (constantI S_ 32 lo)))
          (cmpi .slt x (broadcastInDim s ![] hb (constantI S_ 32 hi)))) init hr hu ix0 = 1#1) :
    ∀ i, L ≤ (x i).toInt ∧ (x i).toInt < H := by
  intro i
  have e2 : IntOp.andi (IntOp.cmpi .sge (x i) lo) (IntOp.cmpi .slt (x i) hi) = 1#1 :=
    Host.reduce_andi_all _ init hr hu ix0 e i
  obtain ⟨e3, e4⟩ := IntOp.andi_eq_one.1 e2
  subst hL hH
  exact ⟨IntOp.cmpi_sge.1 e3, IntOp.cmpi_slt.1 e4⟩

theorem and_split {x y : IVec S_ 1} (e : andi x y ix0 = 1#1) : x ix0 = 1#1 ∧ y ix0 = 1#1 := IntOp.andi_eq_one.1 e

variable
    {a0 : FVec Ideal S600000x128 .f32} {a1 : FVec Ideal S1600000x32 .f32} {a2 : FVec Ideal S128x128 .f32}
    {a3 : FVec Ideal S1x128 .f32} {a4 a5 a6 a7 a8 : FVec Ideal S160x128 .f32}
    {a9 a10 : IVec S100000x1 32} {a11 a12 : IVec S100000x2 32} {a13 a14 : IVec S100000x3 32}
    {a15 a16 : IVec S100000x4 32} {a17 a18 : IVec S100000x5 32}
    (h : Cert.Pre_finite_inputs.fn (F := Ideal) a0 a1 a2 a3 a4 a5 a6 a7 a8 a9 a10 a11 a12 a13 a14 a15 a16 a17 a18 = fun _ => 1#1)
include h

-- The predicate is a left-nested conjunction of nineteen reduced tests; its word is 1, so each test's is.
theorem decode :
    (∀ i, ∃ r : ℝ, a0 i = (r : EReal)) ∧
    (∀ i, ∃ r : ℝ, a1 i = (r : EReal)) ∧
    (∀ i, ∃ r : ℝ, a2 i = (r : EReal)) ∧
    (∀ i, ∃ r : ℝ, a3 i = (r : EReal)) ∧
    (∀ i, ∃ r : ℝ, a4 i = (r : EReal)) ∧
    (∀ i, ∃ r : ℝ, a5 i = (r : EReal)) ∧
    (∀ i, ∃ r : ℝ, a6 i = (r : EReal)) ∧
    (∀ i, ∃ r : ℝ, a7 i = (r : EReal)) ∧
    (∀ i, ∃ r : ℝ, a8 i = (r : EReal)) ∧
    (∀ i, -600000 ≤ (a9 i).toInt ∧ (a9 i).toInt < 600000) ∧
    (∀ i, -1600000 ≤ (a10 i).toInt ∧ (a10 i).toInt < 1600000) ∧
    (∀ i, -600000 ≤ (a11 i).toInt ∧ (a11 i).toInt < 600000) ∧
    (∀ i, -1600000 ≤ (a12 i).toInt ∧ (a12 i).toInt < 1600000) ∧
    (∀ i, -600000 ≤ (a13 i).toInt ∧ (a13 i).toInt < 600000) ∧
    (∀ i, -1600000 ≤ (a14 i).toInt ∧ (a14 i).toInt < 1600000) ∧
    (∀ i, -600000 ≤ (a15 i).toInt ∧ (a15 i).toInt < 600000) ∧
    (∀ i, -1600000 ≤ (a16 i).toInt ∧ (a16 i).toInt < 1600000) ∧
    (∀ i, -600000 ≤ (a17 i).toInt ∧ (a17 i).toInt < 600000) ∧
    (∀ i, -1600000 ≤ (a18 i).toInt ∧ (a18 i).toInt < 1600000) := by
  have h0 := congrFun h ix0
  dsimp only [fn, fn_part1, fn_part2, fn_part3, fn_part4, fn_part5, fn_part6] at h0
  obtain ⟨h0, e18⟩ := and_split h0
  obtain ⟨h0, e17⟩ := and_split h0
  obtain ⟨h0, e16⟩ := and_split h0
  obtain ⟨h0, e15⟩ := and_split h0
  obtain ⟨h0, e14⟩ := and_split h0
  obtain ⟨h0, e13⟩ := and_split h0
  obtain ⟨h0, e12⟩ := and_split h0
  obtain ⟨h0, e11⟩ := and_split h0
  obtain ⟨h0, e10⟩ := and_split h0
  obtain ⟨h0, e9⟩ := and_split h0
  obtain ⟨h0, e8⟩ := and_split h0
  obtain ⟨h0, e7⟩ := and_split h0
  obtain ⟨h0, e6⟩ := and_split h0
  obtain ⟨h0, e5⟩ := and_split h0
  obtain ⟨h0, e4⟩ := and_split h0
  obtain ⟨h0, e3⟩ := and_split h0
  obtain ⟨h0, e2⟩ := and_split h0
  obtain ⟨e0, e1⟩ := and_split h0
  exact ⟨fin_of_all a0 _ _ _ _ e0,
    fin_of_all a1 _ _ _ _ e1,
    fin_of_all a2 _ _ _ _ e2,
    fin_of_all a3 _ _ _ _ e3,
    fin_of_all a4 _ _ _ _ e4,
    fin_of_all a5 _ _ _ _ e5,
    fin_of_all a6 _ _ _ _ e6,
    fin_of_all a7 _ _ _ _ e7,
    fin_of_all a8 _ _ _ _ e8,
    rng_of_all a9 _ _ (by decide) (by decide) _ _ _ _ e9,
    rng_of_all a10 _ _ (by decide) (by decide) _ _ _ _ e10,
    rng_of_all a11 _ _ (by decide) (by decide) _ _ _ _ e11,
    rng_of_all a12 _ _ (by decide) (by decide) _ _ _ _ e12,
    rng_of_all a13 _ _ (by decide) (by decide) _ _ _ _ e13,
    rng_of_all a14 _ _ (by decide) (by decide) _ _ _ _ e14,
    rng_of_all a15 _ _ (by decide) (by decide) _ _ _ _ e15,
    rng_of_all a16 _ _ (by decide) (by decide) _ _ _ _ e16,
    rng_of_all a17 _ _ (by decide) (by decide) _ _ _ _ e17,
    rng_of_all a18 _ _ (by decide) (by decide) _ _ _ _ e18⟩

variable (a0 a1 a2 a3 a4 a5 a6 a7 a8 a9 a10 a11 a12 a13 a14 a15 a16 a17 a18)

theorem fin_a0 : ∀ i, ∃ r : ℝ, a0 i = (r : EReal) :=
  (decode h).1

theorem fin_a1 : ∀ i, ∃ r : ℝ, a1 i = (r : EReal) :=
  (decode h).2.1

theorem fin_a2 : ∀ i, ∃ r : ℝ, a2 i = (r : EReal) :=
  (decode h).2.2.1

theorem fin_a3 : ∀ i, ∃ r : ℝ, a3 i = (r : EReal) :=
  (decode h).2.2.2.1

theorem fin_a4 : ∀ i, ∃ r : ℝ, a4 i = (r : EReal) :=
  (decode h).2.2.2.2.1

theorem fin_a5 : ∀ i, ∃ r : ℝ, a5 i = (r : EReal) :=
  (decode h).2.2.2.2.2.1

theorem fin_a6 : ∀ i, ∃ r : ℝ, a6 i = (r : EReal) :=
  (decode h).2.2.2.2.2.2.1

theorem fin_a7 : ∀ i, ∃ r : ℝ, a7 i = (r : EReal) :=
  (decode h).2.2.2.2.2.2.2.1

theorem fin_a8 : ∀ i, ∃ r : ℝ, a8 i = (r : EReal) :=
  (decode h).2.2.2.2.2.2.2.2.1

theorem rng_a9 : ∀ i, -600000 ≤ (a9 i).toInt ∧ (a9 i).toInt < 600000 :=
  (decode h).2.2.2.2.2.2.2.2.2.1

theorem rng_a10 : ∀ i, -1600000 ≤ (a10 i).toInt ∧ (a10 i).toInt < 1600000 :=
  (decode h).2.2.2.2.2.2.2.2.2.2.1

theorem rng_a11 : ∀ i, -600000 ≤ (a11 i).toInt ∧ (a11 i).toInt < 600000 :=
  (decode h).2.2.2.2.2.2.2.2.2.2.2.1

theorem rng_a12 : ∀ i, -1600000 ≤ (a12 i).toInt ∧ (a12 i).toInt < 1600000 :=
  (decode h).2.2.2.2.2.2.2.2.2.2.2.2.1

theorem rng_a13 : ∀ i, -600000 ≤ (a13 i).toInt ∧ (a13 i).toInt < 600000 :=
  (decode h).2.2.2.2.2.2.2.2.2.2.2.2.2.1

theorem rng_a14 : ∀ i, -1600000 ≤ (a14 i).toInt ∧ (a14 i).toInt < 1600000 :=
  (decode h).2.2.2.2.2.2.2.2.2.2.2.2.2.2.1

theorem rng_a15 : ∀ i, -600000 ≤ (a15 i).toInt ∧ (a15 i).toInt < 600000 :=
  (decode h).2.2.2.2.2.2.2.2.2.2.2.2.2.2.2.1

theorem rng_a16 : ∀ i, -1600000 ≤ (a16 i).toInt ∧ (a16 i).toInt < 1600000 :=
  (decode h).2.2.2.2.2.2.2.2.2.2.2.2.2.2.2.2.1

theorem rng_a17 : ∀ i, -600000 ≤ (a17 i).toInt ∧ (a17 i).toInt < 600000 :=
  (decode h).2.2.2.2.2.2.2.2.2.2.2.2.2.2.2.2.2.1

theorem rng_a18 : ∀ i, -1600000 ≤ (a18 i).toInt ∧ (a18 i).toInt < 1600000 :=
  (decode h).2.2.2.2.2.2.2.2.2.2.2.2.2.2.2.2.2.2

end Cert.PreFacts

end
-- ==== Proof.Bridge.Summed.lean ====
import proofs.«411265_j32847909880435_1_alg».proof.Proof.KI.Frame
import proofs.«411265_j32847909880435_1_alg».proof.Proof.KI.Host
import proofs.«411265_j32847909880435_1_alg».proof.Proof.Pre
import proofs.«411265_j32847909880435_1_alg».proof.Proof.Spec.Algebra
import proofs.«411265_j32847909880435_1_alg».proof.Proof.Gen.ReferenceIdeal.Read
import proofs.«411265_j32847909880435_1_alg».proof.Defs
import Idealize.ShloMosaic.Lib.ValueIdx
import Idealize.ShloMosaic.Lib.Pipeline.Value
import Idealize.ShloMosaic.PureOps.Ideal.Laws

set_option maxRecDepth 16384

noncomputable section

namespace Cert.Bridge

open Idealize.ShloMosaic Idealize.ShloMosaic.TcCoe Idealize.SL.Sem

abbrev KMem : Type := (ℓ : Loc Cert.KernelIdeal.nD Cert.KernelIdeal.τ Cert.KernelIdeal.sig) → Buf (Elt Ideal) ℓ
abbrev RMem : Type := (ℓ : Loc Cert.ReferenceIdeal.nD Cert.ReferenceIdeal.τ Cert.ReferenceIdeal.sig) → Buf (Elt Ideal) ℓ
abbrev rarg0 (m' : RMem) (c : Dev Cert.ReferenceIdeal.nD) := m' ((c.tc : Thread Cert.ReferenceIdeal.nD Cert.ReferenceIdeal.τ).loc Cert.ReferenceIdeal.main_arg0)
abbrev rarg1 (m' : RMem) (c : Dev Cert.ReferenceIdeal.nD) := m' ((c.tc : Thread Cert.ReferenceIdeal.nD Cert.ReferenceIdeal.τ).loc Cert.ReferenceIdeal.main_arg1)
abbrev rarg2 (m' : RMem) (c : Dev Cert.ReferenceIdeal.nD) := m' ((c.tc : Thread Cert.ReferenceIdeal.nD Cert.ReferenceIdeal.τ).loc Cert.ReferenceIdeal.main_arg2)
abbrev rarg3 (m' : RMem) (c : Dev Cert.ReferenceIdeal.nD) := m' ((c.tc : Thread Cert.ReferenceIdeal.nD Cert.ReferenceIdeal.τ).loc Cert.ReferenceIdeal.main_arg3)
abbrev rarg4 (m' : RMem) (c : Dev Cert.ReferenceIdeal.nD) := m' ((c.tc : Thread Cert.ReferenceIdeal.nD Cert.ReferenceIdeal.τ).loc Cert.ReferenceIdeal.main_arg4)
abbrev rarg5 (m' : RMem) (c : Dev Cert.ReferenceIdeal.nD) := m' ((c.tc : Thread Cert.ReferenceIdeal.nD Cert.ReferenceIdeal.τ).loc Cert.ReferenceIdeal.main_arg5)
abbrev rarg6 (m' : RMem) (c : Dev Cert.ReferenceIdeal.nD) := m' ((c.tc : Thread Cert.ReferenceIdeal.nD Cert.ReferenceIdeal.τ).loc Cert.ReferenceIdeal.main_arg6)
abbrev rarg7 (m' : RMem) (c : Dev Cert.ReferenceIdeal.nD) := m' ((c.tc : Thread Cert.ReferenceIdeal.nD Cert.ReferenceIdeal.τ).loc Cert.ReferenceIdeal.main_arg7)
abbrev rarg8 (m' : RMem) (c : Dev Cert.ReferenceIdeal.nD) := m' ((c.tc : Thread Cert.ReferenceIdeal.nD Cert.ReferenceIdeal.τ).loc Cert.ReferenceIdeal.main_arg8)
abbrev rarg9 (m' : RMem) (c : Dev Cert.ReferenceIdeal.nD) := m' ((c.tc : Thread Cert.ReferenceIdeal.nD Cert.ReferenceIdeal.τ).loc Cert.ReferenceIdeal.main_arg9)
abbrev rarg10 (m' : RMem) (c : Dev Cert.ReferenceIdeal.nD) := m' ((c.tc : Thread Cert.ReferenceIdeal.nD Cert.ReferenceIdeal.τ).loc Cert.ReferenceIdeal.main_arg10)
abbrev rarg11 (m' : RMem) (c : Dev Cert.ReferenceIdeal.nD) := m' ((c.tc : Thread Cert.ReferenceIdeal.nD Cert.ReferenceIdeal.τ).loc Cert.ReferenceIdeal.main_arg11)
abbrev rarg12 (m' : RMem) (c : Dev Cert.ReferenceIdeal.nD) := m' ((c.tc : Thread Cert.ReferenceIdeal.nD Cert.ReferenceIdeal.τ).loc Cert.ReferenceIdeal.main_arg12)
abbrev rarg13 (m' : RMem) (c : Dev Cert.ReferenceIdeal.nD) := m' ((c.tc : Thread Cert.ReferenceIdeal.nD Cert.ReferenceIdeal.τ).loc Cert.ReferenceIdeal.main_arg13)
abbrev rarg14 (m' : RMem) (c : Dev Cert.ReferenceIdeal.nD) := m' ((c.tc : Thread Cert.ReferenceIdeal.nD Cert.ReferenceIdeal.τ).loc Cert.ReferenceIdeal.main_arg14)
abbrev rarg15 (m' : RMem) (c : Dev Cert.ReferenceIdeal.nD) := m' ((c.tc : Thread Cert.ReferenceIdeal.nD Cert.ReferenceIdeal.τ).loc Cert.ReferenceIdeal.main_arg15)
abbrev rarg16 (m' : RMem) (c : Dev Cert.ReferenceIdeal.nD) := m' ((c.tc : Thread Cert.ReferenceIdeal.nD Cert.ReferenceIdeal.τ).loc Cert.ReferenceIdeal.main_arg16)
abbrev rarg17 (m' : RMem) (c : Dev Cert.ReferenceIdeal.nD) := m' ((c.tc : Thread Cert.ReferenceIdeal.nD Cert.ReferenceIdeal.τ).loc Cert.ReferenceIdeal.main_arg17)
abbrev rarg18 (m' : RMem) (c : Dev Cert.ReferenceIdeal.nD) := m' ((c.tc : Thread Cert.ReferenceIdeal.nD Cert.ReferenceIdeal.τ).loc Cert.ReferenceIdeal.main_arg18)

abbrev Agree (m : KMem) (m' : RMem) : Prop :=
  ∀ c : Dev Cert.KernelIdeal.nD,
      rarg0 m' c = m ((c.tc : Thread Cert.KernelIdeal.nD Cert.KernelIdeal.τ).loc Cert.KernelIdeal.main_arg0)
      ∧ rarg1 m' c = m ((c.tc : Thread Cert.KernelIdeal.nD Cert.KernelIdeal.τ).loc Cert.KernelIdeal.main_arg1)
      ∧ rarg2 m' c = m ((c.tc : Thread Cert.KernelIdeal.nD Cert.KernelIdeal.τ).loc Cert.KernelIdeal.main_arg2)
      ∧ rarg3 m' c = m ((c.tc : Thread Cert.KernelIdeal.nD Cert.KernelIdeal.τ).loc Cert.KernelIdeal.main_arg3)
      ∧ rarg4 m' c = m ((c.tc : Thread Cert.KernelIdeal.nD Cert.KernelIdeal.τ).loc Cert.KernelIdeal.main_arg4)
      ∧ rarg5 m' c = m ((c.tc : Thread Cert.KernelIdeal.nD Cert.KernelIdeal.τ).loc Cert.KernelIdeal.main_arg5)
      ∧ rarg6 m' c = m ((c.tc : Thread Cert.KernelIdeal.nD Cert.KernelIdeal.τ).loc Cert.KernelIdeal.main_arg6)
      ∧ rarg7 m' c = m ((c.tc : Thread Cert.KernelIdeal.nD Cert.KernelIdeal.τ).loc Cert.KernelIdeal.main_arg7)
      ∧ rarg8 m' c = m ((c.tc : Thread Cert.KernelIdeal.nD Cert.KernelIdeal.τ).loc Cert.KernelIdeal.main_arg8)
      ∧ rarg9 m' c = m ((c.tc : Thread Cert.KernelIdeal.nD Cert.KernelIdeal.τ).loc Cert.KernelIdeal.main_arg9)
      ∧ rarg10 m' c = m ((c.tc : Thread Cert.KernelIdeal.nD Cert.KernelIdeal.τ).loc Cert.KernelIdeal.main_arg10)
      ∧ rarg11 m' c = m ((c.tc : Thread Cert.KernelIdeal.nD Cert.KernelIdeal.τ).loc Cert.KernelIdeal.main_arg11)
      ∧ rarg12 m' c = m ((c.tc : Thread Cert.KernelIdeal.nD Cert.KernelIdeal.τ).loc Cert.KernelIdeal.main_arg12)
      ∧ rarg13 m' c = m ((c.tc : Thread Cert.KernelIdeal.nD Cert.KernelIdeal.τ).loc Cert.KernelIdeal.main_arg13)
      ∧ rarg14 m' c = m ((c.tc : Thread Cert.KernelIdeal.nD Cert.KernelIdeal.τ).loc Cert.KernelIdeal.main_arg14)
      ∧ rarg15 m' c = m ((c.tc : Thread Cert.KernelIdeal.nD Cert.KernelIdeal.τ).loc Cert.KernelIdeal.main_arg15)
      ∧ rarg16 m' c = m ((c.tc : Thread Cert.KernelIdeal.nD Cert.KernelIdeal.τ).loc Cert.KernelIdeal.main_arg16)
      ∧ rarg17 m' c = m ((c.tc : Thread Cert.KernelIdeal.nD Cert.KernelIdeal.τ).loc Cert.KernelIdeal.main_arg17)
      ∧ rarg18 m' c = m ((c.tc : Thread Cert.KernelIdeal.nD Cert.KernelIdeal.τ).loc Cert.KernelIdeal.main_arg18)

abbrev refSummed1 (m' : RMem) (c : Dev Cert.ReferenceIdeal.nD) : Vec Ideal Cert.ReferenceIdeal.S100000x160 .f32 :=
  Cert.ReferenceIdeal.Read.val_main_v17 (F := Ideal) (rarg0 m' c) (rarg1 m' c) (rarg9 m' c) (rarg10 m' c)
abbrev refDeg1 (m' : RMem) (c : Dev Cert.ReferenceIdeal.nD) : Vec Ideal Cert.ReferenceIdeal.S100000x128 .f32 :=
  Cert.ReferenceIdeal.Read.val_main_v18 (F := Ideal) (rarg0 m' c) (rarg1 m' c) (rarg4 m' c) (rarg9 m' c) (rarg10 m' c)
abbrev refSummed2 (m' : RMem) (c : Dev Cert.ReferenceIdeal.nD) : Vec Ideal Cert.ReferenceIdeal.S100000x160 .f32 :=
  Cert.ReferenceIdeal.Read.val_main_v35 (F := Ideal) (rarg0 m' c) (rarg1 m' c) (rarg11 m' c) (rarg12 m' c)
abbrev refDeg2 (m' : RMem) (c : Dev Cert.ReferenceIdeal.nD) : Vec Ideal Cert.ReferenceIdeal.S100000x128 .f32 :=
  Cert.ReferenceIdeal.Read.val_main_v36 (F := Ideal) (rarg0 m' c) (rarg1 m' c) (rarg5 m' c) (rarg11 m' c) (rarg12 m' c)
abbrev refSummed3 (m' : RMem) (c : Dev Cert.ReferenceIdeal.nD) : Vec Ideal Cert.ReferenceIdeal.S100000x160 .f32 :=
  Cert.ReferenceIdeal.Read.val_main_v53 (F := Ideal) (rarg0 m' c) (rarg1 m' c) (rarg13 m' c) (rarg14 m' c)
abbrev refDeg3 (m' : RMem) (c : Dev Cert.ReferenceIdeal.nD) : Vec Ideal Cert.ReferenceIdeal.S100000x128 .f32 :=
  Cert.ReferenceIdeal.Read.val_main_v54 (F := Ideal) (rarg0 m' c) (rarg1 m' c) (rarg6 m' c) (rarg13 m' c) (rarg14 m' c)
abbrev refSummed4 (m' : RMem) (c : Dev Cert.ReferenceIdeal.nD) : Vec Ideal Cert.ReferenceIdeal.S100000x160 .f32 :=
  Cert.ReferenceIdeal.Read.val_main_v71 (F := Ideal) (rarg0 m' c) (rarg1 m' c) (rarg15 m' c) (rarg16 m' c)
abbrev refDeg4 (m' : RMem) (c : Dev Cert.ReferenceIdeal.nD) : Vec Ideal Cert.ReferenceIdeal.S100000x128 .f32 :=
  Cert.ReferenceIdeal.Read.val_main_v72 (F := Ideal) (rarg0 m' c) (rarg1 m' c) (rarg7 m' c) (rarg15 m' c) (rarg16 m' c)
abbrev refSummed5 (m' : RMem) (c : Dev Cert.ReferenceIdeal.nD) : Vec Ideal Cert.ReferenceIdeal.S100000x160 .f32 :=
  Cert.ReferenceIdeal.Read.val_main_v89 (F := Ideal) (rarg0 m' c) (rarg1 m' c) (rarg17 m' c) (rarg18 m' c)
abbrev refDeg5 (m' : RMem) (c : Dev Cert.ReferenceIdeal.nD) : Vec Ideal Cert.ReferenceIdeal.S100000x128 .f32 :=
  Cert.ReferenceIdeal.Read.val_main_v90 (F := Ideal) (rarg0 m' c) (rarg1 m' c) (rarg8 m' c) (rarg17 m' c) (rarg18 m' c)
abbrev refNeighbor (m' : RMem) (c : Dev Cert.ReferenceIdeal.nD) : Vec Ideal Cert.ReferenceIdeal.S600000x128 .f32 :=
  Cert.ReferenceIdeal.Read.val_main_v91 (F := Ideal) (rarg0 m' c) (rarg1 m' c) (rarg4 m' c) (rarg5 m' c) (rarg6 m' c) (rarg7 m' c) (rarg8 m' c) (rarg9 m' c) (rarg10 m' c) (rarg11 m' c) (rarg12 m' c) (rarg13 m' c) (rarg14 m' c) (rarg15 m' c) (rarg16 m' c) (rarg17 m' c) (rarg18 m' c)

section
variable (m : KMem) (m' : RMem) (hpre : Cert.Pre_KernelIdeal m) (hagree : Agree m m')

theorem real_of_eq {s : Shape} {x y : s.Idx → EReal} (e : x = y) (hy : ∀ i, ∃ r : ℝ, y i = (r : EReal)) :
    ∀ i, ∃ r : ℝ, x i = (r : EReal) := by subst e; exact hy

section
include hagree
theorem arg0_eq (c : Dev Cert.KernelIdeal.nD) : rarg0 m' c = m ((c.tc : Thread Cert.KernelIdeal.nD Cert.KernelIdeal.τ).loc Cert.KernelIdeal.main_arg0) := (hagree c).1
theorem arg1_eq (c : Dev Cert.KernelIdeal.nD) : rarg1 m' c = m ((c.tc : Thread Cert.KernelIdeal.nD Cert.KernelIdeal.τ).loc Cert.KernelIdeal.main_arg1) := (hagree c).2.1
theorem arg2_eq (c : Dev Cert.KernelIdeal.nD) : rarg2 m' c = m ((c.tc : Thread Cert.KernelIdeal.nD Cert.KernelIdeal.τ).loc Cert.KernelIdeal.main_arg2) := (hagree c).2.2.1
theorem arg3_eq (c : Dev Cert.KernelIdeal.nD) : rarg3 m' c = m ((c.tc : Thread Cert.KernelIdeal.nD Cert.KernelIdeal.τ).loc Cert.KernelIdeal.main_arg3) := (hagree c).2.2.2.1
theorem arg4_eq (c : Dev Cert.KernelIdeal.nD) : rarg4 m' c = m ((c.tc : Thread Cert.KernelIdeal.nD Cert.KernelIdeal.τ).loc Cert.KernelIdeal.main_arg4) := (hagree c).2.2.2.2.1
theorem arg5_eq (c : Dev Cert.KernelIdeal.nD) : rarg5 m' c = m ((c.tc : Thread Cert.KernelIdeal.nD Cert.KernelIdeal.τ).loc Cert.KernelIdeal.main_arg5) := (hagree c).2.2.2.2.2.1
theorem arg6_eq (c : Dev Cert.KernelIdeal.nD) : rarg6 m' c = m ((c.tc : Thread Cert.KernelIdeal.nD Cert.KernelIdeal.τ).loc Cert.KernelIdeal.main_arg6) := (hagree c).2.2.2.2.2.2.1
theorem arg7_eq (c : Dev Cert.KernelIdeal.nD) : rarg7 m' c = m ((c.tc : Thread Cert.KernelIdeal.nD Cert.KernelIdeal.τ).loc Cert.KernelIdeal.main_arg7) := (hagree c).2.2.2.2.2.2.2.1
theorem arg8_eq (c : Dev Cert.KernelIdeal.nD) : rarg8 m' c = m ((c.tc : Thread Cert.KernelIdeal.nD Cert.KernelIdeal.τ).loc Cert.KernelIdeal.main_arg8) := (hagree c).2.2.2.2.2.2.2.2.1
theorem arg9_eq (c : Dev Cert.KernelIdeal.nD) : rarg9 m' c = m ((c.tc : Thread Cert.KernelIdeal.nD Cert.KernelIdeal.τ).loc Cert.KernelIdeal.main_arg9) := (hagree c).2.2.2.2.2.2.2.2.2.1
theorem arg10_eq (c : Dev Cert.KernelIdeal.nD) : rarg10 m' c = m ((c.tc : Thread Cert.KernelIdeal.nD Cert.KernelIdeal.τ).loc Cert.KernelIdeal.main_arg10) := (hagree c).2.2.2.2.2.2.2.2.2.2.1
theorem arg11_eq (c : Dev Cert.KernelIdeal.nD) : rarg11 m' c = m ((c.tc : Thread Cert.KernelIdeal.nD Cert.KernelIdeal.τ).loc Cert.KernelIdeal.main_arg11) := (hagree c).2.2.2.2.2.2.2.2.2.2.2.1
theorem arg12_eq (c : Dev Cert.KernelIdeal.nD) : rarg12 m' c = m ((c.tc : Thread Cert.KernelIdeal.nD Cert.KernelIdeal.τ).loc Cert.KernelIdeal.main_arg12) := (hagree c).2.2.2.2.2.2.2.2.2.2.2.2.1
theorem arg13_eq (c : Dev Cert.KernelIdeal.nD) : rarg13 m' c = m ((c.tc : Thread Cert.KernelIdeal.nD Cert.KernelIdeal.τ).loc Cert.KernelIdeal.main_arg13) := (hagree c).2.2.2.2.2.2.2.2.2.2.2.2.2.1
theorem arg14_eq (c : Dev Cert.KernelIdeal.nD) : rarg14 m' c = m ((c.tc : Thread Cert.KernelIdeal.nD Cert.KernelIdeal.τ).loc Cert.KernelIdeal.main_arg14) := (hagree c).2.2.2.2.2.2.2.2.2.2.2.2.2.2.1
theorem arg15_eq (c : Dev Cert.KernelIdeal.nD) : rarg15 m' c = m ((c.tc : Thread Cert.KernelIdeal.nD Cert.KernelIdeal.τ).loc Cert.KernelIdeal.main_arg15) := (hagree c).2.2.2.2.2.2.2.2.2.2.2.2.2.2.2.1
theorem arg16_eq (c : Dev Cert.KernelIdeal.nD) : rarg16 m' c = m ((c.tc : Thread Cert.KernelIdeal.nD Cert.KernelIdeal.τ).loc Cert.KernelIdeal.main_arg16) := (hagree c).2.2.2.2.2.2.2.2.2.2.2.2.2.2.2.2.1
theorem arg17_eq (c : Dev Cert.KernelIdeal.nD) : rarg17 m' c = m ((c.tc : Thread Cert.KernelIdeal.nD Cert.KernelIdeal.τ).loc Cert.KernelIdeal.main_arg17) := (hagree c).2.2.2.2.2.2.2.2.2.2.2.2.2.2.2.2.2.1
theorem arg18_eq (c : Dev Cert.KernelIdeal.nD) : rarg18 m' c = m ((c.tc : Thread Cert.KernelIdeal.nD Cert.KernelIdeal.τ).loc Cert.KernelIdeal.main_arg18) := (hagree c).2.2.2.2.2.2.2.2.2.2.2.2.2.2.2.2.2.2
end

include hpre in
theorem kfin0 (c : Dev Cert.KernelIdeal.nD) : ∀ i, ∃ r : ℝ, (m ((c.tc : Thread Cert.KernelIdeal.nD Cert.KernelIdeal.τ).loc Cert.KernelIdeal.main_arg0) : Vec Ideal Cert.KernelIdeal.S600000x128 .f32) i = (r : EReal) :=
  Cert.PreFacts.fin_a0 _ _ _ _ _ _ _ _ _ _ _ _ _ _ _ _ _ _ _ (hpre c)

include hpre hagree

theorem rfin0 (c : Dev Cert.KernelIdeal.nD) : ∀ i, ∃ r : ℝ, (rarg0 m' c : Vec Ideal Cert.ReferenceIdeal.S600000x128 .f32) i = (r : EReal) :=
  real_of_eq (arg0_eq m m' hagree c) (kfin0 m hpre c)
theorem rfin1 (c : Dev Cert.KernelIdeal.nD) : ∀ i, ∃ r : ℝ, (rarg1 m' c : Vec Ideal Cert.ReferenceIdeal.S1600000x32 .f32) i = (r : EReal) :=
  real_of_eq (arg1_eq m m' hagree c) (Cert.PreFacts.fin_a1 _ _ _ _ _ _ _ _ _ _ _ _ _ _ _ _ _ _ _ (hpre c))
theorem rfin4 (c : Dev Cert.KernelIdeal.nD) : ∀ i, ∃ r : ℝ, (rarg4 m' c : Vec Ideal Cert.ReferenceIdeal.S160x128 .f32) i = (r : EReal) :=
  real_of_eq (arg4_eq m m' hagree c) (Cert.PreFacts.fin_a4 _ _ _ _ _ _ _ _ _ _ _ _ _ _ _ _ _ _ _ (hpre c))
theorem rfin5 (c : Dev Cert.KernelIdeal.nD) : ∀ i, ∃ r : ℝ, (rarg5 m' c : Vec Ideal Cert.ReferenceIdeal.S160x128 .f32) i = (r : EReal) :=
  real_of_eq (arg5_eq m m' hagree c) (Cert.PreFacts.fin_a5 _ _ _ _ _ _ _ _ _ _ _ _ _ _ _ _ _ _ _ (hpre c))
theorem rfin6 (c : Dev Cert.KernelIdeal.nD) : ∀ i, ∃ r : ℝ, (rarg6 m' c : Vec Ideal Cert.ReferenceIdeal.S160x128 .f32) i = (r : EReal) :=
  real_of_eq (arg6_eq m m' hagree c) (Cert.PreFacts.fin_a6 _ _ _ _ _ _ _ _ _ _ _ _ _ _ _ _ _ _ _ (hpre c))
theorem rfin7 (c : Dev Cert.KernelIdeal.nD) : ∀ i, ∃ r : ℝ, (rarg7 m' c : Vec Ideal Cert.ReferenceIdeal.S160x128 .f32) i = (r : EReal) :=
  real_of_eq (arg7_eq m m' hagree c) (Cert.PreFacts.fin_a7 _ _ _ _ _ _ _ _ _ _ _ _ _ _ _ _ _ _ _ (hpre c))
theorem rfin8 (c : Dev Cert.KernelIdeal.nD) : ∀ i, ∃ r : ℝ, (rarg8 m' c : Vec Ideal Cert.ReferenceIdeal.S160x128 .f32) i = (r : EReal) :=
  real_of_eq (arg8_eq m m' hagree c) (Cert.PreFacts.fin_a8 _ _ _ _ _ _ _ _ _ _ _ _ _ _ _ _ _ _ _ (hpre c))

-- Stage 1: with every index word in range, the kernel program's summed array of each degree is the reference's.
theorem summed1_eq (c : Dev Cert.KernelIdeal.nD) :
    (Cert.KernelIdeal.Gen.V4 m c Cert.KernelIdeal.main_v5 : Vec Ideal Cert.KernelIdeal.S100000x160 .f32) = refSummed1 m' c := by
  show _ = Cert.ReferenceIdeal.Read.val_main_v17 (F := Ideal) (rarg0 m' c) (rarg1 m' c) (rarg9 m' c) (rarg10 m' c)
  rw [arg0_eq m m' hagree c, arg1_eq m m' hagree c, arg9_eq m m' hagree c, arg10_eq m m' hagree c]
  exact Cert.KernelIdeal.Hand.summed0 m c (Cert.PreFacts.rng_a9 _ _ _ _ _ _ _ _ _ _ _ _ _ _ _ _ _ _ _ (hpre c)) (Cert.PreFacts.rng_a10 _ _ _ _ _ _ _ _ _ _ _ _ _ _ _ _ _ _ _ (hpre c))

theorem summed2_eq (c : Dev Cert.KernelIdeal.nD) :
    (Cert.KernelIdeal.Gen.V8 m (Cert.KernelIdeal.Hand.outsH m) c Cert.KernelIdeal.main_v11 : Vec Ideal Cert.KernelIdeal.S100000x160 .f32) = refSummed2 m' c := by
  show _ = Cert.ReferenceIdeal.Read.val_main_v35 (F := Ideal) (rarg0 m' c) (rarg1 m' c) (rarg11 m' c) (rarg12 m' c)
  rw [arg0_eq m m' hagree c, arg1_eq m m' hagree c, arg11_eq m m' hagree c, arg12_eq m m' hagree c]
  exact Cert.KernelIdeal.Hand.summed1 m (Cert.KernelIdeal.Hand.outsH m) c (Cert.PreFacts.rng_a11 _ _ _ _ _ _ _ _ _ _ _ _ _ _ _ _ _ _ _ (hpre c)) (Cert.PreFacts.rng_a12 _ _ _ _ _ _ _ _ _ _ _ _ _ _ _ _ _ _ _ (hpre c))

theorem summed3_eq (c : Dev Cert.KernelIdeal.nD) :
    (Cert.KernelIdeal.Gen.V12 m (Cert.KernelIdeal.Hand.outsH m) c Cert.KernelIdeal.main_v17 : Vec Ideal Cert.KernelIdeal.S100000x160 .f32) = refSummed3 m' c := by
  show _ = Cert.ReferenceIdeal.Read.val_main_v53 (F := Ideal) (rarg0 m' c) (rarg1 m' c) (rarg13 m' c) (rarg14 m' c)
  rw [arg0_eq m m' hagree c, arg1_eq m m' hagree c, arg13_eq m m' hagree c, arg14_eq m m' hagree c]
  exact Cert.KernelIdeal.Hand.summed2 m (Cert.KernelIdeal.Hand.outsH m) c (Cert.PreFacts.rng_a13 _ _ _ _ _ _ _ _ _ _ _ _ _ _ _ _ _ _ _ (hpre c)) (Cert.PreFacts.rng_a14 _ _ _ _ _ _ _ _ _ _ _ _ _ _ _ _ _ _ _ (hpre c))

theorem summed4_eq (c : Dev Cert.KernelIdeal.nD) :
    (Cert.KernelIdeal.Gen.V16 m (Cert.KernelIdeal.Hand.outsH m) c Cert.KernelIdeal.main_v23 : Vec Ideal Cert.KernelIdeal.S100000x160 .f32) = refSummed4 m' c := by
  show _ = Cert.ReferenceIdeal.Read.val_main_v71 (F := Ideal) (rarg0 m' c) (rarg1 m' c) (rarg15 m' c) (rarg16 m' c)
  rw [arg0_eq m m' hagree c, arg1_eq m m' hagree c, arg15_eq m m' hagree c, arg16_eq m m' hagree c]
  exact Cert.KernelIdeal.Hand.summed3 m (Cert.KernelIdeal.Hand.outsH m) c (Cert.PreFacts.rng_a15 _ _ _ _ _ _ _ _ _ _ _ _ _ _ _ _ _ _ _ (hpre c)) (Cert.PreFacts.rng_a16 _ _ _ _ _ _ _ _ _ _ _ _ _ _ _ _ _ _ _ (hpre c))

theorem summed5_eq (c : Dev Cert.KernelIdeal.nD) :
    (Cert.KernelIdeal.Gen.V20 m (Cert.KernelIdeal.Hand.outsH m) c Cert.KernelIdeal.main_v29 : Vec Ideal Cert.KernelIdeal.S100000x160 .f32) = refSummed5 m' c := by
  show _ = Cert.ReferenceIdeal.Read.val_main_v89 (F := Ideal) (rarg0 m' c) (rarg1 m' c) (rarg17 m' c) (rarg18 m' c)
  rw [arg0_eq m m' hagree c, arg1_eq m m' hagree c, arg17_eq m m' hagree c, arg18_eq m m' hagree c]
  exact Cert.KernelIdeal.Hand.summed4 m (Cert.KernelIdeal.Hand.outsH m) c (Cert.PreFacts.rng_a17 _ _ _ _ _ _ _ _ _ _ _ _ _ _ _ _ _ _ _ (hpre c)) (Cert.PreFacts.rng_a18 _ _ _ _ _ _ _ _ _ _ _ _ _ _ _ _ _ _ _ (hpre c))

end

end Cert.Bridge

end
-- ==== Proof.KI.Val0.lean ====
import proofs.«411265_j32847909880435_1_alg».proof.Proof.KI.Reg0

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable (V : (c : Dev nD) → (b : Ref sig .tc) → Buf (Elt Ideal) ((c : Thread nD τ).loc b))

/-- Point t's output is block t of the product array, and the ten blocks tile its rows. -/
theorem final0_apply (c : Dev nD) (p : Fin 100000) (q : Fin 128) :
    (dat0 (F := Ideal) V c).arrAt 2 cfg0.N (ValueIdx.ix2 p q)
      = ∑ k : Fin 160, @HMul.hMul EReal EReal EReal _ (V c main_v5 (ValueIdx.ix2 p k)) (V c main_arg4 (ValueIdx.ix2 k q)) :=
  (dat0 (F := Ideal) V c).arrAt_apply_of_mem 2 (mmProd (V c (Pipeline.arrRef spec0 0)) (V c (Pipeline.arrRef spec0 1)))
    (fun t _ => funext (mm_prod_block _ _ t))
    cfg0.N ⟨p.val / 10000, mm_div_lt p⟩ (ValueIdx.ix2 p q) (mm_div_lt p) (flush0_2 _)
    (by show _ ∈ ((View.whole (Pipeline.arrRef spec0 2)).slice (win0_2.rect _)).set
        rw [View.set_slice_whole]; exact mm_mem _ p q rfl)

end Cert.KernelIdeal.Hand
-- ==== Proof.KI.Val1.lean ====
import proofs.«411265_j32847909880435_1_alg».proof.Proof.KI.Reg1

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable (V : (c : Dev nD) → (b : Ref sig .tc) → Buf (Elt Ideal) ((c : Thread nD τ).loc b))

/-- Point t's output is block t of the product array, and the ten blocks tile its rows. -/
theorem final1_apply (c : Dev nD) (p : Fin 100000) (q : Fin 128) :
    (dat1 (F := Ideal) V c).arrAt 2 cfg1.N (ValueIdx.ix2 p q)
      = ∑ k : Fin 160, @HMul.hMul EReal EReal EReal _ (V c main_v11 (ValueIdx.ix2 p k)) (V c main_arg5 (ValueIdx.ix2 k q)) :=
  (dat1 (F := Ideal) V c).arrAt_apply_of_mem 2 (mmProd (V c (Pipeline.arrRef spec1 0)) (V c (Pipeline.arrRef spec1 1)))
    (fun t _ => funext (mm_prod_block _ _ t))
    cfg1.N ⟨p.val / 10000, mm_div_lt p⟩ (ValueIdx.ix2 p q) (mm_div_lt p) (flush1_2 _)
    (by show _ ∈ ((View.whole (Pipeline.arrRef spec1 2)).slice (win0_2.rect _)).set
        rw [View.set_slice_whole]; exact mm_mem _ p q rfl)

end Cert.KernelIdeal.Hand
-- ==== Proof.KI.Val2.lean ====
import proofs.«411265_j32847909880435_1_alg».proof.Proof.KI.Reg2

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable (V : (c : Dev nD) → (b : Ref sig .tc) → Buf (Elt Ideal) ((c : Thread nD τ).loc b))

/-- Point t's output is block t of the product array, and the ten blocks tile its rows. -/
theorem final2_apply (c : Dev nD) (p : Fin 100000) (q : Fin 128) :
    (dat2 (F := Ideal) V c).arrAt 2 cfg2.N (ValueIdx.ix2 p q)
      = ∑ k : Fin 160, @HMul.hMul EReal EReal EReal _ (V c main_v17 (ValueIdx.ix2 p k)) (V c main_arg6 (ValueIdx.ix2 k q)) :=
  (dat2 (F := Ideal) V c).arrAt_apply_of_mem 2 (mmProd (V c (Pipeline.arrRef spec2 0)) (V c (Pipeline.arrRef spec2 1)))
    (fun t _ => funext (mm_prod_block _ _ t))
    cfg2.N ⟨p.val / 10000, mm_div_lt p⟩ (ValueIdx.ix2 p q) (mm_div_lt p) (flush2_2 _)
    (by show _ ∈ ((View.whole (Pipeline.arrRef spec2 2)).slice (win0_2.rect _)).set
        rw [View.set_slice_whole]; exact mm_mem _ p q rfl)

end Cert.KernelIdeal.Hand
-- ==== Proof.KI.Val3.lean ====
import proofs.«411265_j32847909880435_1_alg».proof.Proof.KI.Reg3

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable (V : (c : Dev nD) → (b : Ref sig .tc) → Buf (Elt Ideal) ((c : Thread nD τ).loc b))

/-- Point t's output is block t of the product array, and the ten blocks tile its rows. -/
theorem final3_apply (c : Dev nD) (p : Fin 100000) (q : Fin 128) :
    (dat3 (F := Ideal) V c).arrAt 2 cfg3.N (ValueIdx.ix2 p q)
      = ∑ k : Fin 160, @HMul.hMul EReal EReal EReal _ (V c main_v23 (ValueIdx.ix2 p k)) (V c main_arg7 (ValueIdx.ix2 k q)) :=
  (dat3 (F := Ideal) V c).arrAt_apply_of_mem 2 (mmProd (V c (Pipeline.arrRef spec3 0)) (V c (Pipeline.arrRef spec3 1)))
    (fun t _ => funext (mm_prod_block _ _ t))
    cfg3.N ⟨p.val / 10000, mm_div_lt p⟩ (ValueIdx.ix2 p q) (mm_div_lt p) (flush3_2 _)
    (by show _ ∈ ((View.whole (Pipeline.arrRef spec3 2)).slice (win0_2.rect _)).set
        rw [View.set_slice_whole]; exact mm_mem _ p q rfl)

end Cert.KernelIdeal.Hand
-- ==== Proof.KI.Val4.lean ====
import proofs.«411265_j32847909880435_1_alg».proof.Proof.KI.Reg4

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable (V : (c : Dev nD) → (b : Ref sig .tc) → Buf (Elt Ideal) ((c : Thread nD τ).loc b))

/-- Point t's output is block t of the product array, and the ten blocks tile its rows. -/
theorem final4_apply (c : Dev nD) (p : Fin 100000) (q : Fin 128) :
    (dat4 (F := Ideal) V c).arrAt 2 cfg4.N (ValueIdx.ix2 p q)
      = ∑ k : Fin 160, @HMul.hMul EReal EReal EReal _ (V c main_v29 (ValueIdx.ix2 p k)) (V c main_arg8 (ValueIdx.ix2 k q)) :=
  (dat4 (F := Ideal) V c).arrAt_apply_of_mem 2 (mmProd (V c (Pipeline.arrRef spec4 0)) (V c (Pipeline.arrRef spec4 1)))
    (fun t _ => funext (mm_prod_block _ _ t))
    cfg4.N ⟨p.val / 10000, mm_div_lt p⟩ (ValueIdx.ix2 p q) (mm_div_lt p) (flush4_2 _)
    (by show _ ∈ ((View.whole (Pipeline.arrRef spec4 2)).slice (win0_2.rect _)).set
        rw [View.set_slice_whole]; exact mm_mem _ p q rfl)

end Cert.KernelIdeal.Hand
-- ==== Proof.Bridge.Deg.lean ====
import proofs.«411265_j32847909880435_1_alg».proof.Proof.Bridge.Summed
import proofs.«411265_j32847909880435_1_alg».proof.Proof.KI.Frame
import proofs.«411265_j32847909880435_1_alg».proof.Proof.KI.Host
import proofs.«411265_j32847909880435_1_alg».proof.Proof.KI.Val0
import proofs.«411265_j32847909880435_1_alg».proof.Proof.KI.Val1
import proofs.«411265_j32847909880435_1_alg».proof.Proof.KI.Val2
import proofs.«411265_j32847909880435_1_alg».proof.Proof.KI.Val3
import proofs.«411265_j32847909880435_1_alg».proof.Proof.KI.Val4
import proofs.«411265_j32847909880435_1_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

namespace Cert.Bridge

open Idealize.ShloMosaic Idealize.ShloMosaic.TcCoe Idealize.SL.Sem

-- Arrays that at (p, q) are the same sum over k of a (p, k) * w (k, q), one read through index maps to (p, k) and (k, q), are equal.
theorem prod_ext {P Q K : ℕ} {y z : (⟨2, ![P, Q]⟩ : Shape).Idx → EReal} {a a' : (⟨2, ![P, K]⟩ : Shape).Idx → EReal}
    {w w' : (⟨2, ![K, Q]⟩ : Shape).Idx → EReal} {l : (⟨2, ![P, Q]⟩ : Shape).Idx → Fin K → (⟨2, ![P, K]⟩ : Shape).Idx}
    {r : (⟨2, ![P, Q]⟩ : Shape).Idx → Fin K → (⟨2, ![K, Q]⟩ : Shape).Idx}
    (hy : ∀ p q, y (ValueIdx.ix2 p q) = ∑ k : Fin K, a (ValueIdx.ix2 p k) * w (ValueIdx.ix2 k q))
    (hz : ∀ i, z i = ∑ k : Fin K, a' (l i k) * w' (r i k))
    (hl : ∀ p q k, l (ValueIdx.ix2 p q) k = ValueIdx.ix2 p k) (hr : ∀ p q k, r (ValueIdx.ix2 p q) k = ValueIdx.ix2 k q)
    (ha : a = a') (hw : w = w') : y = z := by
  subst ha hw
  funext i
  obtain ⟨p, q, rfl⟩ : ∃ p q, i = ValueIdx.ix2 p q := ⟨i 0, i 1, ValueIdx.eq_ix2 i⟩
  rw [hy, hz]
  exact Finset.sum_congr rfl fun k _ => by rw [hl, hr]

section
variable (m : KMem) (m' : RMem) (hpre : Cert.Pre_KernelIdeal m) (hagree : Agree m m')
include hpre hagree

theorem deg1_eq (c : Dev Cert.KernelIdeal.nD) :
    (Cert.KernelIdeal.Hand.outsH m 5 Cert.KernelIdeal.main_v6 c : Vec Ideal Cert.KernelIdeal.S100000x128 .f32) = refDeg1 m' c :=
  prod_ext (fun p q => by
      rw [Cert.KernelIdeal.Hand.outs_v6 m c]
      exact Cert.KernelIdeal.Hand.final0_apply (fun c b => Cert.KernelIdeal.Gen.V4 m c b) c p q)
    (Cert.ReferenceIdeal.Read.val_main_v18_apply _ _ _ _ _) (fun _ _ _ => ValueIdx.eq_ix2 _) (fun _ _ _ => ValueIdx.eq_ix2 _)
    (summed1_eq m m' hpre hagree c) ((Cert.KernelIdeal.Hand.V4_main_arg4 m c).trans (arg4_eq m m' hagree c).symm)

theorem deg2_eq (c : Dev Cert.KernelIdeal.nD) :
    (Cert.KernelIdeal.Hand.outsH m 9 Cert.KernelIdeal.main_v12 c : Vec Ideal Cert.KernelIdeal.S100000x128 .f32) = refDeg2 m' c :=
  prod_ext (fun p q => by
      rw [Cert.KernelIdeal.Hand.outs_v12 m c]
      exact Cert.KernelIdeal.Hand.final1_apply (fun c b => Cert.KernelIdeal.Gen.V8 m (Cert.KernelIdeal.Hand.outsH m) c b) c p q)
    (Cert.ReferenceIdeal.Read.val_main_v36_apply _ _ _ _ _) (fun _ _ _ => ValueIdx.eq_ix2 _) (fun _ _ _ => ValueIdx.eq_ix2 _)
    (summed2_eq m m' hpre hagree c) ((Cert.KernelIdeal.Hand.V8_main_arg5 m (Cert.KernelIdeal.Hand.outsH m) c).trans (arg5_eq m m' hagree c).symm)

theorem deg3_eq (c : Dev Cert.KernelIdeal.nD) :
    (Cert.KernelIdeal.Hand.outsH m 13 Cert.KernelIdeal.main_v18 c : Vec Ideal Cert.KernelIdeal.S100000x128 .f32) = refDeg3 m' c :=
  prod_ext (fun p q => by
      rw [Cert.KernelIdeal.Hand.outs_v18 m c]
      exact Cert.KernelIdeal.Hand.final2_apply (fun c b => Cert.KernelIdeal.Gen.V12 m (Cert.KernelIdeal.Hand.outsH m) c b) c p q)
    (Cert.ReferenceIdeal.Read.val_main_v54_apply _ _ _ _ _) (fun _ _ _ => ValueIdx.eq_ix2 _) (fun _ _ _ => ValueIdx.eq_ix2 _)
    (summed3_eq m m' hpre hagree c) ((Cert.KernelIdeal.Hand.V12_main_arg6 m (Cert.KernelIdeal.Hand.outsH m) c).trans (arg6_eq m m' hagree c).symm)

theorem deg4_eq (c : Dev Cert.KernelIdeal.nD) :
    (Cert.KernelIdeal.Hand.outsH m 17 Cert.KernelIdeal.main_v24 c : Vec Ideal Cert.KernelIdeal.S100000x128 .f32) = refDeg4 m' c :=
  prod_ext (fun p q => by
      rw [Cert.KernelIdeal.Hand.outs_v24 m c]
      exact Cert.KernelIdeal.Hand.final3_apply (fun c b => Cert.KernelIdeal.Gen.V16 m (Cert.KernelIdeal.Hand.outsH m) c b) c p q)
    (Cert.ReferenceIdeal.Read.val_main_v72_apply _ _ _ _ _) (fun _ _ _ => ValueIdx.eq_ix2 _) (fun _ _ _ => ValueIdx.eq_ix2 _)
    (summed4_eq m m' hpre hagree c) ((Cert.KernelIdeal.Hand.V16_main_arg7 m (Cert.KernelIdeal.Hand.outsH m) c).trans (arg7_eq m m' hagree c).symm)

theorem deg5_eq (c : Dev Cert.KernelIdeal.nD) :
    (Cert.KernelIdeal.Hand.outsH m 21 Cert.KernelIdeal.main_v30 c : Vec Ideal Cert.KernelIdeal.S100000x128 .f32) = refDeg5 m' c :=
  prod_ext (fun p q => by
      rw [Cert.KernelIdeal.Hand.outs_v30 m c]
      exact Cert.KernelIdeal.Hand.final4_apply (fun c b => Cert.KernelIdeal.Gen.V20 m (Cert.KernelIdeal.Hand.outsH m) c b) c p q)
    (Cert.ReferenceIdeal.Read.val_main_v90_apply _ _ _ _ _) (fun _ _ _ => ValueIdx.eq_ix2 _) (fun _ _ _ => ValueIdx.eq_ix2 _)
    (summed5_eq m m' hpre hagree c) ((Cert.KernelIdeal.Hand.V20_main_arg8 m (Cert.KernelIdeal.Hand.outsH m) c).trans (arg8_eq m m' hagree c).symm)

end

end Cert.Bridge

end
-- ==== Proof.Spec.Entries.lean ====
import Idealize.ShloMosaic.PureOps.Ideal
import Idealize.ShloMosaic.PureOps.Ideal.Laws
import Idealize.ShloMosaic.PureOps.ShapeOps
import Idealize.ShloMosaic.PureOps.Contract
import Idealize.ShloMosaic.PureOps.Vector
import Mathlib.Tactic.NormNum
import proofs.«411265_j32847909880435_1_alg».proof.Proof.Spec.Algebra

namespace Cert.Spec

open Idealize.ShloMosaic
open scoped BigOperators

theorem constant_zero_real {s : Shape} :
    ∀ i, ∃ r : ℝ, (constant s .f32 0x00000000#32 : FVec Ideal s .f32) i = (r : EReal) :=
  fun _ => ⟨0, Ideal.ofBits_zero_f32⟩

-- An entry of a concatenation is an entry of the part that holds its coordinate on the stacked axis.
theorem concatenate_real (t : Shape) (a : Fin t.rank) (xs : List ((s : Shape) × (s.Idx → EReal)))
    (h : Shape.Concatenates (xs.map (·.1)) t a) (hx : ∀ p ∈ xs, ∀ i, ∃ r : ℝ, p.2 i = (r : EReal)) :
    ∀ j, ∃ r : ℝ, concatenate t a xs h j = (r : EReal) := by
  intro j
  dsimp only [concatenate]
  exact hx _ (List.getElem_mem _) _

theorem real_nil : ∀ p ∈ ([] : List ((s : Shape) × (s.Idx → EReal))), ∀ i, ∃ r : ℝ, p.2 i = (r : EReal) :=
  fun _ h => nomatch h

theorem real_cons {p : (s : Shape) × (s.Idx → EReal)} {xs : List ((s : Shape) × (s.Idx → EReal))}
    (hp : ∀ i, ∃ r : ℝ, p.2 i = (r : EReal)) (hxs : ∀ q ∈ xs, ∀ i, ∃ r : ℝ, q.2 i = (r : EReal)) :
    ∀ q ∈ p :: xs, ∀ i, ∃ r : ℝ, q.2 i = (r : EReal) :=
  List.forall_mem_cons.2 ⟨hp, hxs⟩

-- A gathered entry is an entry of the table, and the sum along axes adds finitely many of them to zero.
theorem gather_sum_real {s si g t u : Shape} {w : Nat} {axes : List (Fin g.rank)} {d : GatherDims s si g}
    {x : FVec Ideal s .f32} {idx : IVec si w} {h : g.ReducesTo axes t} {hu : 0 < u.numel}
    (hx : ∀ i, ∃ r : ℝ, x i = (r : EReal)) :
    ∀ j, ∃ r : ℝ, Host.reduceAdd (Host.gather d x idx : FVec Ideal g .f32) (constant u .f32 0x00000000#32) h hu j = (r : EReal) := by
  intro j
  show ∃ r : ℝ, Ideal.hostReduceAdd h (Host.gather d x idx) _ j = (r : EReal)
  unfold Ideal.hostReduceAdd
  exact real_add (constant_zero_real _) (real_sum _ _ fun i _ => hx _)

-- A contraction is a finite sum of products of entries.
theorem dotGeneral_real {sl sr so : Shape} {φ₁ φ₂ : FTy} (d : DotDims sl sr so) (prec : Option ContractPrecision)
    (l : FVec Ideal sl φ₁) (r : FVec Ideal sr φ₂) (hl : ∀ i, ∃ a : ℝ, l i = (a : EReal))
    (hr : ∀ i, ∃ a : ℝ, r i = (a : EReal)) : ∀ j, ∃ a : ℝ, Host.dotGeneral d prec l r j = (a : EReal) := by
  intro j
  show ∃ a : ℝ, FloatOps.dotGeneral d prec .single l r j = (a : EReal)
  rw [Ideal.dotGeneral_apply]
  exact real_sum_univ _ fun k => real_mul (hl _) (hr _)

-- Two real arrays side by side, contracted with a real array, give a real array.
theorem deg_real {sa sb t sw so : Shape} {a : Fin t.rank} {A : sa.Idx → EReal} {B : sb.Idx → EReal}
    {hc : Shape.Concatenates (([⟨sa, A⟩, ⟨sb, B⟩] : List ((s : Shape) × (s.Idx → EReal))).map (·.1)) t a}
    {d : DotDims t sw so} {prec : Option ContractPrecision} {xw : FVec Ideal sw .f32}
    (hA : ∀ i, ∃ r : ℝ, A i = (r : EReal)) (hB : ∀ i, ∃ r : ℝ, B i = (r : EReal))
    (hw : ∀ i, ∃ r : ℝ, xw i = (r : EReal)) :
    ∀ j, ∃ r : ℝ, Host.dotGeneral d prec (concatenate t a [⟨sa, A⟩, ⟨sb, B⟩] hc : FVec Ideal t .f32) xw j = (r : EReal) :=
  dotGeneral_real d prec _ xw (concatenate_real t a _ hc (real_cons hA (real_cons hB real_nil))) hw

end Cert.Spec
-- ==== Proof.Bridge.Neighbor.lean ====
import proofs.«411265_j32847909880435_1_alg».proof.Proof.Bridge.Deg
import proofs.«411265_j32847909880435_1_alg».proof.Proof.KI.Frame
import proofs.«411265_j32847909880435_1_alg».proof.Proof.KI.Host
import proofs.«411265_j32847909880435_1_alg».proof.Proof.Spec.Entries
import proofs.«411265_j32847909880435_1_alg».proof.Proof.Gen.ReferenceIdeal.Read

set_option maxRecDepth 16384

noncomputable section

namespace Cert.Bridge

open Idealize.ShloMosaic Idealize.ShloMosaic.TcCoe Idealize.SL.Sem Cert.Spec

section
variable (m : KMem) (m' : RMem) (hpre : Cert.Pre_KernelIdeal m) (hagree : Agree m m')
include hpre hagree

-- Both neighbor arrays are the same six blocks stacked by rows: a zero block and the five products, equal by stage 2.
theorem neighbor_eq (c : Dev Cert.KernelIdeal.nD) :
    (Cert.KernelIdeal.Gen.V22 m (Cert.KernelIdeal.Hand.outsH m) c Cert.KernelIdeal.main_v31 : Vec Ideal Cert.KernelIdeal.S600000x128 .f32) = refNeighbor m' c := by
  rw [Cert.KernelIdeal.Hand.neighbor_eq m (Cert.KernelIdeal.Hand.outsH m) c, deg1_eq m m' hpre hagree c, deg2_eq m m' hpre hagree c,
    deg3_eq m m' hpre hagree c, deg4_eq m m' hpre hagree c, deg5_eq m m' hpre hagree c]
  rfl

-- Each block is real: zeros, or two gathers of real tables summed over the degree axis, side by side, contracted with a real weight.
theorem neighbor_real (c : Dev Cert.KernelIdeal.nD) (i : Cert.KernelIdeal.S600000x128.Idx) :
    ∃ r : ℝ, (Cert.KernelIdeal.Gen.V22 m (Cert.KernelIdeal.Hand.outsH m) c Cert.KernelIdeal.main_v31 : Vec Ideal Cert.KernelIdeal.S600000x128 .f32) i = (r : EReal) := by
  have h0 := rfin0 m m' hpre hagree c
  have h1 := rfin1 m m' hpre hagree c
  rw [neighbor_eq m m' hpre hagree c]
  exact concatenate_real _ _ _ _ (real_cons (fun _ => ⟨0, Ideal.ofBits_zero_f32⟩)
    (real_cons (deg_real (gather_sum_real h0) (gather_sum_real h1) (rfin4 m m' hpre hagree c))
    (real_cons (deg_real (gather_sum_real h0) (gather_sum_real h1) (rfin5 m m' hpre hagree c))
    (real_cons (deg_real (gather_sum_real h0) (gather_sum_real h1) (rfin6 m m' hpre hagree c))
    (real_cons (deg_real (gather_sum_real h0) (gather_sum_real h1) (rfin7 m m' hpre hagree c))
    (real_cons (deg_real (gather_sum_real h0) (gather_sum_real h1) (rfin8 m m' hpre hagree c)) real_nil)))))) i

end

end Cert.Bridge

end
-- ==== Proof.KI.Val5Pay.lean ====
import proofs.«411265_j32847909880435_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

abbrev dd5 : DotDims S5000x128 S128x128 S5000x128 := dot_S5000x128_S128x128_S5000x128_1_0_0_1_n_n

theorem dd5_lhs0 (i : S5000x128.Idx) (k : dd5.contr.Idx) : (dd5.lhsIdx i k 0).val = (i 0).val := by
  unfold DotDims.lhsIdx
  rw [dif_neg (show ¬(0 : Fin S5000x128.rank) ∈ dd5.lhsBatch by decide),
    dif_pos (show (0 : Fin S5000x128.rank) ∈ dd5.lhsNonContracting by decide)]
  rfl

theorem dd5_lhs1 (i : S5000x128.Idx) (k : dd5.contr.Idx) : (dd5.lhsIdx i k 1).val = (k ⟨0, by decide⟩).val :=
  dd5.lhsIdx_val_of_single rfl i k

theorem dd5_rhs0 (i : S5000x128.Idx) (k : dd5.contr.Idx) : (dd5.rhsIdx i k 0).val = (k ⟨0, by decide⟩).val :=
  dd5.rhsIdx_val_of_single rfl i k

theorem dd5_rhs1 (i : S5000x128.Idx) (k : dd5.contr.Idx) : (dd5.rhsIdx i k 1).val = (i 1).val := by
  unfold DotDims.rhsIdx
  rw [dif_neg (show ¬(1 : Fin S128x128.rank) ∈ dd5.rhsBatch by decide),
    dif_pos (show (1 : Fin S128x128.rank) ∈ dd5.rhsNonContracting by decide)]
  rfl

theorem mm5_apply {φ₁ φ₂ : FTy} (a : FVec Ideal S5000x128 φ₁) (b : FVec Ideal S128x128 φ₂) (r : Fin 5000) (q : Fin 128) :
    matmul dd5 none a b (constant S5000x128 .f32 0x00000000#32) (ix2 r q) = ∑ k : Fin 128, a (ix2 r k) * b (ix2 k q) := by
  refine (Ideal.matmul_constant_zero_apply dd5 none a b (ix2 r q)).trans ?_
  rw [← Equiv.sum_comp (contrEquiv1 dd5 128 rfl rfl).symm]
  refine Finset.sum_congr rfl fun k _ => ?_
  have hk := contrEquiv1_symm_val dd5 128 rfl rfl k
  have el : dd5.lhsIdx (ix2 r q) ((contrEquiv1 dd5 128 rfl rfl).symm k) = ix2 r k := funext fun a => Fin.ext (by
    match a with
    | ⟨0, _⟩ => exact dd5_lhs0 _ _
    | ⟨1, _⟩ => exact (dd5_lhs1 _ _).trans hk)
  have er : dd5.rhsIdx (ix2 r q) ((contrEquiv1 dd5 128 rfl rfl).symm k) = ix2 k q := funext fun a => Fin.ext (by
    match a with
    | ⟨0, _⟩ => exact (dd5_rhs0 _ _).trans hk
    | ⟨1, _⟩ => exact dd5_rhs1 _ _)
  rw [el, er]

theorem k5_pay3_apply (x0 : FVec Ideal S5000x128 .f32) (x2 : FVec Ideal S128x128 .f32) (x1 : FVec Ideal S5000x128 .f32)
    (x3 : FVec Ideal S1x128 .f32) (r : Fin 5000) (q : Fin 128) :
    k5_pay3 (F := Ideal) x0 x2 x1 x3 (ix2 r q)
      = (∑ k : Fin 128, x0 (ix2 r k) * x2 (ix2 k q)) + x1 (ix2 r q) + x3 (ix2 (0 : Fin 1) q) := by
  unfold k5_pay3
  show (matmul (F := Ideal) dd5 none (truncf .bf16 x0 bitsLt_bf16_f32) (truncf .bf16 x2 bitsLt_bf16_f32) (constant S5000x128 .f32 0x00000000#32) (ix2 r q)
      + shapeCast S5000x128 x1 shapeCasts_S5000x128_S5000x128 (ix2 r q))
      + broadcastTo S5000x128 x3 broadcasts_S1x128_S5000x128 (ix2 r q) = _
  rw [mm5_apply, shapeCast_self, broadcastTo_1b_ab_apply]
  rfl

theorem lift5 (q : Fin 128) (r : Fin 5000) : reduces_S5000x128_S128.lift (ix1 q) r = ix2 r q := by
  funext a
  match a with
  | ⟨0, _⟩ => rfl
  | ⟨1, _⟩ => rfl

theorem colsum5_apply (y : FVec Ideal S5000x128 .f32) (q : Fin 128) :
    shapeCast S1x128 (multiReduction .add [0] S128 y 0x00000000#32 reduces_S5000x128_S128 (.inl rfl) rfl) shapeCasts_S128_S1x128 (ix2 (0 : Fin 1) q)
      = ∑ r : Fin 5000, y (ix2 r q) := by
  rw [shapeCast_a_1a_apply]
  refine (Ideal.multiReduction_add_single y 0x00000000#32 reduces_S5000x128_S128 (.inl rfl) rfl (ix1 q)).trans ?_
  show ∑ r : Fin 5000, y (reduces_S5000x128_S128.lift (ix1 q) r) = _
  exact Finset.sum_congr rfl fun r _ => congrArg y (lift5 q r)

theorem k5_pay4_apply (x0 : FVec Ideal S5000x128 .f32) (x2 : FVec Ideal S128x128 .f32) (x1 : FVec Ideal S5000x128 .f32)
    (x3 : FVec Ideal S1x128 .f32) (prev : FVec Ideal S1x128 .f32) (q : Fin 128) :
    k5_pay4 (F := Ideal) x0 x2 x1 x3 prev (ix2 (0 : Fin 1) q)
      = prev (ix2 (0 : Fin 1) q) + ∑ r : Fin 5000, k5_pay3 (F := Ideal) x0 x2 x1 x3 (ix2 r q) := by
  unfold k5_pay4
  generalize k5_pay3 (F := Ideal) x0 x2 x1 x3 = y
  show shapeCast S1x128 prev shapeCasts_S1x128_S1x128 (ix2 (0 : Fin 1) q)
      + shapeCast S1x128 (multiReduction .add [0] S128 y 0x00000000#32 reduces_S5000x128_S128 (.inl rfl) rfl) shapeCasts_S128_S1x128 (ix2 (0 : Fin 1) q) = _
  rw [shapeCast_self, colsum5_apply]

theorem k5_pay5_apply (x0 : FVec Ideal S5000x128 .f32) (x2 : FVec Ideal S128x128 .f32) (x1 : FVec Ideal S5000x128 .f32)
    (x3 : FVec Ideal S1x128 .f32) (prev : FVec Ideal S1x128 .f32) (q : Fin 128) :
    k5_pay5 (F := Ideal) x0 x2 x1 x3 prev (ix2 (0 : Fin 1) q)
      = prev (ix2 (0 : Fin 1) q)
        + ∑ r : Fin 5000, k5_pay3 (F := Ideal) x0 x2 x1 x3 (ix2 r q) * k5_pay3 (F := Ideal) x0 x2 x1 x3 (ix2 r q) := by
  unfold k5_pay5
  generalize k5_pay3 (F := Ideal) x0 x2 x1 x3 = y
  show shapeCast S1x128 prev shapeCasts_S1x128_S1x128 (ix2 (0 : Fin 1) q)
      + shapeCast S1x128 (multiReduction .add [0] S128 (mulf y y) 0x00000000#32 reduces_S5000x128_S128 (.inl rfl) rfl) shapeCasts_S128_S1x128 (ix2 (0 : Fin 1) q) = _
  rw [shapeCast_self, colsum5_apply]
  rfl

theorem k5_pay1_apply (i : S1x128.Idx) : k5_pay1 (F := Ideal) i = 0 := by
  unfold k5_pay1
  show Ideal.ofBits .f32 0x00000000#32 = 0
  exact Ideal.ofBits_zero_f32
theorem k5_pay2_apply (i : S1x128.Idx) : k5_pay2 (F := Ideal) i = 0 := by
  unfold k5_pay2
  show Ideal.ofBits .f32 0x00000000#32 = 0
  exact Ideal.ofBits_zero_f32

end Cert.KernelIdeal.Hand

end
-- ==== Proof.KI.Val5.lean ====
import proofs.«411265_j32847909880435_1_alg».proof.Proof.KI.Reg5
import proofs.«411265_j32847909880435_1_alg».proof.Proof.KI.Val5Pay
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)
open scoped BigOperators

variable (V : (c : Dev nD) → (b : Ref sig .tc) → Buf (Elt Ideal) ((c : Thread nD τ).loc b))

abbrev aff5 (node : S600000x128.Idx → EReal) (w : S128x128.Idx → EReal) (nbr : S600000x128.Idx → EReal)
    (bias : S1x128.Idx → EReal) (p : Fin 600000) (q : Fin 128) : EReal :=
  (∑ k : Fin 128, node (ix2 p k) * w (ix2 k q)) + nbr (ix2 p q) + bias (ix2 (0 : Fin 1) q)

abbrev A5 (c : Dev nD) (p : Fin 600000) (q : Fin 128) : EReal :=
  aff5 (V c main_arg0) (V c main_arg2) (V c main_v31) (V c main_arg3) p q

theorem idx_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0 :=
  (by decide +kernel : ∀ t : Fin grid5.N, _)

theorem row_lt5 (t : Fin cfg5.N) (r : Fin 5000) : 5000 * t.val + r.val < 600000 := by
  have h1 : t.val < 120 := t.isLt
  have h2 := r.isLt
  omega

abbrev row5 (t : Fin cfg5.N) (r : Fin 5000) : Fin 600000 := ⟨5000 * t.val + r.val, row_lt5 t r⟩

-- Where an element of point t's block sits in its array: rows 5000 t + r for the windows that move with the point, the element's own place for those that stay.
theorem emb5_0 (t : Fin cfg5.N) (r : Fin 5000) (q : Fin 128) : ((cfg5.win 0).blk t).view.emb (ix2 r q) = ix2 (row5 t r) q := by
  obtain ⟨e0, e1, -⟩ := idx_facts5 t
  funext a; apply Fin.ext
  match a with
  | ⟨0, _⟩ => show win5_0.index t (0 : Fin 2) * 5000 + 1 * r.val = 5000 * t.val + r.val; rw [e0]; omega
  | ⟨1, _⟩ => show win5_0.index t (1 : Fin 2) * 128 + 1 * q.val = q.val; rw [e1]; omega
theorem emb5_1 (t : Fin cfg5.N) (r : Fin 5000) (q : Fin 128) : ((cfg5.win 1).blk t).view.emb (ix2 r q) = ix2 (row5 t r) q := by
  obtain ⟨-, -, e0, e1, -⟩ := idx_facts5 t
  funext a; apply Fin.ext
  match a with
  | ⟨0, _⟩ => show win5_1.index t (0 : Fin 2) * 5000 + 1 * r.val = 5000 * t.val + r.val; rw [e0]; omega
  | ⟨1, _⟩ => show win5_1.index t (1 : Fin 2) * 128 + 1 * q.val = q.val; rw [e1]; omega
theorem emb5_2 (t : Fin cfg5.N) (k q : Fin 128) : ((cfg5.win 2).blk t).view.emb (ix2 k q) = ix2 k q := by
  obtain ⟨-, -, -, -, e0, e1, -⟩ := idx_facts5 t
  funext a; apply Fin.ext
  match a with
  | ⟨0, _⟩ => show win5_2.index t (0 : Fin 2) * 128 + 1 * k.val = k.val; rw [e0]; omega
  | ⟨1, _⟩ => show win5_2.index t (1 : Fin 2) * 128 + 1 * q.val = q.val; rw [e1]; omega
theorem emb5_3 (t : Fin cfg5.N) (u : Fin 1) (q : Fin 128) : ((cfg5.win 3).blk t).view.emb (ix2 u q) = ix2 u q := by
  obtain ⟨-, -, -, -, -, -, e0, e1, -⟩ := idx_facts5 t
  funext a; apply Fin.ext
  match a with
  | ⟨0, _⟩ => show win5_3.index t (0 : Fin 2) * 1 + 1 * u.val = u.val; rw [e0]; omega
  | ⟨1, _⟩ => show win5_3.index t (1 : Fin 2) * 128 + 1 * q.val = q.val; rw [e1]; omega
theorem emb5_4 (t : Fin cfg5.N) (r : Fin 5000) (q : Fin 128) : ((cfg5.win 4).blk t).view.emb (ix2 r q) = ix2 (row5 t r) q := by
  obtain ⟨-, -, -, -, -, -, -, -, e0, e1, -⟩ := idx_facts5 t
  funext a; apply Fin.ext
  match a with
  | ⟨0, _⟩ => show win5_4.index t (0 : Fin 2) * 5000 + 1 * r.val = 5000 * t.val + r.val; rw [e0]; omega
  | ⟨1, _⟩ => show win5_4.index t (1 : Fin 2) * 128 + 1 * q.val = q.val; rw [e1]; omega
theorem emb5_5 (t : Fin cfg5.N) (u : Fin 1) (q : Fin 128) : ((cfg5.win 5).blk t).view.emb (ix2 u q) = ix2 u q := by
  obtain ⟨-, -, -, -, -, -, -, -, -, -, e0, e1, -⟩ := idx_facts5 t
  funext a; apply Fin.ext
  match a with
  | ⟨0, _⟩ => show win5_5.index t (0 : Fin 2) * 1 + 1 * u.val = u.val; rw [e0]; omega
  | ⟨1, _⟩ => show win5_5.index t (1 : Fin 2) * 128 + 1 * q.val = q.val; rw [e1]; omega
theorem emb5_6 (t : Fin cfg5.N) (u : Fin 1) (q : Fin 128) : ((cfg5.win 6).blk t).view.emb (ix2 u q) = ix2 u q := by
  obtain ⟨-, -, -, -, -, -, -, -, -, -, -, -, e0, e1⟩ := idx_facts5 t
  funext a; apply Fin.ext
  match a with
  | ⟨0, _⟩ => show win5_6.index t (0 : Fin 2) * 1 + 1 * u.val = u.val; rw [e0]; omega
  | ⟨1, _⟩ => show win5_6.index t (1 : Fin 2) * 128 + 1 * q.val = q.val; rw [e1]; omega

theorem iblk5_0_apply (c : Dev nD) (t : Fin cfg5.N) (r : Fin 5000) (q : Fin 128) :
    iblk5 (F := Ideal) V c 0 t (ix2 r q) = V c main_arg0 (ix2 (row5 t r) q) := congrArg (V c main_arg0) (emb5_0 t r q)
theorem iblk5_1_apply (c : Dev nD) (t : Fin cfg5.N) (r : Fin 5000) (q : Fin 128) :
    iblk5 (F := Ideal) V c 1 t (ix2 r q) = V c main_v31 (ix2 (row5 t r) q) := congrArg (V c main_v31) (emb5_1 t r q)
theorem iblk5_2_apply (c : Dev nD) (t : Fin cfg5.N) (k q : Fin 128) :
    iblk5 (F := Ideal) V c 2 t (ix2 k q) = V c main_arg2 (ix2 k q) := congrArg (V c main_arg2) (emb5_2 t k q)
theorem iblk5_3_apply (c : Dev nD) (t : Fin cfg5.N) (u : Fin 1) (q : Fin 128) :
    iblk5 (F := Ideal) V c 3 t (ix2 u q) = V c main_arg3 (ix2 u q) := congrArg (V c main_arg3) (emb5_3 t u q)

-- THE BLOCK POINT t STORES is, entry by entry, the affine map's rows 5000 t .. 5000 t + 4999.
theorem blk5_apply (c : Dev nD) (t : Fin cfg5.N) (r : Fin 5000) (q : Fin 128) :
    k5_pay3 (F := Ideal) (iblk5 V c 0 t) (iblk5 V c 2 t) (iblk5 V c 1 t) (iblk5 V c 3 t) (ix2 r q) = A5 V c (row5 t r) q := by
  refine (k5_pay3_apply _ _ _ _ r q).trans ?_
  simp only [iblk5_0_apply, iblk5_1_apply, iblk5_2_apply, iblk5_3_apply]

def affArr5 (c : Dev nD) : S600000x128.Idx → EReal :=
  fun i => A5 V c ⟨(i 0).val, idx2_lt0 i⟩ ⟨(i 1).val, idx2_lt1 i⟩

theorem affArr5_apply (c : Dev nD) (p : Fin 600000) (q : Fin 128) : affArr5 V c (ix2 p q) = A5 V c p q := by
  unfold affArr5
  exact congrArg₂ (A5 V c) (Fin.ext rfl) (Fin.ext rfl)

theorem flushed5_4_eq (c : Dev nD) (t : Fin cfg5.N) :
    (dat5 (F := Ideal) V c).flushed 4 t = ((cfg5.win 4).blk t).view.read (Elt Ideal) (affArr5 V c) := by
  funext j
  obtain ⟨r, q, rfl⟩ : ∃ (r : Fin 5000) (q : Fin 128), j = ix2 r q := ⟨_, _, eq_ix2 j⟩
  show k5_pay3 (F := Ideal) (iblk5 V c 0 t) (iblk5 V c 2 t) (iblk5 V c 1 t) (iblk5 V c 3 t) (ix2 r q)
    = affArr5 V c (((cfg5.win 4).blk t).view.emb (ix2 r q))
  rw [blk5_apply, emb5_4, affArr5_apply]

-- THE STORED ARRAY holds the affine map: row p lies in the block of point p / 5000.
theorem final5_a_apply (c : Dev nD) (p : Fin 600000) (q : Fin 128) :
    (dat5 (F := Ideal) V c).arrAt 4 cfg5.N (ix2 p q) = A5 V c p q := by
  have hp := p.isLt
  have ht : p.val / 5000 < cfg5.N := show _ < 120 by omega
  refine ((dat5 (F := Ideal) V c).arrAt_apply_of_mem 4 (affArr5 V c) (fun t _ => flushed5_4_eq V c t) cfg5.N
    ⟨p.val / 5000, ht⟩ (ix2 p q) ht (flush5_4 _) ?_).trans (affArr5_apply V c p q)
  rw [← (emb5_4 ⟨p.val / 5000, ht⟩ ⟨p.val % 5000, Nat.mod_lt _ (by decide)⟩ q).trans
    (congrArg (ix2 · q) (Fin.ext (Nat.div_add_mod p.val 5000)))]
  exact View.emb_mem_set _ _

def Aext5 (c : Dev nD) (q : Fin 128) (p : ℕ) : EReal := if h : p < 600000 then A5 V c ⟨p, h⟩ q else 0

theorem blk_sum5 (c : Dev nD) (q : Fin 128) (f : EReal → EReal) (t : Fin cfg5.N) :
    ∑ r : Fin 5000, f (k5_pay3 (F := Ideal) (iblk5 V c 0 t) (iblk5 V c 2 t) (iblk5 V c 1 t) (iblk5 V c 3 t) (ix2 r q))
      = ∑ r ∈ Finset.range 5000, f (Aext5 V c q (5000 * t.val + r)) := by
  rw [Finset.sum_range]
  refine Finset.sum_congr rfl fun r _ => ?_
  rw [blk5_apply]
  unfold Aext5
  rw [dif_pos (row_lt5 t r)]

-- THE FOLD before point n, at lane q, when `z` is zero there and each step adds the column sum of `f` over the stored block: the sum of `f` over the affine map's rows below 5000 n (sums of extended reals are associative and commutative: no finiteness is asked).
theorem acc5_apply (c : Dev nD) (q : Fin 128) (pay) (z : Vec Ideal S1x128 .f32) (f : EReal → EReal) (hz : acc5 (F := Ideal) V c pay z 0 (ix2 (0 : Fin 1) q) = 0)
    (hpay : ∀ x0 x2 x1 x3 prev, pay x0 x2 x1 x3 prev (ix2 (0 : Fin 1) q)
      = prev (ix2 (0 : Fin 1) q) + ∑ r : Fin 5000, f (k5_pay3 (F := Ideal) x0 x2 x1 x3 (ix2 r q))) :
    ∀ n, n ≤ cfg5.N → acc5 (F := Ideal) V c pay z n (ix2 (0 : Fin 1) q) = ∑ p ∈ Finset.range (5000 * n), f (Aext5 V c q p)
  | 0, _ => hz.trans (Finset.sum_range_zero _).symm
  | n + 1, h => by
    rw [← acc5_step V c pay z ⟨n, h⟩ (n := n + 1) rfl, hpay, acc5_apply c q pay z f hz hpay n (Nat.le_of_succ_le h), blk_sum5,
      Nat.mul_add_one, Finset.sum_range_add]

theorem sum_Aext5 (c : Dev nD) (q : Fin 128) (f : EReal → EReal) :
    ∑ p ∈ Finset.range 600000, f (Aext5 V c q p) = ∑ p : Fin 600000, f (A5 V c p q) := by
  rw [Finset.sum_range]
  refine Finset.sum_congr rfl fun p _ => ?_
  unfold Aext5
  rw [dif_pos p.isLt]

@[irreducible] def colF5 (f : EReal → EReal) (c : Dev nD) : S1x128.Idx → EReal :=
  fun i => ∑ p : Fin 600000, f (A5 V c p ⟨(i 1).val, idx2_lt1 i⟩)

theorem colF5_apply (f : EReal → EReal) (c : Dev nD) (q : Fin 128) :
    colF5 V f c (ix2 (0 : Fin 1) q) = ∑ p : Fin 600000, f (A5 V c p q) := by
  unfold colF5
  exact Finset.sum_congr rfl fun p _ => congrArg (fun q' => f (A5 V c p q')) (Fin.ext rfl)

-- What the last point leaves in an accumulator, at lane q: the fold over all 600000 rows.
theorem acc5_last (c : Dev nD) (q : Fin 128) (pay) (z : Vec Ideal S1x128 .f32) (f : EReal → EReal) (hz : acc5 (F := Ideal) V c pay z 0 (ix2 (0 : Fin 1) q) = 0)
    (hpay : ∀ x0 x2 x1 x3 prev, pay x0 x2 x1 x3 prev (ix2 (0 : Fin 1) q)
      = prev (ix2 (0 : Fin 1) q) + ∑ r : Fin 5000, f (k5_pay3 (F := Ideal) x0 x2 x1 x3 (ix2 r q)))
    (t : Fin cfg5.N) (ht : t.val % 120 = 119) :
    pay (iblk5 V c 0 t) (iblk5 V c 2 t) (iblk5 V c 1 t) (iblk5 V c 3 t) (acc5 (F := Ideal) V c pay z t.val) (ix2 (0 : Fin 1) q)
      = colF5 V f c (ix2 (0 : Fin 1) q) := by
  have h2 : t.val < 120 := t.isLt
  rw [acc5_step V c pay z t (n := 120) (by omega), colF5_apply]
  exact (acc5_apply V c q pay z f hz hpay 120 (Nat.le_refl _)).trans (sum_Aext5 V c q f)

theorem flushed5_5_eq (c : Dev nD) (t : Fin cfg5.N) (hf : (cfg5.win 5).flush t = true) :
    (dat5 (F := Ideal) V c).flushed 5 t = ((cfg5.win 5).blk t).view.read (Elt Ideal) (colF5 V (fun a => a) c) := by
  funext j
  obtain ⟨u, q, rfl⟩ : ∃ (u : Fin 1) (q : Fin 128), j = ix2 u q := ⟨_, _, eq_ix2 j⟩
  obtain rfl : u = 0 := Subsingleton.elim _ _
  rw [View.read_apply, emb5_5]
  exact acc5_last V c q k5_pay4 (k5_pay1 (F := Ideal)) (fun a => a) (k5_pay1_apply _) (fun _ _ _ _ _ => k5_pay4_apply _ _ _ _ _ q) t ((flush5_5 t).mp hf)

theorem flushed5_6_eq (c : Dev nD) (t : Fin cfg5.N) (hf : (cfg5.win 6).flush t = true) :
    (dat5 (F := Ideal) V c).flushed 6 t = ((cfg5.win 6).blk t).view.read (Elt Ideal) (colF5 V (fun a => a * a) c) := by
  funext j
  obtain ⟨u, q, rfl⟩ : ∃ (u : Fin 1) (q : Fin 128), j = ix2 u q := ⟨_, _, eq_ix2 j⟩
  obtain rfl : u = 0 := Subsingleton.elim _ _
  rw [View.read_apply, emb5_6]
  exact acc5_last V c q k5_pay5 (k5_pay2 (F := Ideal)) (fun a => a * a) (k5_pay2_apply _) (fun _ _ _ _ _ => k5_pay5_apply _ _ _ _ _ q) t ((flush5_6 t).mp hf)

theorem last_lt5 : 119 < cfg5.N := show 119 < 120 by decide

-- THE FIRST ACCUMULATOR ends at the column sums of the affine map,
theorem final5_sum_apply (c : Dev nD) (q : Fin 128) :
    (dat5 (F := Ideal) V c).arrAt 5 cfg5.N (ix2 (0 : Fin 1) q) = ∑ p : Fin 600000, A5 V c p q := by
  refine ((dat5 (F := Ideal) V c).arrAt_apply_of_mem 5 _ (flushed5_5_eq V c) cfg5.N ⟨119, last_lt5⟩ (ix2 (0 : Fin 1) q) last_lt5
    ((flush5_5 _).mpr rfl) ?_).trans (colF5_apply V _ c q)
  rw [← emb5_5 ⟨119, last_lt5⟩ 0 q]; exact View.emb_mem_set _ _

-- THE SECOND at the column sums of its squares.
theorem final5_sq_apply (c : Dev nD) (q : Fin 128) :
    (dat5 (F := Ideal) V c).arrAt 6 cfg5.N (ix2 (0 : Fin 1) q) = ∑ p : Fin 600000, A5 V c p q * A5 V c p q := by
  refine ((dat5 (F := Ideal) V c).arrAt_apply_of_mem 6 _ (flushed5_6_eq V c) cfg5.N ⟨119, last_lt5⟩ (ix2 (0 : Fin 1) q) last_lt5
    ((flush5_6 _).mpr rfl) ?_).trans (colF5_apply V _ c q)
  rw [← emb5_6 ⟨119, last_lt5⟩ 0 q]; exact View.emb_mem_set _ _

end Cert.KernelIdeal.Hand

end
-- ==== Proof.Bridge.AReal.lean ====
import proofs.«411265_j32847909880435_1_alg».proof.Proof.Bridge.Neighbor
import proofs.«411265_j32847909880435_1_alg».proof.Proof.KI.Frame
import proofs.«411265_j32847909880435_1_alg».proof.Proof.KI.Val5
import proofs.«411265_j32847909880435_1_alg».proof.Proof.KI.Host
import proofs.«411265_j32847909880435_1_alg».proof.Proof.Pre
import proofs.«411265_j32847909880435_1_alg».proof.Proof.Spec.Algebra

set_option maxRecDepth 16384

noncomputable section

namespace Cert.Bridge

open Idealize.ShloMosaic Idealize.ShloMosaic.TcCoe Idealize.SL.Sem Cert.KernelIdeal

section
variable (m : KMem) (m' : RMem) (hpre : Cert.Pre_KernelIdeal m) (hagree : Agree m m')
include hpre hagree

-- A sum of products of real entries of the node table and the weight, plus a real neighbor entry, plus a real bias entry, is real.
theorem aff_real (c : Dev nD) (p : Fin 600000) (q : Fin 128) :
    ∃ r : ℝ, Hand.A5 (fun c b => Gen.V22 m (Hand.outsH m) c b) c p q = (r : EReal) := by
  refine Cert.Spec.real_add (Cert.Spec.real_add (Cert.Spec.real_sum_univ _ fun k => Cert.Spec.real_mul ?_ ?_)
    (neighbor_real m m' hpre hagree c _)) ?_
  · exact real_of_eq (s := S600000x128) (Hand.V22_main_arg0 m (Hand.outsH m) c) (kfin0 m hpre c) _
  · exact real_of_eq (s := S128x128) (Hand.V22_main_arg2 m (Hand.outsH m) c)
      (Cert.PreFacts.fin_a2 _ _ _ _ _ _ _ _ _ _ _ _ _ _ _ _ _ _ _ (hpre c)) _
  · exact real_of_eq (s := S1x128) (Hand.V22_main_arg3 m (Hand.outsH m) c)
      (Cert.PreFacts.fin_a3 _ _ _ _ _ _ _ _ _ _ _ _ _ _ _ _ _ _ _ (hpre c)) _

end

end Cert.Bridge

end
-- ==== Proof.Bridge.RefTail.lean ====
import proofs.«411265_j32847909880435_1_alg».proof.Proof.Spec.Algebra
import proofs.«411265_j32847909880435_1_alg».proof.Proof.Gen.ReferenceIdeal.Read
import Idealize.ShloMosaic.Lib.ValueIdx
import Idealize.ShloMosaic.Lib.IdealHost
import Idealize.ShloMosaic.PureOps.Ideal.Laws

set_option maxRecDepth 16384

noncomputable section

namespace Cert.Bridge

open Idealize.ShloMosaic Idealize.ShloMosaic.TcCoe Idealize.ShloMosaic.ValueIdx Idealize.SL.Sem
open scoped BigOperators

-- Exponent 146 and significand 2^23 + 1211392: 9600000 * 2^(-4) = 600000.
theorem ofBits_n : Ideal.ofBits .f32 0x49127C00#32 = ((600000 : ℝ) : EReal) := by
  simp [Ideal.ofBits, Ideal.ieee, -EReal.coe_mul]
  norm_num

section Reference

open Cert.ReferenceIdeal Cert.ReferenceIdeal.Read

-- The index maps of the reads are the plain coordinates.
theorem lidx92_ix2 (p : Fin 600000) (q k : Fin 128) : lidx_main_v92 (ix2 p q) k = ix2 p k := eq_ix2 _
theorem ridx92_ix2 (p : Fin 600000) (q k : Fin 128) : ridx_main_v92 (ix2 p q) k = ix2 k q := eq_ix2 _
theorem idx94_ix2 (p : Fin 600000) (q : Fin 128) : idx_main_v94 (ix2 p q) = ix2 (0 : Fin 1) q := eq_ix2 _
theorem idx100_ix2 (p : Fin 600000) (q : Fin 128) : idx_main_v100 (ix2 p q) = ix2 (0 : Fin 1) q := eq_ix2 _
theorem idx107_ix2 (p : Fin 600000) (q : Fin 128) : idx_main_v107 (ix2 p q) = ix2 (0 : Fin 1) q := eq_ix2 _
theorem idx112_ix2 (p : Fin 600000) (q : Fin 128) : idx_main_v112 (ix2 p q) = ix2 (0 : Fin 1) q := eq_ix2 _
theorem idx96_ix2 (q : Fin 128) (k : Fin 600000) : idx_main_v96 (idx_main_v97 (ix2 (0 : Fin 1) q)) k = ix2 k q := eq_ix2 _
theorem idx103_ix2 (q : Fin 128) (k : Fin 600000) : idx_main_v103 (idx_main_v104 (ix2 (0 : Fin 1) q)) k = ix2 k q := eq_ix2 _

variable (x0 : (⟨S600000x128, .f32⟩ : BufTy).Contents (Elt Ideal)) (x1 : (⟨S1600000x32, .f32⟩ : BufTy).Contents (Elt Ideal))
  (x2 : (⟨S128x128, .f32⟩ : BufTy).Contents (Elt Ideal)) (x3 : (⟨S1x128, .f32⟩ : BufTy).Contents (Elt Ideal))
  (x4 x5 x6 x7 x8 : (⟨S160x128, .f32⟩ : BufTy).Contents (Elt Ideal))
  (x9 x10 : (⟨S100000x1, .i32⟩ : BufTy).Contents (Elt Ideal)) (x11 x12 : (⟨S100000x2, .i32⟩ : BufTy).Contents (Elt Ideal))
  (x13 x14 : (⟨S100000x3, .i32⟩ : BufTy).Contents (Elt Ideal)) (x15 x16 : (⟨S100000x4, .i32⟩ : BufTy).Contents (Elt Ideal))
  (x17 x18 : (⟨S100000x5, .i32⟩ : BufTy).Contents (Elt Ideal))

-- Each stage of the reference read at an index, in terms of the stage before.
theorem ref_a_apply (p : Fin 600000) (q : Fin 128) :
    val_main_v95 (F := Ideal) x0 x1 x2 x3 x4 x5 x6 x7 x8 x9 x10 x11 x12 x13 x14 x15 x16 x17 x18 (ix2 p q)
      = (∑ k : Fin 128, x0 (ix2 p k) * x2 (ix2 k q)) + val_main_v91 (F := Ideal) x0 x1 x4 x5 x6 x7 x8 x9 x10 x11 x12 x13 x14 x15 x16 x17 x18 (ix2 p q)
          + x3 (ix2 (0 : Fin 1) q) := by
  rw [val_main_v95_apply, val_main_v93_apply, val_main_v92_apply, val_main_v94_apply, idx94_ix2]
  simp only [Ideal.addf_def, lidx92_ix2, ridx92_ix2]

theorem ref_mean_apply (q : Fin 128) :
    val_main_v99 (F := Ideal) x0 x1 x2 x3 x4 x5 x6 x7 x8 x9 x10 x11 x12 x13 x14 x15 x16 x17 x18 (ix2 (0 : Fin 1) q)
      = Ideal.div (∑ p : Fin 600000, val_main_v95 (F := Ideal) x0 x1 x2 x3 x4 x5 x6 x7 x8 x9 x10 x11 x12 x13 x14 x15 x16 x17 x18 (ix2 p q))
          (Ideal.ofBits .f32 0x49127C00#32) := by
  rw [val_main_v99_apply, val_main_v97_apply, val_main_v96_apply, val_main_v98_apply, val_main_cst_29_apply,
    val_main_cst_30_apply]
  simp only [Ideal.hostDivf_def, Ideal.ofBits_def, Ideal.ofBits_zero_f32, zero_add, idx96_ix2]

theorem ref_inv_apply (q : Fin 128) :
    val_main_v111 (F := Ideal) x0 x1 x2 x3 x4 x5 x6 x7 x8 x9 x10 x11 x12 x13 x14 x15 x16 x17 x18 (ix2 (0 : Fin 1) q)
      = Ideal.rsqrt (val_main_v106 (F := Ideal) x0 x1 x2 x3 x4 x5 x6 x7 x8 x9 x10 x11 x12 x13 x14 x15 x16 x17 x18 (ix2 (0 : Fin 1) q) + Ideal.ofBits .f32 0x3727C5AC#32) := by
  rw [val_main_v111_apply, val_main_v110_apply, val_main_v109_apply, val_main_cst_33_apply]
  simp only [Ideal.hostUnary_rsqrt_def, Ideal.addf_def, Ideal.ofBits_def]

theorem ref_out_apply (p : Fin 600000) (q : Fin 128) :
    val_main_v114 (F := Ideal) x0 x1 x2 x3 x4 x5 x6 x7 x8 x9 x10 x11 x12 x13 x14 x15 x16 x17 x18 (ix2 p q)
      = max ((val_main_v95 (F := Ideal) x0 x1 x2 x3 x4 x5 x6 x7 x8 x9 x10 x11 x12 x13 x14 x15 x16 x17 x18 (ix2 p q) - val_main_v99 (F := Ideal) x0 x1 x2 x3 x4 x5 x6 x7 x8 x9 x10 x11 x12 x13 x14 x15 x16 x17 x18 (ix2 (0 : Fin 1) q))
          * val_main_v111 (F := Ideal) x0 x1 x2 x3 x4 x5 x6 x7 x8 x9 x10 x11 x12 x13 x14 x15 x16 x17 x18 (ix2 (0 : Fin 1) q)) 0 := by
  rw [val_main_v114_apply, val_main_v113_apply, val_main_v108_apply, val_main_v107_apply, val_main_v112_apply,
    val_main_call0_v0_apply, val_main_call0_cst_apply, idx107_ix2, idx112_ix2]
  simp only [Ideal.maximumf_def, Ideal.mulf_def, Ideal.subf_def, Ideal.ofBits_def, Ideal.ofBits_zero_f32]

theorem a_core (y0 : (⟨S600000x128, .f32⟩ : BufTy).Contents (Elt Ideal)) (y2 : (⟨S128x128, .f32⟩ : BufTy).Contents (Elt Ideal))
    (y3 : (⟨S1x128, .f32⟩ : BufTy).Contents (Elt Ideal)) (y31 : (⟨S600000x128, .f32⟩ : BufTy).Contents (Elt Ideal))
    (h0 : y0 = x0) (h2 : y2 = x2) (h3 : y3 = x3) (hn : y31 = val_main_v91 (F := Ideal) x0 x1 x4 x5 x6 x7 x8 x9 x10 x11 x12 x13 x14 x15 x16 x17 x18)
    (p : Fin 600000) (q : Fin 128) :
    (∑ k : Fin 128, y0 (ix2 p k) * y2 (ix2 k q)) + y31 (ix2 p q) + y3 (ix2 (0 : Fin 1) q)
      = val_main_v95 (F := Ideal) x0 x1 x2 x3 x4 x5 x6 x7 x8 x9 x10 x11 x12 x13 x14 x15 x16 x17 x18 (ix2 p q) := by
  rw [h0, h2, h3, hn]
  exact (ref_a_apply x0 x1 x2 x3 x4 x5 x6 x7 x8 x9 x10 x11 x12 x13 x14 x15 x16 x17 x18 p q).symm

-- The two formulas for the variance of a column agree when its entries are real.
theorem ref_var_core (q : Fin 128)
    (hreal : ∀ p : Fin 600000, ∃ r : ℝ, val_main_v95 (F := Ideal) x0 x1 x2 x3 x4 x5 x6 x7 x8 x9 x10 x11 x12 x13 x14 x15 x16 x17 x18 (ix2 p q) = (r : EReal)) :
    Ideal.div (∑ p : Fin 600000, val_main_v95 (F := Ideal) x0 x1 x2 x3 x4 x5 x6 x7 x8 x9 x10 x11 x12 x13 x14 x15 x16 x17 x18 (ix2 p q) * val_main_v95 (F := Ideal) x0 x1 x2 x3 x4 x5 x6 x7 x8 x9 x10 x11 x12 x13 x14 x15 x16 x17 x18 (ix2 p q))
          (Ideal.ofBits .f32 0x49127C00#32)
        - Ideal.div (∑ p : Fin 600000, val_main_v95 (F := Ideal) x0 x1 x2 x3 x4 x5 x6 x7 x8 x9 x10 x11 x12 x13 x14 x15 x16 x17 x18 (ix2 p q)) (Ideal.ofBits .f32 0x49127C00#32)
          * Ideal.div (∑ p : Fin 600000, val_main_v95 (F := Ideal) x0 x1 x2 x3 x4 x5 x6 x7 x8 x9 x10 x11 x12 x13 x14 x15 x16 x17 x18 (ix2 p q)) (Ideal.ofBits .f32 0x49127C00#32)
      = val_main_v106 (F := Ideal) x0 x1 x2 x3 x4 x5 x6 x7 x8 x9 x10 x11 x12 x13 x14 x15 x16 x17 x18 (ix2 (0 : Fin 1) q) := by
  rw [val_main_v106_apply, val_main_v104_apply, val_main_v103_apply, val_main_v105_apply, val_main_cst_31_apply,
    val_main_cst_32_apply]
  simp only [Ideal.hostDivf_def, Ideal.ofBits_def, Ideal.ofBits_zero_f32, zero_add, idx103_ix2, val_main_v102_apply,
    val_main_v101_apply, val_main_v100_apply, idx100_ix2, Ideal.mulf_def, Ideal.subf_def]
  rw [ref_mean_apply, ofBits_n]
  exact Cert.Spec.var_identity (fun p : Fin 600000 => val_main_v95 (F := Ideal) x0 x1 x2 x3 x4 x5 x6 x7 x8 x9 x10 x11 x12 x13 x14 x15 x16 x17 x18 (ix2 p q)) hreal 600000
    (by norm_num) (by norm_num)

end Reference

end Cert.Bridge

end
-- ==== Proof.KI.Val6.lean ====
import proofs.«411265_j32847909880435_1_alg».proof.Proof.KI.Reg6
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

-- The payload at (r, q): the element less its column's mean, times its column's inverse deviation, clamped below at zero.
theorem k6_pay1_apply (x0 : Vec Ideal S5000x128 .f32) (x1 : Vec Ideal S1x128 .f32) (x2 : Vec Ideal S1x128 .f32)
    (r : Fin 5000) (q : Fin 128) :
    k6_pay1 (F := Ideal) x0 x1 x2 (ix2 r q) = max ((x0 (ix2 r q) - x1 (ix2 0 q)) * x2 (ix2 0 q)) 0 := by
  have hb : ∀ x : Vec Ideal S1x128 .f32,
      broadcastTo S5000x128 (shapeCast S1x128 x shapeCasts_S1x128_S1x128) broadcasts_S1x128_S5000x128 (ix2 r q)
        = x (ix2 0 q) := fun x => by
    rw [shapeCast_self]
    refine broadcastTo_apply x _ (ix2 r q) (ix2 0 q) fun a => ?_
    match a with
    | ⟨0, _⟩ => rfl
    | ⟨1, _⟩ => rfl
  unfold k6_pay1
  show max ((shapeCast S5000x128 x0 shapeCasts_S5000x128_S5000x128 (ix2 r q)
      - broadcastTo S5000x128 (shapeCast S1x128 x1 shapeCasts_S1x128_S1x128) broadcasts_S1x128_S5000x128 (ix2 r q))
      * broadcastTo S5000x128 (shapeCast S1x128 x2 shapeCasts_S1x128_S1x128) broadcasts_S1x128_S5000x128 (ix2 r q))
      (Ideal.ofBits .f32 0x00000000#32) = _
  rw [hb x1, hb x2, shapeCast_self, Ideal.ofBits_zero_f32]

abbrev nrm6 (a m s : EReal) : EReal := max ((a - m) * s) 0

abbrev G6 (a : S600000x128.Idx → EReal) (m s : S1x128.Idx → EReal) : S600000x128.Idx → EReal :=
  fun i => nrm6 (a i) (m (ix2 (0 : Fin 1) (i 1))) (s (ix2 (0 : Fin 1) (i 1)))

theorem idx6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

theorem row_lt6 (t : Fin cfg6.N) (r : Fin 5000) : 5000 * t.val + r.val < 600000 := by
  have h1 : t.val < 120 := t.isLt
  have h2 := r.isLt
  omega

-- Where an element of point t's block sits in its array.
theorem emb6_0 (t : Fin cfg6.N) (r : Fin 5000) (q : Fin 128) :
    ((cfg6.win 0).blk t).view.emb (ix2 r q) = ix2 (⟨5000 * t.val + r.val, row_lt6 t r⟩ : Fin 600000) q := by
  obtain ⟨e0, e1, -⟩ := idx6 t
  funext a; apply Fin.ext
  match a with
  | ⟨0, _⟩ => show win6_0.index t (0 : Fin 2) * 5000 + 1 * r.val = 5000 * t.val + r.val; rw [e0]; omega
  | ⟨1, _⟩ => show win6_0.index t (1 : Fin 2) * 128 + 1 * q.val = q.val; rw [e1]; omega
theorem emb6_1 (t : Fin cfg6.N) (u : Fin 1) (q : Fin 128) : ((cfg6.win 1).blk t).view.emb (ix2 u q) = ix2 u q := by
  obtain ⟨-, -, e0, e1, -⟩ := idx6 t
  funext a; apply Fin.ext
  match a with
  | ⟨0, _⟩ => show win6_1.index t (0 : Fin 2) * 1 + 1 * u.val = u.val; rw [e0]; omega
  | ⟨1, _⟩ => show win6_1.index t (1 : Fin 2) * 128 + 1 * q.val = q.val; rw [e1]; omega
theorem emb6_2 (t : Fin cfg6.N) (u : Fin 1) (q : Fin 128) : ((cfg6.win 2).blk t).view.emb (ix2 u q) = ix2 u q := by
  obtain ⟨-, -, -, -, e0, e1, -⟩ := idx6 t
  funext a; apply Fin.ext
  match a with
  | ⟨0, _⟩ => show win6_2.index t (0 : Fin 2) * 1 + 1 * u.val = u.val; rw [e0]; omega
  | ⟨1, _⟩ => show win6_2.index t (1 : Fin 2) * 128 + 1 * q.val = q.val; rw [e1]; omega
theorem emb6_3 (t : Fin cfg6.N) (r : Fin 5000) (q : Fin 128) :
    ((cfg6.win 3).blk t).view.emb (ix2 r q) = ix2 (⟨5000 * t.val + r.val, row_lt6 t r⟩ : Fin 600000) q := by
  obtain ⟨-, -, -, -, -, -, e0, e1⟩ := idx6 t
  funext a; apply Fin.ext
  match a with
  | ⟨0, _⟩ => show win6_3.index t (0 : Fin 2) * 5000 + 1 * r.val = 5000 * t.val + r.val; rw [e0]; omega
  | ⟨1, _⟩ => show win6_3.index t (1 : Fin 2) * 128 + 1 * q.val = q.val; rw [e1]; omega

-- WHAT POINT t WRITES BACK is block t of the array normalised element by element.
theorem flushed6_eq (c : Dev nD) (t : Fin cfg6.N) :
    (dat6 (F := Ideal) V c).flushed 3 t
      = ((cfg6.win 3).blk t).view.read (Elt Ideal) (G6 (V c main_v32_0) (V c main_v34) (V c main_v41)) := by
  show (cfg6.win 3).cut (grid6.coords t) ((dat6 V c).after 3 t) = _
  rw [after6_3, out6_3_eq]
  funext j
  obtain ⟨r, q, rfl⟩ : ∃ (r : Fin 5000) (q : Fin 128), j = ix2 r q := ⟨j 0, j 1, eq_ix2 j⟩
  refine (k6_pay1_apply _ _ _ r q).trans ?_
  show nrm6 (V c main_v32_0 (((cfg6.win 0).blk t).view.emb (ix2 r q)))
      (V c main_v34 (((cfg6.win 1).blk t).view.emb (ix2 (0 : Fin 1) q)))
      (V c main_v41 (((cfg6.win 2).blk t).view.emb (ix2 (0 : Fin 1) q)))
    = G6 (V c main_v32_0) (V c main_v34) (V c main_v41) (((cfg6.win 3).blk t).view.emb (ix2 r q))
  rw [emb6_0, emb6_1, emb6_2, emb6_3]

-- THE OUTPUT ARRAY at row p, column q: row p lies in the block of point p / 5000.
theorem final6_apply (c : Dev nD) (p : Fin 600000) (q : Fin 128) :
    (dat6 (F := Ideal) V c).arrAt 3 cfg6.N (ix2 p q)
      = max (α := EReal) (HMul.hMul (α := EReal) (β := EReal)
          (HSub.hSub (α := EReal) (β := EReal) (V c main_v32_0 (ix2 p q)) (V c main_v34 (ix2 0 q)))
          (V c main_v41 (ix2 0 q))) 0 := by
  have hp := p.isLt
  have ht : p.val / 5000 < cfg6.N := show _ < 120 by omega
  refine ((dat6 (F := Ideal) V c).arrAt_apply_of_mem 3 (G6 (V c main_v32_0) (V c main_v34) (V c main_v41))
    (fun t _ => flushed6_eq V c t) cfg6.N ⟨p.val / 5000, ht⟩ (ix2 p q) ht (flush6_3 _) ?_).trans rfl
  rw [← (emb6_3 ⟨p.val / 5000, ht⟩ ⟨p.val % 5000, Nat.mod_lt _ (by decide)⟩ q).trans
    (congrArg (ix2 · q) (Fin.ext (Nat.div_add_mod p.val 5000)))]
  exact View.emb_mem_set _ _

end Cert.KernelIdeal.Hand

end
-- ==== Proof.Bridge.Result.lean ====
import proofs.«411265_j32847909880435_1_alg».proof.Defs
import proofs.«411265_j32847909880435_1_alg».proof.Proof.Bridge.Neighbor
import proofs.«411265_j32847909880435_1_alg».proof.Proof.Bridge.AReal
import proofs.«411265_j32847909880435_1_alg».proof.Proof.Bridge.RefTail
import proofs.«411265_j32847909880435_1_alg».proof.Proof.KI.Frame
import proofs.«411265_j32847909880435_1_alg».proof.Proof.KI.Host
import proofs.«411265_j32847909880435_1_alg».proof.Proof.KI.Val5
import proofs.«411265_j32847909880435_1_alg».proof.Proof.KI.Val6
import proofs.«411265_j32847909880435_1_alg».proof.Proof.Pre
import proofs.«411265_j32847909880435_1_alg».proof.Proof.Spec.Algebra
import proofs.«411265_j32847909880435_1_alg».proof.Proof.Gen.ReferenceIdeal.Read
import proofs.«411265_j32847909880435_1_alg».proof.Proof.Gen.Pre_finite_inputs
import Idealize.ShloMosaic.Lib.ValueIdx
import Idealize.ShloMosaic.Lib.IdealHost
import Idealize.ShloMosaic.PureOps.Ideal.Laws

set_option maxRecDepth 16384

noncomputable section

namespace Cert.Bridge

open Idealize.ShloMosaic Idealize.ShloMosaic.TcCoe Idealize.ShloMosaic.ValueIdx Idealize.SL.Sem
open scoped BigOperators

section Kernel

open Cert.KernelIdeal Cert.KernelIdeal.Gen

-- A scalar constant spread over a row reads the constant everywhere.
theorem splat_apply (b : BitVec 32) (i : S1x128.Idx) :
    broadcastInDim S1x128 ![] bcast_S_S1x128 (constant (F := Ideal) S_ .f32 b) i = Ideal.ofBits .f32 b := by
  exact broadcastInDim_scalar_apply _ _ i

variable (m : KMem)

abbrev W22 : (c : Dev nD) → (b : Ref sig .tc) → Buf (Elt Ideal) ((c : Thread nD τ).loc b) :=
  fun c b => Gen.V22 m (Hand.outsH m) c b

abbrev W24 : (c : Dev nD) → (b : Ref sig .tc) → Buf (Elt Ideal) ((c : Thread nD τ).loc b) :=
  fun c b => Gen.V24 m (Hand.outsH m) c b

variable (c : Dev nD)

theorem ker_a_apply (p : Fin 600000) (q : Fin 128) :
    (Hand.outsH m 23 main_v32_0 c : Vec Ideal S600000x128 .f32) (ix2 p q) = Hand.A5 (W22 m) c p q := by
  rw [Hand.outs_v32_0 m c]
  exact Hand.final5_a_apply (W22 m) c p q

-- The second and third outputs hold the column sums of the affine map and of its squares.
theorem ker_sum_apply (q : Fin 128) :
    (Hand.outsH m 23 main_v32_1 c : Vec Ideal S1x128 .f32) (ix2 (0 : Fin 1) q) = ∑ p : Fin 600000, Hand.A5 (W22 m) c p q := by
  rw [Hand.outs_v32_1 m c]
  exact Hand.final5_sum_apply (W22 m) c q

theorem ker_sq_apply (q : Fin 128) :
    (Hand.outsH m 23 main_v32_2 c : Vec Ideal S1x128 .f32) (ix2 (0 : Fin 1) q)
      = ∑ p : Fin 600000, Hand.A5 (W22 m) c p q * Hand.A5 (W22 m) c p q := by
  rw [Hand.outs_v32_2 m c]
  exact Hand.final5_sq_apply (W22 m) c q

theorem ker_mean_apply (q : Fin 128) :
    (Gen.V24 m (Hand.outsH m) c main_v34 : Vec Ideal S1x128 .f32) (ix2 (0 : Fin 1) q)
      = Ideal.div (∑ p : Fin 600000, Hand.A5 (W22 m) c p q) (Ideal.ofBits .f32 0x49127C00#32) := by
  rw [Hand.mean_eq m (Hand.outsH m) c]
  show Ideal.div _ _ = _
  rw [splat_apply, ker_sum_apply]

theorem ker_inv_apply (q : Fin 128) :
    (Gen.V24 m (Hand.outsH m) c main_v41 : Vec Ideal S1x128 .f32) (ix2 (0 : Fin 1) q)
      = Ideal.rsqrt (Ideal.div (∑ p : Fin 600000, Hand.A5 (W22 m) c p q * Hand.A5 (W22 m) c p q) (Ideal.ofBits .f32 0x49127C00#32)
          - Ideal.div (∑ p : Fin 600000, Hand.A5 (W22 m) c p q) (Ideal.ofBits .f32 0x49127C00#32)
            * Ideal.div (∑ p : Fin 600000, Hand.A5 (W22 m) c p q) (Ideal.ofBits .f32 0x49127C00#32)
          + Ideal.ofBits .f32 0x3727C5AC#32) := by
  rw [Hand.inv_eq m (Hand.outsH m) c]
  show Ideal.rsqrt (Ideal.div _ _ - Ideal.div _ _ * Ideal.div _ _ + _) = _
  rw [splat_apply, splat_apply, ker_sum_apply, ker_sq_apply]

theorem ker_out_apply (p : Fin 600000) (q : Fin 128) :
    (Gen.V25 m (Hand.outsH m) c main_v42 : Vec Ideal S600000x128 .f32) (ix2 p q)
      = max ((Hand.A5 (W22 m) c p q - (Gen.V24 m (Hand.outsH m) c main_v34 : Vec Ideal S1x128 .f32) (ix2 (0 : Fin 1) q))
          * (Gen.V24 m (Hand.outsH m) c main_v41 : Vec Ideal S1x128 .f32) (ix2 (0 : Fin 1) q)) 0 := by
  have h1 : (Gen.V25 m (Hand.outsH m) c main_v42 : Vec Ideal S600000x128 .f32)
      = (Hand.dat6 (F := Ideal) (W24 m) c).arrAt 3 cfg6.N :=
    (Hand.V25_main_v42 m (Hand.outsH m) c).trans (Hand.outs_v42 m c)
  have h2 : (W24 m c main_v32_0 : Vec Ideal S600000x128 .f32) (ix2 p q) = Hand.A5 (W22 m) c p q := by
    show (Gen.V24 m (Hand.outsH m) c main_v32_0 : Vec Ideal S600000x128 .f32) (ix2 p q) = _
    rw [Hand.V24_main_v32_0 m (Hand.outsH m) c]
    exact ker_a_apply m c p q
  rw [h1, Hand.final6_apply (W24 m) c p q, h2]

end Kernel

section Stages

open Cert.KernelIdeal Cert.KernelIdeal.Gen

variable (m : KMem) (m' : RMem) (c : Dev Cert.KernelIdeal.nD)

abbrev refA := Cert.ReferenceIdeal.Read.val_main_v95 (F := Ideal) (rarg0 m' c) (rarg1 m' c) (rarg2 m' c) (rarg3 m' c) (rarg4 m' c) (rarg5 m' c) (rarg6 m' c) (rarg7 m' c) (rarg8 m' c) (rarg9 m' c) (rarg10 m' c) (rarg11 m' c) (rarg12 m' c) (rarg13 m' c) (rarg14 m' c) (rarg15 m' c) (rarg16 m' c) (rarg17 m' c) (rarg18 m' c)
abbrev refMean := Cert.ReferenceIdeal.Read.val_main_v99 (F := Ideal) (rarg0 m' c) (rarg1 m' c) (rarg2 m' c) (rarg3 m' c) (rarg4 m' c) (rarg5 m' c) (rarg6 m' c) (rarg7 m' c) (rarg8 m' c) (rarg9 m' c) (rarg10 m' c) (rarg11 m' c) (rarg12 m' c) (rarg13 m' c) (rarg14 m' c) (rarg15 m' c) (rarg16 m' c) (rarg17 m' c) (rarg18 m' c)
abbrev refVar := Cert.ReferenceIdeal.Read.val_main_v106 (F := Ideal) (rarg0 m' c) (rarg1 m' c) (rarg2 m' c) (rarg3 m' c) (rarg4 m' c) (rarg5 m' c) (rarg6 m' c) (rarg7 m' c) (rarg8 m' c) (rarg9 m' c) (rarg10 m' c) (rarg11 m' c) (rarg12 m' c) (rarg13 m' c) (rarg14 m' c) (rarg15 m' c) (rarg16 m' c) (rarg17 m' c) (rarg18 m' c)
abbrev refInv := Cert.ReferenceIdeal.Read.val_main_v111 (F := Ideal) (rarg0 m' c) (rarg1 m' c) (rarg2 m' c) (rarg3 m' c) (rarg4 m' c) (rarg5 m' c) (rarg6 m' c) (rarg7 m' c) (rarg8 m' c) (rarg9 m' c) (rarg10 m' c) (rarg11 m' c) (rarg12 m' c) (rarg13 m' c) (rarg14 m' c) (rarg15 m' c) (rarg16 m' c) (rarg17 m' c) (rarg18 m' c)

theorem a_eq (hpre : Cert.Pre_KernelIdeal m) (hagree : Agree m m') (p : Fin 600000) (q : Fin 128) :
    Hand.A5 (W22 m) c p q = refA m' c (ix2 p q) := by
  exact a_core _ _ _ _ _ _ _ _ _ _ _ _ _ _ _ _ _ _ _ _ _ _ _
    ((Hand.V22_main_arg0 m (Hand.outsH m) c).trans (arg0_eq m m' hagree c).symm)
    ((Hand.V22_main_arg2 m (Hand.outsH m) c).trans (arg2_eq m m' hagree c).symm)
    ((Hand.V22_main_arg3 m (Hand.outsH m) c).trans (arg3_eq m m' hagree c).symm)
    (neighbor_eq m m' hpre hagree c) p q

theorem mean_eq (hpre : Cert.Pre_KernelIdeal m) (hagree : Agree m m') (q : Fin 128) :
    (Gen.V24 m (Hand.outsH m) c main_v34 : Vec Ideal S1x128 .f32) (ix2 (0 : Fin 1) q) = refMean m' c (ix2 (0 : Fin 1) q) := by
  rw [ker_mean_apply]
  simp only [a_eq m m' c hpre hagree]
  exact (ref_mean_apply _ _ _ _ _ _ _ _ _ _ _ _ _ _ _ _ _ _ _ q).symm

-- The mean square less the squared mean is the mean squared deviation, every entry being real.
theorem var_eq (hpre : Cert.Pre_KernelIdeal m) (hagree : Agree m m') (q : Fin 128) :
    Ideal.div (∑ p : Fin 600000, Hand.A5 (W22 m) c p q * Hand.A5 (W22 m) c p q) (Ideal.ofBits .f32 0x49127C00#32)
        - Ideal.div (∑ p : Fin 600000, Hand.A5 (W22 m) c p q) (Ideal.ofBits .f32 0x49127C00#32)
          * Ideal.div (∑ p : Fin 600000, Hand.A5 (W22 m) c p q) (Ideal.ofBits .f32 0x49127C00#32)
      = refVar m' c (ix2 (0 : Fin 1) q) := by
  have hreal : ∀ p : Fin 600000, ∃ r : ℝ, refA m' c (ix2 p q) = (r : EReal) := fun p => by
    rw [← a_eq m m' c hpre hagree p q]
    exact aff_real m m' hpre hagree c p q
  simp only [a_eq m m' c hpre hagree]
  exact ref_var_core _ _ _ _ _ _ _ _ _ _ _ _ _ _ _ _ _ _ _ q hreal

theorem inv_eq (hpre : Cert.Pre_KernelIdeal m) (hagree : Agree m m') (q : Fin 128) :
    (Gen.V24 m (Hand.outsH m) c main_v41 : Vec Ideal S1x128 .f32) (ix2 (0 : Fin 1) q) = refInv m' c (ix2 (0 : Fin 1) q) := by
  rw [ker_inv_apply, var_eq m m' c hpre hagree q]
  exact (ref_inv_apply _ _ _ _ _ _ _ _ _ _ _ _ _ _ _ _ _ _ _ q).symm

end Stages

-- Both programs clamp (a - mean) * inv below at zero; a, mean and inv agree stage by stage.
theorem result_eq (m : KMem) (m' : RMem) (hpre : Cert.Pre_KernelIdeal m) (hagree : Agree m m')
    (c : Dev Cert.KernelIdeal.nD) :
    Cert.ReferenceIdeal.Value.res_main_v114 m' c
      = Cert.KernelIdeal.Gen.V25 m (Cert.KernelIdeal.Hand.outsH m) c Cert.KernelIdeal.main_v42 := by
  rw [Cert.ReferenceIdeal.Read.val_main_v114_eq]
  funext i
  obtain ⟨p, q, rfl⟩ : ∃ (p : Fin 600000) (q : Fin 128), i = ix2 p q := ⟨i 0, i 1, eq_ix2 i⟩
  refine (ref_out_apply _ _ _ _ _ _ _ _ _ _ _ _ _ _ _ _ _ _ _ p q).trans ?_
  refine Eq.trans ?_ (ker_out_apply m c p q).symm
  rw [a_eq m m' c hpre hagree p q, mean_eq m m' c hpre hagree q, inv_eq m m' c hpre hagree q]

end Cert.Bridge

end
-- ==== Proof.lean ====
/-
  A degree-bucketed graph convolution with batch normalisation against its plain reference. For each degree
  d = 1..5 both programs sum the d gathered node rows and edge rows of each node, multiply the joined row by the
  bucket's weight, stack the blocks into the neighbour term, add node · W_self and the bias, and normalise each
  column by its mean and variance. Over the extended reals regrouping a sum changes nothing, so the kernel's row
  blocks agree with the reference's whole products; the kernel's variance (Σ a²)/n − mean² is the reference's
  (Σ (a − mean)²)/n when every entry is real, which the finite inputs give; the gathers agree for indices in
  [−N, N), which the precondition states.
-/
import proofs.«411265_j32847909880435_1_alg».proof.Defs
import proofs.«411265_j32847909880435_1_alg».proof.Proof.Gen.Kernel
import proofs.«411265_j32847909880435_1_alg».proof.Proof.Gen.KernelIdeal
import proofs.«411265_j32847909880435_1_alg».proof.Proof.Gen.ReferenceIdeal
import proofs.«411265_j32847909880435_1_alg».proof.Proof.Gen.ReferenceIdeal.Run
import proofs.«411265_j32847909880435_1_alg».proof.Proof.Gen.ReferenceIdeal.Read
import proofs.«411265_j32847909880435_1_alg».proof.Proof.Gen.Pre_finite_inputs
import proofs.«411265_j32847909880435_1_alg».proof.Proof.K.Frame
import proofs.«411265_j32847909880435_1_alg».proof.Proof.KI.Frame
import proofs.«411265_j32847909880435_1_alg».proof.Proof.KI.Run
import proofs.«411265_j32847909880435_1_alg».proof.Proof.Bridge.Result
import Idealize.ShloMosaic.Adequacy
import Idealize.ShloMosaic.Init

noncomputable section

namespace Cert.Proof

open Idealize.ShloMosaic Idealize.ShloMosaic.TcCoe Idealize.SL.Sem

theorem frame_k [Cert.Kernel.Facts] [Cert.Pre_finite_inputs.Facts] : Cert.frame_Kernel :=
  fun m ρ _ => Cert.Kernel.Hand.frame m ρ

/-- The kernel's run over the extended reals names its result as well; the frame forgets it. -/
theorem frame_ki [Cert.KernelIdeal.Facts] [Cert.Pre_finite_inputs.Facts] : Cert.frame_KernelIdeal :=
  fun m ρ _ => (θ_run Cert.KernelIdeal.defs _ _).mono (fun _ h c => (h c).2) (Cert.KernelIdeal.Hand.run (F := Ideal) m ρ)

theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

theorem preserves : Cert.preserves_Kernel_KernelIdeal := trivial

/-- Both runs name their result; the two results are equal index by index. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Gen.V25 m (Cert.KernelIdeal.Hand.outsH m) c Cert.KernelIdeal.main_v42,
    Cert.KernelIdeal.Hand.run (F := Ideal) m ρ, ?_⟩
  exact (θ_run Cert.ReferenceIdeal.defs _ _).mono
    (fun _ h c => ⟨(h c).1.trans (Cert.Bridge.result_eq m m' hpre hagree c), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
